-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x1 : Shape := ⟨4, ![32, 64, 64, 1]⟩
abbrev S9x64 : Shape := ⟨2, ![9, 64]⟩
abbrev S576x64 : Shape := ⟨2, ![576, 64]⟩
abbrev S576x128 : Shape := ⟨2, ![576, 128]⟩
abbrev S9x128 : Shape := ⟨2, ![9, 128]⟩
abbrev S1152x128 : Shape := ⟨2, ![1152, 128]⟩
abbrev S32768x256 : Shape := ⟨2, ![32768, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S32x64x64x1 : S_.BroadcastsInDim S32x64x64x1 (![] : Fin 0 → Fin S32x64x64x1.rank)
  reducesTo_S32x64x64x1_S_d0_1_2_3 : S32x64x64x1.ReducesTo [0, 1, 2, 3] S_
  h_S_ : 0 < S_.numel
  bcast_S_S9x64 : S_.BroadcastsInDim S9x64 (![] : Fin 0 → Fin S9x64.rank)
  reducesTo_S9x64_S_d0_1 : S9x64.ReducesTo [0, 1] S_
  bcast_S_S576x64 : S_.BroadcastsInDim S576x64 (![] : Fin 0 → Fin S576x64.rank)
  reducesTo_S576x64_S_d0_1 : S576x64.ReducesTo [0, 1] S_
  bcast_S_S576x128 : S_.BroadcastsInDim S576x128 (![] : Fin 0 → Fin S576x128.rank)
  reducesTo_S576x128_S_d0_1 : S576x128.ReducesTo [0, 1] S_
  bcast_S_S9x128 : S_.BroadcastsInDim S9x128 (![] : Fin 0 → Fin S9x128.rank)
  reducesTo_S9x128_S_d0_1 : S9x128.ReducesTo [0, 1] S_
  bcast_S_S1152x128 : S_.BroadcastsInDim S1152x128 (![] : Fin 0 → Fin S1152x128.rank)
  reducesTo_S1152x128_S_d0_1 : S1152x128.ReducesTo [0, 1] S_
  bcast_S_S32768x256 : S_.BroadcastsInDim S32768x256 (![] : Fin 0 → Fin S32768x256.rank)
  reducesTo_S32768x256_S_d0_1 : S32768x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S256x10 .f32) (main_arg12 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x10 .f32 := Host.absf main_arg11
  let main_cst_20 : FVec F S_ .f32 := constant S_ .f32 0x7F800000#32
  let main_v55 : FVec F S256x10 .f32 := broadcastInDim S256x10 ![] bcast_S_S256x10 main_cst_20
  let main_v56 : IVec S256x10 1 := cmpf .olt main_v54 main_v55
  let main_c_21 : IVec S_ 1 := constantI S_ 1 1#1
  let main_v57 : IVec S_ 1 := (fun x v => Host.reduce IntOp.andi x v reducesTo_S256x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S1152x128 .f32) (main_arg8 : FVec F S9x128 .f32) (main_arg9 : FVec F S32768x256 .f32) (main_arg10 : FVec F S256 .f32) (main_arg11 : FVec F S256x10 .f32) (main_arg12 : FVec F S10 .f32) (main_v33 : IVec S_ 1) : IVec S_ 1 :=
  let main_v34 : FVec F S1152x128 .f32 := Host.absf main_arg7
  let main_cst_12 : FVec F S_ .f32 := constant S_ .f32 0x7F800000#32
  let main_v35 : FVec F S1152x128 .f32 := broadcastInDim S1152x128 ![] bcast_S_S1152x128 main_cst_12
  let main_v36 : IVec S1152x128 1 := cmpf .olt main_v34 main_v35
  let main_c_13 : IVec S_ 1 := constantI S_ 1 1#1
  let main_v37 : IVec S_ 1 := (fun x v => Host.reduce IntOp.andi x v reducesTo_S1152x128_S_d0_1 h_S_) main_v36 main_c_13
  let main_v38 : IVec S_ 1 := andi main_v33 main_v37
  let main_v39 : FVec F S9x128 .f32 := Host.absf main_arg8
  let main_cst_14 : FVec F S_ .f32 := constant S_ .f32 0x7F800000#32
  let main_v40 : FVec F S9x128 .f32 := broadcastInDim S9x128 ![] bcast_S_S9x128 main_cst_14
  let main_v41 : IVec S9x128 1 := cmpf .olt main_v39 main_v40
  let main_c_15 : IVec S_ 1 := constantI S_ 1 1#1
  let main_v42 : IVec S_ 1 := (fun x v => Host.reduce IntOp.andi x v reducesTo_S9x128_S_d0_1 h_S_) main_v41 main_c_15
  let main_v43 : IVec S_ 1 := andi main_v38 main_v42
  let main_v44 : FVec F S32768x256 .f32 := Host.absf main_arg9
  let main_cst_16 : FVec F S_ .f32 := constant S_ .f32 0x7F800000#32
  let main_v45 : FVec F S32768x256 .f32 := broadcastInDim S32768x256 ![] bcast_S_S32768x256 main_cst_16
  let main_v46 : IVec S32768x256 1 := cmpf .olt main_v44 main_v45
  let main_c_17 : IVec S_ 1 := constantI S_ 1 1#1
  let main_v47 : IVec S_ 1 := (fun x v => Host.reduce IntOp.andi x v reducesTo_S32768x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S9x64 .f32) (main_arg5 : FVec F S576x128 .f32) (main_arg6 : FVec F S9x128 .f32) (main_arg7 : FVec F S1152x128 .f32) (main_arg8 : FVec F S9x128 .f32) (main_arg9 : FVec F S32768x256 .f32) (main_arg10 : FVec F S256 .f32) (main_arg11 : FVec F S256x10 .f32) (main_arg12 : FVec F S10 .f32) (main_v13 : IVec S_ 1) (main_v16 : IVec S576x64 1) : IVec S_ 1 :=
  let main_c_5 : IVec S_ 1 := constantI S_ 1 1#1
  let main_v17 : IVec S_ 1 := (fun x v => Host.reduce IntOp.andi x v reducesTo_S576x64_S_d0_1 h_S_) main_v16 main_c_5
  let main_v18 : IVec S_ 1 := andi main_v13 main_v17
  let main_v19 : FVec F S9x64 .f32 := Host.absf main_arg4
  let main_cst_6 : FVec F S_ .f32 := constant S_ .f32 0x7F800000#32
  let main_v20 : FVec F S9x64 .f32 := broadcastInDim S9x64 ![] bcast_S_S9x64 main_cst_6
  let main_v21 : IVec S9x64 1 := cmpf .olt main_v19 main_v20
  let main_c_7 : IVec S_ 1 := constantI S_ 1 1#1
  let main_v22 : IVec S_ 1 := (fun x v => Host.reduce IntOp.andi x v reducesTo_S9x64_S_d0_1 h_S_) main_v21 main_c_7
  let main_v23 : IVec S_ 1 := andi main_v18 main_v22
  let main_v24 : FVec F S576x128 .f32 := Host.absf main_arg5
  let main_cst_8 : FVec F S_ .f32 := constant S_ .f32 0x7F800000#32
  let main_v25 : FVec F S576x128 .f32 := broadcastInDim S576x128 ![] bcast_S_S576x128 main_cst_8
  let main_v26 : IVec S576x128 1 := cmpf .olt main_v24 main_v25
  let main_c_9 : IVec S_ 1 := constantI S_ 1 1#1
  let main_v27 : IVec S_ 1 := (fun x v => Host.reduce IntOp.andi x v reducesTo_S576x128_S_d0_1 h_S_) main_v26 main_c_9
  let main_v28 : IVec S_ 1 := andi main_v23 main_v27
  let main_v29 : FVec F S9x128 .f32 := Host.absf main_arg6
  let main_cst_10 : FVec F S_ .f32 := constant S_ .f32 0x7F800000#32
  let main_v30 : FVec F S9x128 .f32 := broadcastInDim S9x128 ![] bcast_S_S9x128 main_cst_10
  let main_v31 : IVec S9x128 1 := cmpf .olt main_v29 main_v30
  let main_c_11 : IVec S_ 1 := constantI S_ 1 1#1
  let main_v32 : IVec S_ 1 := (fun x v => Host.reduce IntOp.andi x v reducesTo_S9x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x64x64x1 .f32) (main_arg1 : FVec F S9x64 .f32) (main_arg2 : FVec F S9x64 .f32) (main_arg3 : FVec F S576x64 .f32) (main_arg4 : FVec F S9x64 .f32) (main_arg5 : FVec F S576x128 .f32) (main_arg6 : FVec F S9x128 .f32) (main_arg7 : FVec F S1152x128 .f32) (main_arg8 : FVec F S9x128 .f32) (main_arg9 : FVec F S32768x256 .f32) (main_arg10 : FVec F S256 .f32) (main_arg11 : FVec F S256x10 .f32) (main_arg12 : FVec F S10 .f32) : IVec S_ 1 :=
  let main_v0 : FVec F S32x64x64x1 .f32 := Host.absf main_arg0
  let main_cst : FVec F S_ .f32 := constant S_ .f32 0x7F800000#32
  let main_v1 : FVec F S32x64x64x1 .f32 := broadcastInDim S32x64x64x1 ![] bcast_S_S32x64x64x1 main_cst
  let main_v2 : IVec S32x64x64x1 1 := cmpf .olt main_v0 main_v1
  let main_c : IVec S_ 1 := constantI S_ 1 1#1
  let main_v3 : IVec S_ 1 := (fun x v => Host.reduce IntOp.andi x v reducesTo_S32x64x64x1_S_d0_1_2_3 h_S_) main_v2 main_c
  let main_v4 : FVec F S9x64 .f32 := Host.absf main_arg1
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S9x64 .f32 := Host.absf main_arg2
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  let main_v14 : FVec F S576x64 .f32 := Host.absf main_arg3
  let main_cst_4 : FVec F S_ .f32 := constant S_ .f32 0x7F800000#32
  let main_v15 : FVec F S576x64 .f32 := broadcastInDim S576x64 ![] bcast_S_S576x64 main_cst_4
  let main_v16 : IVec S576x64 1 := cmpf .olt main_v14 main_v15
  fn_part1 (F := F) main_arg4 main_arg5 main_arg6 main_arg7 main_arg8 main_arg9 main_arg10 main_arg11 main_arg12 main_v13 main_v16
-- ==== Kernel.lean ====
abbrev S32x64x64x1 : Shape := ⟨4, ![32, 64, 64, 1]⟩
abbrev S9x64 : Shape := ⟨2, ![9, 64]⟩
abbrev S576x64 : Shape := ⟨2, ![576, 64]⟩
abbrev S576x128 : Shape := ⟨2, ![576, 128]⟩
abbrev S9x128 : Shape := ⟨2, ![9, 128]⟩
abbrev S1152x128 : Shape := ⟨2, ![1152, 128]⟩
abbrev S32768x256 : Shape := ⟨2, ![32768, 256]⟩
abbrev S256 : Shape := ⟨1, ![256]⟩
abbrev S256x10 : Shape := ⟨2, ![256, 10]⟩
abbrev S10 : Shape := ⟨1, ![10]⟩
abbrev S64x64 : Shape := ⟨2, ![64, 64]⟩
abbrev S32x32 : Shape := ⟨2, ![32, 32]⟩
abbrev S_ : Shape := ⟨0, ![]⟩
abbrev S32x66x66x1 : Shape := ⟨4, ![32, 66, 66, 1]⟩
abbrev S64x64x1 : Shape := ⟨3, ![64, 64, 1]⟩
abbrev S64x64x64 : Shape := ⟨3, ![64, 64, 64]⟩
abbrev S32x64x64x64 : Shape := ⟨4, ![32, 64, 64, 64]⟩
abbrev S4x66x66x1 : Shape := ⟨4, ![4, 66, 66, 1]⟩
abbrev S4x64x64x64 : Shape := ⟨4, ![4, 64, 64, 64]⟩
abbrev S4x64x64x1 : Shape := ⟨4, ![4, 64, 64, 1]⟩
abbrev S16384x1 : Shape := ⟨2, ![16384, 1]⟩
abbrev S1x64 : Shape := ⟨2, ![1, 64]⟩
abbrev S16384x64 : Shape := ⟨2, ![16384, 64]⟩
abbrev S1x64x64x64 : Shape := ⟨4, ![1, 64, 64, 64]⟩
abbrev S32x66x66x64 : Shape := ⟨4, ![32, 66, 66, 64]⟩
abbrev S4x66x66x64 : Shape := ⟨4, ![4, 66, 66, 64]⟩
abbrev S32x32x2x32x2x64 : Shape := ⟨6, ![32, 32, 2, 32, 2, 64]⟩
abbrev S32x32x32x64 : Shape := ⟨4, ![32, 32, 32, 64]⟩
abbrev S32x34x34x64 : Shape := ⟨4, ![32, 34, 34, 64]⟩
abbrev S32x32x1 : Shape := ⟨3, ![32, 32, 1]⟩
abbrev S32x32x128 : Shape := ⟨3, ![32, 32, 128]⟩
abbrev S32x32x32x128 : Shape := ⟨4, ![32, 32, 32, 128]⟩
abbrev S4x34x34x64 : Shape := ⟨4, ![4, 34, 34, 64]⟩
abbrev S4x32x32x128 : Shape := ⟨4, ![4, 32, 32, 128]⟩
abbrev S4x32x32x64 : Shape := ⟨4, ![4, 32, 32, 64]⟩
abbrev S4096x64 : Shape := ⟨2, ![4096, 64]⟩
abbrev S64x128 : Shape := ⟨2, ![64, 128]⟩
abbrev S4096x128 : Shape := ⟨2, ![4096, 128]⟩
abbrev S1x32x32x128 : Shape := ⟨4, ![1, 32, 32, 128]⟩
abbrev S32x34x34x128 : Shape := ⟨4, ![32, 34, 34, 128]⟩
abbrev S4x34x34x128 : Shape := ⟨4, ![4, 34, 34, 128]⟩
abbrev S128x128 : Shape := ⟨2, ![128, 128]⟩
abbrev S32x16x2x16x2x128 : Shape := ⟨6, ![32, 16, 2, 16, 2, 128]⟩
abbrev S32x16x16x128 : Shape := ⟨4, ![32, 16, 16, 128]⟩
abbrev S32x32768 : Shape := ⟨2, ![32, 32768]⟩
abbrev S1x256 : Shape := ⟨2, ![1, 256]⟩
abbrev S32x256 : Shape := ⟨2, ![32, 256]⟩
abbrev S32x4096 : Shape := ⟨2, ![32, 4096]⟩
abbrev S4096x256 : Shape := ⟨2, ![4096, 256]⟩
abbrev S1x10 : Shape := ⟨2, ![1, 10]⟩
abbrev S32x10 : Shape := ⟨2, ![32, 10]⟩

abbrev nBuf : Space → Nat
  | .hbm => 80
  | .vmem => 35
  | .smem => 0
  | _ => 0

abbrev bufTy : (tb : Table) → Fin (tcTables nBuf tb) → BufTy
  | .hbm, ⟨0, _⟩ => ⟨S32x64x64x1, .f32⟩
  | .hbm, ⟨1, _⟩ => ⟨S9x64, .f32⟩
  | .hbm, ⟨2, _⟩ => ⟨S9x64, .f32⟩
  | .hbm, ⟨3, _⟩ => ⟨S576x64, .f32⟩
  | .hbm, ⟨4, _⟩ => ⟨S9x64, .f32⟩
  | .hbm, ⟨5, _⟩ => ⟨S576x128, .f32⟩
  | .hbm, ⟨6, _⟩ => ⟨S9x128, .f32⟩
  | .hbm, ⟨7, _⟩ => ⟨S1152x128, .f32⟩
  | .hbm, ⟨8, _⟩ => ⟨S9x128, .f32⟩
  | .hbm, ⟨9, _⟩ => ⟨S32768x256, .f32⟩
  | .hbm, ⟨10, _⟩ => ⟨S256, .f32⟩
  | .hbm, ⟨11, _⟩ => ⟨S256x10, .f32⟩
  | .hbm, ⟨12, _⟩ => ⟨S10, .f32⟩
  | .hbm, ⟨13, _⟩ => ⟨S64x64, .i32⟩
  | .hbm, ⟨14, _⟩ => ⟨S64x64, .i32⟩
  | .hbm, ⟨15, _⟩ => ⟨S32x32, .i32⟩
  | .hbm, ⟨16, _⟩ => ⟨S32x32, .i32⟩
  | .hbm, ⟨17, _⟩ => ⟨S_, .f32⟩
  | .hbm, ⟨18, _⟩ => ⟨S_, .f32⟩
  | .hbm, ⟨19, _⟩ => ⟨S32x66x66x1, .f32⟩
  | .hbm, ⟨20, _⟩ => ⟨S_, .i32⟩
  | .hbm, ⟨21, _⟩ => ⟨S64x64, .i32⟩
  | .hbm, ⟨22, _⟩ => ⟨S64x64, .i1⟩
  | .hbm, ⟨23, _⟩ => ⟨S_, .i32⟩
  | .hbm, ⟨24, _⟩ => ⟨S64x64, .i32⟩
  | .hbm, ⟨25, _⟩ => ⟨S64x64, .i32⟩
  | .hbm, ⟨26, _⟩ => ⟨S64x64, .i32⟩
  | .hbm, ⟨27, _⟩ => ⟨S64x64x1, .i32⟩
  | .hbm, ⟨28, _⟩ => ⟨S64x64x64, .f32⟩
  | .hbm, ⟨29, _⟩ => ⟨S32x64x64x64, .f32⟩
  | .hbm, ⟨30, _⟩ => ⟨S_, .f32⟩
  | .hbm, ⟨31, _⟩ => ⟨S_, .f32⟩
  | .hbm, ⟨32, _⟩ => ⟨S32x66x66x64, .f32⟩
  | .hbm, ⟨33, _⟩ => ⟨S_, .i32⟩
  | .hbm, ⟨34, _⟩ => ⟨S64x64, .i32⟩
  | .hbm, ⟨35, _⟩ => ⟨S64x64, .i1⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S64x64, .i32⟩
  | .hbm, ⟨40, _⟩ => ⟨S64x64x1, .i32⟩
  | .hbm, ⟨41, _⟩ => ⟨S64x64x64, .f32⟩
  | .hbm, ⟨42, _⟩ => ⟨S32x64x64x64, .f32⟩
  | .hbm, ⟨43, _⟩ => ⟨S32x32x2x32x2x64, .f32⟩
  | .hbm, ⟨44, _⟩ => ⟨S_, .f32⟩
  | .hbm, ⟨45, _⟩ => ⟨S32x32x32x64, .f32⟩
  | .hbm, ⟨46, _⟩ => ⟨S_, .f32⟩
  | .hbm, ⟨47, _⟩ => ⟨S_, .f32⟩
  | .hbm, ⟨48, _⟩ => ⟨S32x34x34x64, .f32⟩
  | .hbm, ⟨49, _⟩ => ⟨S_, .i32⟩
  | .hbm, ⟨50, _⟩ => ⟨S32x32, .i32⟩
  | .hbm, ⟨51, _⟩ => ⟨S32x32, .i1⟩
  | .hbm, ⟨52, _⟩ => ⟨S_, .i32⟩
  | .hbm, ⟨53, _⟩ => ⟨S32x32, .i32⟩
  | .hbm, ⟨54, _⟩ => ⟨S32x32, .i32⟩
  | .hbm, ⟨55, _⟩ => ⟨S32x32, .i32⟩
  | .hbm, ⟨56, _⟩ => ⟨S32x32x1, .i32⟩
  | .hbm, ⟨57, _⟩ => ⟨S32x32x128, .f32⟩
  | .hbm, ⟨58, _⟩ => ⟨S32x32x32x128, .f32⟩
  | .hbm, ⟨59, _⟩ => ⟨S_, .f32⟩
  | .hbm, ⟨60, _⟩ => ⟨S_, .f32⟩
  | .hbm, ⟨61, _⟩ => ⟨S32x34x34x128, .f32⟩
  | .hbm, ⟨62, _⟩ => ⟨S_, .i32⟩
  | .hbm, ⟨63, _⟩ => ⟨S32x32, .i32⟩
  | .hbm, ⟨64, _⟩ => ⟨S32x32, .i1⟩
  | .hbm, ⟨65, _⟩ => ⟨S_, .i32⟩
  | .hbm, ⟨66, _⟩ => ⟨S32x32, .i32⟩
  | .hbm, ⟨67, _⟩ => ⟨S32x32, .i32⟩
  | .hbm, ⟨68, _⟩ => ⟨S32x32, .i32⟩
  | .hbm, ⟨69, _⟩ => ⟨S32x32x1, .i32⟩
  | .hbm, ⟨70, _⟩ => ⟨S32x32x128, .f32⟩
  | .hbm, ⟨71, _⟩ => ⟨S32x32x32x128, .f32⟩
  | .hbm, ⟨72, _⟩ => ⟨S32x16x2x16x2x128, .f32⟩
  | .hbm, ⟨73, _⟩ => ⟨S_, .f32⟩
  | .hbm, ⟨74, _⟩ => ⟨S32x16x16x128, .f32⟩
  | .hbm, ⟨75, _⟩ => ⟨S32x32768, .f32⟩
  | .hbm, ⟨76, _⟩ => ⟨S1x256, .f32⟩
  | .hbm, ⟨77, _⟩ => ⟨S32x256, .f32⟩
  | .hbm, ⟨78, _⟩ => ⟨S1x10, .f32⟩
  | .hbm, ⟨79, _⟩ => ⟨S32x10, .f32⟩
  | .local _ .vmem, ⟨0, _⟩ => ⟨S4x66x66x1, .f32⟩
  | .local _ .vmem, ⟨1, _⟩ => ⟨S4x66x66x1, .f32⟩
  | .local _ .vmem, ⟨2, _⟩ => ⟨S9x64, .f32⟩
  | .local _ .vmem, ⟨3, _⟩ => ⟨S64x64x64, .f32⟩
  | .local _ .vmem, ⟨4, _⟩ => ⟨S4x64x64x64, .f32⟩
  | .local _ .vmem, ⟨5, _⟩ => ⟨S4x64x64x64, .f32⟩
  | .local _ .vmem, ⟨6, _⟩ => ⟨S4x66x66x64, .f32⟩
  | .local _ .vmem, ⟨7, _⟩ => ⟨S4x66x66x64, .f32⟩
  | .local _ .vmem, ⟨8, _⟩ => ⟨S576x64, .f32⟩
  | .local _ .vmem, ⟨9, _⟩ => ⟨S64x64x64, .f32⟩
  | .local _ .vmem, ⟨10, _⟩ => ⟨S4x64x64x64, .f32⟩
  | .local _ .vmem, ⟨11, _⟩ => ⟨S4x64x64x64, .f32⟩
  | .local _ .vmem, ⟨12, _⟩ => ⟨S4x34x34x64, .f32⟩
  | .local _ .vmem, ⟨13, _⟩ => ⟨S4x34x34x64, .f32⟩
  | .local _ .vmem, ⟨14, _⟩ => ⟨S576x128, .f32⟩
  | .local _ .vmem, ⟨15, _⟩ => ⟨S32x32x128, .f32⟩
  | .local _ .vmem, ⟨16, _⟩ => ⟨S4x32x32x128, .f32⟩
  | .local _ .vmem, ⟨17, _⟩ => ⟨S4x32x32x128, .f32⟩
  | .local _ .vmem, ⟨18, _⟩ => ⟨S4x34x34x128, .f32⟩
  | .local _ .vmem, ⟨19, _⟩ => ⟨S4x34x34x128, .f32⟩
  | .local _ .vmem, ⟨20, _⟩ => ⟨S1152x128, .f32⟩
  | .local _ .vmem, ⟨21, _⟩ => ⟨S32x32x128, .f32⟩
  | .local _ .vmem, ⟨22, _⟩ => ⟨S4x32x32x128, .f32⟩
  | .local _ .vmem, ⟨23, _⟩ => ⟨S4x32x32x128, .f32⟩
  | .local _ .vmem, ⟨24, _⟩ => ⟨S32x4096, .f32⟩
  | .local _ .vmem, ⟨25, _⟩ => ⟨S32x4096, .f32⟩
  | .local _ .vmem, ⟨26, _⟩ => ⟨S4096x256, .f32⟩
  | .local _ .vmem, ⟨27, _⟩ => ⟨S4096x256, .f32⟩
  | .local _ .vmem, ⟨28, _⟩ => ⟨S1x256, .f32⟩
  | .local _ .vmem, ⟨29, _⟩ => ⟨S32x256, .f32⟩
  | .local _ .vmem, ⟨30, _⟩ => ⟨S32x256, .f32⟩
  | .local _ .vmem, ⟨31, _⟩ => ⟨S32x256, .f32⟩
  | .local _ .vmem, ⟨32, _⟩ => ⟨S256x10, .f32⟩
  | .local _ .vmem, ⟨33, _⟩ => ⟨S1x10, .f32⟩
  | .local _ .vmem, ⟨34, _⟩ => ⟨S32x10, .f32⟩
  | _, _ => ⟨S32x64x64x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_cst : Ref sig .tc := ⟨.hbm, 17, rfl⟩
abbrev main_call0_v0 : Ref sig .tc := ⟨.hbm, 18, rfl⟩
abbrev main_v0 : Ref sig .tc := ⟨.hbm, 19, rfl⟩
abbrev main_c_3 : Ref sig .tc := ⟨.hbm, 20, rfl⟩
abbrev main_v1 : Ref sig .tc := ⟨.hbm, 21, rfl⟩
abbrev main_v2 : Ref sig .tc := ⟨.hbm, 22, rfl⟩
abbrev main_c_4 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_5 : Ref sig .tc := ⟨.hbm, 30, rfl⟩
abbrev main_call1_v0 : Ref sig .tc := ⟨.hbm, 31, rfl⟩
abbrev main_v9 : Ref sig .tc := ⟨.hbm, 32, rfl⟩
abbrev main_c_6 : Ref sig .tc := ⟨.hbm, 33, rfl⟩
abbrev main_v10 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_8 : Ref sig .tc := ⟨.hbm, 44, rfl⟩
abbrev main_v19 : Ref sig .tc := ⟨.hbm, 45, rfl⟩
abbrev main_cst_9 : Ref sig .tc := ⟨.hbm, 46, rfl⟩
abbrev main_call2_v0 : Ref sig .tc := ⟨.hbm, 47, rfl⟩
abbrev main_v20 : Ref sig .tc := ⟨.hbm, 48, rfl⟩
abbrev main_c_10 : Ref sig .tc := ⟨.hbm, 49, rfl⟩
abbrev main_v21 : Ref sig .tc := ⟨.hbm, 50, rfl⟩
abbrev main_v22 : Ref sig .tc := ⟨.hbm, 51, rfl⟩
abbrev main_c_11 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_12 : Ref sig .tc := ⟨.hbm, 59, rfl⟩
abbrev main_call3_v0 : Ref sig .tc := ⟨.hbm, 60, rfl⟩
abbrev main_v29 : Ref sig .tc := ⟨.hbm, 61, rfl⟩
abbrev main_c_13 : Ref sig .tc := ⟨.hbm, 62, rfl⟩
abbrev main_v30 : Ref sig .tc := ⟨.hbm, 63, rfl⟩
abbrev main_v31 : Ref sig .tc := ⟨.hbm, 64, rfl⟩
abbrev main_c_14 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_15 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc5_sem0_0 : DmaSem sig := 30
abbrev cc5_sem1_0 : DmaSem sig := 31
abbrev cc5_sem2_0 : DmaSem sig := 32
abbrev cc5_sem3_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x66x66x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x66x66x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x64x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S4x34x34x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S576x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4x32x32x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S4x34x34x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1152x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x32x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4x32x32x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_9 : BitVec 32 := 0#32
  let v18 : BitVec 1 := Scalar.cmpi .ne v17 c0_i32_9
  v18

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S32x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S32x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  pads_S32x64x64x1_S32x66x66x1_000_110_110_000 : S32x64x64x1.Pads (![0, 1, 1, 0] : Fin 4 → Nat) ![0, 1, 1, 0] ![0, 0, 0, 0] S32x66x66x1
  h_S_ : 0 < S_.numel
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  inb_S4x66x66x1_S4x64x64x1_0_0_0_0 : ∀ a, (![0, 0, 0, 0] : Fin 4 → Nat) a + S4x64x64x1.size a ≤ S4x66x66x1.size a
  h_S4x64x64x1 : 0 < S4x64x64x1.numel
  shapeCasts_S4x64x64x1_S4x64x64x1 : S4x64x64x1.ShapeCasts S4x64x64x1
  shapeCasts_S4x64x64x1_S16384x1 : S4x64x64x1.ShapeCasts S16384x1
  bitsLt_bf16_f32 : FTy.bits .bf16 < FTy.bits .f32
  inb_S9x64_S1x64_0_0 : ∀ a, (![0, 0] : Fin 2 → Nat) a + S1x64.size a ≤ S9x64.size a
  h_S1x64 : 0 < S1x64.numel
  shapeCasts_S16384x64_S4x64x64x64 : S16384x64.ShapeCasts S4x64x64x64
  inb_S4x66x66x1_S4x64x64x1_0_0_1_0 : ∀ a, (![0, 0, 1, 0] : Fin 4 → Nat) a + S4x64x64x1.size a ≤ S4x66x66x1.size a
  inb_S9x64_S1x64_1_0 : ∀ a, (![1, 0] : Fin 2 → Nat) a + S1x64.size a ≤ S9x64.size a
  inb_S4x66x66x1_S4x64x64x1_0_0_2_0 : ∀ a, (![0, 0, 2, 0] : Fin 4 → Nat) a + S4x64x64x1.size a ≤ S4x66x66x1.size a
  inb_S9x64_S1x64_2_0 : ∀ a, (![2, 0] : Fin 2 → Nat) a + S1x64.size a ≤ S9x64.size a
  inb_S4x66x66x1_S4x64x64x1_0_1_0_0 : ∀ a, (![0, 1, 0, 0] : Fin 4 → Nat) a + S4x64x64x1.size a ≤ S4x66x66x1.size a
  inb_S9x64_S1x64_3_0 : ∀ a, (![3, 0] : Fin 2 → Nat) a + S1x64.size a ≤ S9x64.size a
  inb_S4x66x66x1_S4x64x64x1_0_1_1_0 : ∀ a, (![0, 1, 1, 0] : Fin 4 → Nat) a + S4x64x64x1.size a ≤ S4x66x66x1.size a
  inb_S9x64_S1x64_4_0 : ∀ a, (![4, 0] : Fin 2 → Nat) a + S1x64.size a ≤ S9x64.size a
  inb_S4x66x66x1_S4x64x64x1_0_1_2_0 : ∀ a, (![0, 1, 2, 0] : Fin 4 → Nat) a + S4x64x64x1.size a ≤ S4x66x66x1.size a
  inb_S9x64_S1x64_5_0 : ∀ a, (![5, 0] : Fin 2 → Nat) a + S1x64.size a ≤ S9x64.size a
  inb_S4x66x66x1_S4x64x64x1_0_2_0_0 : ∀ a, (![0, 2, 0, 0] : Fin 4 → Nat) a + S4x64x64x1.size a ≤ S4x66x66x1.size a
  inb_S9x64_S1x64_6_0 : ∀ a, (![6, 0] : Fin 2 → Nat) a + S1x64.size a ≤ S9x64.size a
  inb_S4x66x66x1_S4x64x64x1_0_2_1_0 : ∀ a, (![0, 2, 1, 0] : Fin 4 → Nat) a + S4x64x64x1.size a ≤ S4x66x66x1.size a
  inb_S9x64_S1x64_7_0 : ∀ a, (![7, 0] : Fin 2 → Nat) a + S1x64.size a ≤ S9x64.size a
  inb_S4x66x66x1_S4x64x64x1_0_2_2_0 : ∀ a, (![0, 2, 2, 0] : Fin 4 → Nat) a + S4x64x64x1.size a ≤ S4x66x66x1.size a
  inb_S9x64_S1x64_8_0 : ∀ a, (![8, 0] : Fin 2 → Nat) a + S1x64.size a ≤ S9x64.size a
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  shapeCasts_S64x64x64_S1x64x64x64 : S64x64x64.ShapeCasts S1x64x64x64
  broadcasts_S1x64x64x64_S4x64x64x64 : S1x64x64x64.Broadcasts S4x64x64x64
  inb_S4x64x64x64_S4x64x64x64_0_0_0_0 : ∀ a, (![0, 0, 0, 0] : Fin 4 → Nat) a + S4x64x64x64.size a ≤ S4x64x64x64.size a
  h_S4x64x64x64 : 0 < S4x64x64x64.numel
  pads_S32x64x64x64_S32x66x66x64_000_110_110_000 : S32x64x64x64.Pads (![0, 1, 1, 0] : Fin 4 → Nat) ![0, 1, 1, 0] ![0, 0, 0, 0] S32x66x66x64
  inb_S4x66x66x64_S4x64x64x64_0_0_0_0 : ∀ a, (![0, 0, 0, 0] : Fin 4 → Nat) a + S4x64x64x64.size a ≤ S4x66x66x64.size a
  shapeCasts_S4x64x64x64_S4x64x64x64 : S4x64x64x64.ShapeCasts S4x64x64x64
  shapeCasts_S4x64x64x64_S16384x64 : S4x64x64x64.ShapeCasts S16384x64
  inb_S576x64_S64x64_0_0 : ∀ a, (![0, 0] : Fin 2 → Nat) a + S64x64.size a ≤ S576x64.size a
  h_S64x64 : 0 < S64x64.numel
  inb_S4x66x66x64_S4x64x64x64_0_0_1_0 : ∀ a, (![0, 0, 1, 0] : Fin 4 → Nat) a + S4x64x64x64.size a ≤ S4x66x66x64.size a
  inb_S576x64_S64x64_64_0 : ∀ a, (![64, 0] : Fin 2 → Nat) a + S64x64.size a ≤ S576x64.size a
  inb_S4x66x66x64_S4x64x64x64_0_0_2_0 : ∀ a, (![0, 0, 2, 0] : Fin 4 → Nat) a + S4x64x64x64.size a ≤ S4x66x66x64.size a
  inb_S576x64_S64x64_128_0 : ∀ a, (![128, 0] : Fin 2 → Nat) a + S64x64.size a ≤ S576x64.size a
  inb_S4x66x66x64_S4x64x64x64_0_1_0_0 : ∀ a, (![0, 1, 0, 0] : Fin 4 → Nat) a + S4x64x64x64.size a ≤ S4x66x66x64.size a
  inb_S576x64_S64x64_192_0 : ∀ a, (![192, 0] : Fin 2 → Nat) a + S64x64.size a ≤ S576x64.size a
  inb_S4x66x66x64_S4x64x64x64_0_1_1_0 : ∀ a, (![0, 1, 1, 0] : Fin 4 → Nat) a + S4x64x64x64.size a ≤ S4x66x66x64.size a
  inb_S576x64_S64x64_256_0 : ∀ a, (![256, 0] : Fin 2 → Nat) a + S64x64.size a ≤ S576x64.size a
  inb_S4x66x66x64_S4x64x64x64_0_1_2_0 : ∀ a, (![0, 1, 2, 0] : Fin 4 → Nat) a + S4x64x64x64.size a ≤ S4x66x66x64.size a
  inb_S576x64_S64x64_320_0 : ∀ a, (![320, 0] : Fin 2 → Nat) a + S64x64.size a ≤ S576x64.size a
  inb_S4x66x66x64_S4x64x64x64_0_2_0_0 : ∀ a, (![0, 2, 0, 0] : Fin 4 → Nat) a + S4x64x64x64.size a ≤ S4x66x66x64.size a
  inb_S576x64_S64x64_384_0 : ∀ a, (![384, 0] : Fin 2 → Nat) a + S64x64.size a ≤ S576x64.size a
  inb_S4x66x66x64_S4x64x64x64_0_2_1_0 : ∀ a, (![0, 2, 1, 0] : Fin 4 → Nat) a + S4x64x64x64.size a ≤ S4x66x66x64.size a
  inb_S576x64_S64x64_448_0 : ∀ a, (![448, 0] : Fin 2 → Nat) a + S64x64.size a ≤ S576x64.size a
  inb_S4x66x66x64_S4x64x64x64_0_2_2_0 : ∀ a, (![0, 2, 2, 0] : Fin 4 → Nat) a + S4x64x64x64.size a ≤ S4x66x66x64.size a
  inb_S576x64_S64x64_512_0 : ∀ a, (![512, 0] : Fin 2 → Nat) a + S64x64.size a ≤ S576x64.size a
  shapeCasts_S32x64x64x64_S32x32x2x32x2x64 : S32x64x64x64.ShapeCasts S32x32x2x32x2x64
  reducesTo_S32x32x2x32x2x64_S32x32x32x64_d2_4 : S32x32x2x32x2x64.ReducesTo [2, 4] S32x32x32x64
  pads_S32x32x32x64_S32x34x34x64_000_110_110_000 : S32x32x32x64.Pads (![0, 1, 1, 0] : Fin 4 → Nat) ![0, 1, 1, 0] ![0, 0, 0, 0] S32x34x34x64
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  inb_S4x34x34x64_S4x32x32x64_0_0_0_0 : ∀ a, (![0, 0, 0, 0] : Fin 4 → Nat) a + S4x32x32x64.size a ≤ S4x34x34x64.size a
  h_S4x32x32x64 : 0 < S4x32x32x64.numel
  shapeCasts_S4x32x32x64_S4x32x32x64 : S4x32x32x64.ShapeCasts S4x32x32x64
  shapeCasts_S4x32x32x64_S4096x64 : S4x32x32x64.ShapeCasts S4096x64
  inb_S576x128_S64x128_0_0 : ∀ a, (![0, 0] : Fin 2 → Nat) a + S64x128.size a ≤ S576x128.size a
  h_S64x128 : 0 < S64x128.numel
  shapeCasts_S4096x128_S4x32x32x128 : S4096x128.ShapeCasts S4x32x32x128
  inb_S4x34x34x64_S4x32x32x64_0_0_1_0 : ∀ a, (![0, 0, 1, 0] : Fin 4 → Nat) a + S4x32x32x64.size a ≤ S4x34x34x64.size a
  inb_S576x128_S64x128_64_0 : ∀ a, (![64, 0] : Fin 2 → Nat) a + S64x128.size a ≤ S576x128.size a
  inb_S4x34x34x64_S4x32x32x64_0_0_2_0 : ∀ a, (![0, 0, 2, 0] : Fin 4 → Nat) a + S4x32x32x64.size a ≤ S4x34x34x64.size a
  inb_S576x128_S64x128_128_0 : ∀ a, (![128, 0] : Fin 2 → Nat) a + S64x128.size a ≤ S576x128.size a
  inb_S4x34x34x64_S4x32x32x64_0_1_0_0 : ∀ a, (![0, 1, 0, 0] : Fin 4 → Nat) a + S4x32x32x64.size a ≤ S4x34x34x64.size a
  inb_S576x128_S64x128_192_0 : ∀ a, (![192, 0] : Fin 2 → Nat) a + S64x128.size a ≤ S576x128.size a
  inb_S4x34x34x64_S4x32x32x64_0_1_1_0 : ∀ a, (![0, 1, 1, 0] : Fin 4 → Nat) a + S4x32x32x64.size a ≤ S4x34x34x64.size a
  inb_S576x128_S64x128_256_0 : ∀ a, (![256, 0] : Fin 2 → Nat) a + S64x128.size a ≤ S576x128.size a
  inb_S4x34x34x64_S4x32x32x64_0_1_2_0 : ∀ a, (![0, 1, 2, 0] : Fin 4 → Nat) a + S4x32x32x64.size a ≤ S4x34x34x64.size a
  inb_S576x128_S64x128_320_0 : ∀ a, (![320, 0] : Fin 2 → Nat) a + S64x128.size a ≤ S576x128.size a
  inb_S4x34x34x64_S4x32x32x64_0_2_0_0 : ∀ a, (![0, 2, 0, 0] : Fin 4 → Nat) a + S4x32x32x64.size a ≤ S4x34x34x64.size a
  inb_S576x128_S64x128_384_0 : ∀ a, (![384, 0] : Fin 2 → Nat) a + S64x128.size a ≤ S576x128.size a
  inb_S4x34x34x64_S4x32x32x64_0_2_1_0 : ∀ a, (![0, 2, 1, 0] : Fin 4 → Nat) a + S4x32x32x64.size a ≤ S4x34x34x64.size a
  inb_S576x128_S64x128_448_0 : ∀ a, (![448, 0] : Fin 2 → Nat) a + S64x128.size a ≤ S576x128.size a
  inb_S4x34x34x64_S4x32x32x64_0_2_2_0 : ∀ a, (![0, 2, 2, 0] : Fin 4 → Nat) a + S4x32x32x64.size a ≤ S4x34x34x64.size a
  inb_S576x128_S64x128_512_0 : ∀ a, (![512, 0] : Fin 2 → Nat) a + S64x128.size a ≤ S576x128.size a
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  shapeCasts_S32x32x128_S1x32x32x128 : S32x32x128.ShapeCasts S1x32x32x128
  broadcasts_S1x32x32x128_S4x32x32x128 : S1x32x32x128.Broadcasts S4x32x32x128
  inb_S4x32x32x128_S4x32x32x128_0_0_0_0 : ∀ a, (![0, 0, 0, 0] : Fin 4 → Nat) a + S4x32x32x128.size a ≤ S4x32x32x128.size a
  h_S4x32x32x128 : 0 < S4x32x32x128.numel
  pads_S32x32x32x128_S32x34x34x128_000_110_110_000 : S32x32x32x128.Pads (![0, 1, 1, 0] : Fin 4 → Nat) ![0, 1, 1, 0] ![0, 0, 0, 0] S32x34x34x128
  inb_S4x34x34x128_S4x32x32x128_0_0_0_0 : ∀ a, (![0, 0, 0, 0] : Fin 4 → Nat) a + S4x32x32x128.size a ≤ S4x34x34x128.size a
  shapeCasts_S4x32x32x128_S4x32x32x128 : S4x32x32x128.ShapeCasts S4x32x32x128
  shapeCasts_S4x32x32x128_S4096x128 : S4x32x32x128.ShapeCasts S4096x128
  inb_S1152x128_S128x128_0_0 : ∀ a, (![0, 0] : Fin 2 → Nat) a + S128x128.size a ≤ S1152x128.size a
  h_S128x128 : 0 < S128x128.numel
  inb_S4x34x34x128_S4x32x32x128_0_0_1_0 : ∀ a, (![0, 0, 1, 0] : Fin 4 → Nat) a + S4x32x32x128.size a ≤ S4x34x34x128.size a
  inb_S1152x128_S128x128_128_0 : ∀ a, (![128, 0] : Fin 2 → Nat) a + S128x128.size a ≤ S1152x128.size a
  inb_S4x34x34x128_S4x32x32x128_0_0_2_0 : ∀ a, (![0, 0, 2, 0] : Fin 4 → Nat) a + S4x32x32x128.size a ≤ S4x34x34x128.size a
  inb_S1152x128_S128x128_256_0 : ∀ a, (![256, 0] : Fin 2 → Nat) a + S128x128.size a ≤ S1152x128.size a
  inb_S4x34x34x128_S4x32x32x128_0_1_0_0 : ∀ a, (![0, 1, 0, 0] : Fin 4 → Nat) a + S4x32x32x128.size a ≤ S4x34x34x128.size a
  inb_S1152x128_S128x128_384_0 : ∀ a, (![384, 0] : Fin 2 → Nat) a + S128x128.size a ≤ S1152x128.size a
  inb_S4x34x34x128_S4x32x32x128_0_1_1_0 : ∀ a, (![0, 1, 1, 0] : Fin 4 → Nat) a + S4x32x32x128.size a ≤ S4x34x34x128.size a
  inb_S1152x128_S128x128_512_0 : ∀ a, (![512, 0] : Fin 2 → Nat) a + S128x128.size a ≤ S1152x128.size a
  inb_S4x34x34x128_S4x32x32x128_0_1_2_0 : ∀ a, (![0, 1, 2, 0] : Fin 4 → Nat) a + S4x32x32x128.size a ≤ S4x34x34x128.size a
  inb_S1152x128_S128x128_640_0 : ∀ a, (![640, 0] : Fin 2 → Nat) a + S128x128.size a ≤ S1152x128.size a
  inb_S4x34x34x128_S4x32x32x128_0_2_0_0 : ∀ a, (![0, 2, 0, 0] : Fin 4 → Nat) a + S4x32x32x128.size a ≤ S4x34x34x128.size a
  inb_S1152x128_S128x128_768_0 : ∀ a, (![768, 0] : Fin 2 → Nat) a + S128x128.size a ≤ S1152x128.size a
  inb_S4x34x34x128_S4x32x32x128_0_2_1_0 : ∀ a, (![0, 2, 1, 0] : Fin 4 → Nat) a + S4x32x32x128.size a ≤ S4x34x34x128.size a
  inb_S1152x128_S128x128_896_0 : ∀ a, (![896, 0] : Fin 2 → Nat) a + S128x128.size a ≤ S1152x128.size a
  inb_S4x34x34x128_S4x32x32x128_0_2_2_0 : ∀ a, (![0, 2, 2, 0] : Fin 4 → Nat) a + S4x32x32x128.size a ≤ S4x34x34x128.size a
  inb_S1152x128_S128x128_1024_0 : ∀ a, (![1024, 0] : Fin 2 → Nat) a + S128x128.size a ≤ S1152x128.size a
  shapeCasts_S32x32x32x128_S32x16x2x16x2x128 : S32x32x32x128.ShapeCasts S32x16x2x16x2x128
  reducesTo_S32x16x2x16x2x128_S32x16x16x128_d2_4 : S32x16x2x16x2x128.ReducesTo [2, 4] S32x16x16x128
  shapeCasts_S32x16x16x128_S32x32768 : S32x16x16x128.ShapeCasts S32x32768
  shapeCasts_S256_S1x256 : S256.ShapeCasts S1x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  shapeCasts_S10_S1x10 : S10.ShapeCasts S1x10
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S32x10 : S1x10.Broadcasts S32x10
  inb_S32x10_S32x10_0_0 : ∀ a, (![0, 0] : Fin 2 → Nat) a + S32x10.size a ≤ S32x10.size a
  h_S32x10 : 0 < S32x10.numel
  gather_S9x64_S64x64x1_S64x64x64_2_0_n_n_0_2_164_wf : GatherDims.WF S9x64 S64x64x1 S64x64x64 [2] [0] [] [0] [] 2 ![1, 64]
  dot_S16384x1_S1x64_S16384x64_1_0_0_1_n_n_wf : DotDims.WF S16384x1 S1x64 S16384x64 [1] [0] [0] [1] [] []
  dot_S16384x64_S64x64_S16384x64_1_0_0_1_n_n_wf : DotDims.WF S16384x64 S64x64 S16384x64 [1] [0] [0] [1] [] []
  gather_S9x128_S32x32x1_S32x32x128_2_0_n_n_0_2_1128_wf : GatherDims.WF S9x128 S32x32x1 S32x32x128 [2] [0] [] [0] [] 2 ![1, 128]
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S32x4096_S4096x256_S32x256_1_0_0_1_n_n_wf : DotDims.WF S32x4096 S4096x256 S32x256 [1] [0] [0] [1] [] []
  dot_S32x256_S256x10_S32x10_1_0_0_1_n_n_wf : DotDims.WF S32x256 S256x10 S32x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x66x66x1.size a ≤ S32x66x66x1.size a
  hwx0_0 : ∀ i : grid0.Coords, EltTy.bits .f32 = 32 ∨ (Rect.block (s := S32x66x66x1) S4x66x66x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64x64.size a ≤ S64x64x64.size a
  hwx0_2 : ∀ i : grid0.Coords, EltTy.bits .f32 = 32 ∨ (Rect.block (s := S64x64x64) S64x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x64x64.size a ≤ S32x64x64x64.size a
  hwx0_3 : ∀ i : grid0.Coords, EltTy.bits .f32 = 32 ∨ (Rect.block (s := S32x64x64x64) S4x64x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x66x66x64.size a ≤ S32x66x66x64.size a
  hwx1_0 : ∀ i : grid1.Coords, EltTy.bits .f32 = 32 ∨ (Rect.block (s := S32x66x66x64) S4x66x66x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x64.size a ≤ S576x64.size a
  hwx1_1 : ∀ i : grid1.Coords, EltTy.bits .f32 = 32 ∨ (Rect.block (s := S576x64) S576x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64x64.size a ≤ S64x64x64.size a
  hwx1_2 : ∀ i : grid1.Coords, EltTy.bits .f32 = 32 ∨ (Rect.block (s := S64x64x64) S64x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x64x64x64.size a ≤ S32x64x64x64.size a
  hwx1_3 : ∀ i : grid1.Coords, EltTy.bits .f32 = 32 ∨ (Rect.block (s := S32x64x64x64) S4x64x64x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x34x34x64.size a ≤ S32x34x34x64.size a
  hwx2_0 : ∀ i : grid2.Coords, EltTy.bits .f32 = 32 ∨ (Rect.block (s := S32x34x34x64) S4x34x34x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S576x128.size a ≤ S576x128.size a
  hwx2_1 : ∀ i : grid2.Coords, EltTy.bits .f32 = 32 ∨ (Rect.block (s := S576x128) S576x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32x128.size a ≤ S32x32x128.size a
  hwx2_2 : ∀ i : grid2.Coords, EltTy.bits .f32 = 32 ∨ (Rect.block (s := S32x32x128) S32x32x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x32x32x128.size a ≤ S32x32x32x128.size a
  hwx2_3 : ∀ i : grid2.Coords, EltTy.bits .f32 = 32 ∨ (Rect.block (s := S32x32x32x128) S4x32x32x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x34x34x128.size a ≤ S32x34x34x128.size a
  hwx3_0 : ∀ i : grid3.Coords, EltTy.bits .f32 = 32 ∨ (Rect.block (s := S32x34x34x128) S4x34x34x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1152x128.size a ≤ S1152x128.size a
  hwx3_1 : ∀ i : grid3.Coords, EltTy.bits .f32 = 32 ∨ (Rect.block (s := S1152x128) S1152x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32x128.size a ≤ S32x32x128.size a
  hwx3_2 : ∀ i : grid3.Coords, EltTy.bits .f32 = 32 ∨ (Rect.block (s := S32x32x128) S32x32x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4x32x32x128.size a ≤ S32x32x32x128.size a
  hwx3_3 : ∀ i : grid3.Coords, EltTy.bits .f32 = 32 ∨ (Rect.block (s := S32x32x32x128) S4x32x32x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x4096.size a ≤ S32x32768.size a
  hwx4_0 : ∀ i : grid4.Coords, EltTy.bits .f32 = 32 ∨ (Rect.block (s := S32x32768) S32x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x256.size a ≤ S32768x256.size a
  hwx4_1 : ∀ i : grid4.Coords, EltTy.bits .f32 = 32 ∨ (Rect.block (s := S32768x256) S4096x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x256.size a ≤ S32x256.size a
  hwx4_3 : ∀ i : grid4.Coords, EltTy.bits .f32 = 32 ∨ (Rect.block (s := S32x256) S32x256.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S32x256.size a ≤ S32x256.size a
  hwx5_0 : ∀ i : grid5.Coords, EltTy.bits .f32 = 32 ∨ (Rect.block (s := S32x256) S32x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x10.size a ≤ S256x10.size a
  hwx5_1 : ∀ i : grid5.Coords, EltTy.bits .f32 = 32 ∨ (Rect.block (s := S256x10) S256x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x10.size a ≤ S1x10.size a
  hwx5_2 : ∀ i : grid5.Coords, EltTy.bits .f32 = 32 ∨ (Rect.block (s := S1x10) S1x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x10.size a ≤ S32x10.size a
  hwx5_3 : ∀ i : grid5.Coords, EltTy.bits .f32 = 32 ∨ (Rect.block (s := S32x10) S32x10.size (cc5_transform_3 i) (hinb5_3 i)).WholeWords (EltTy.packing .f32)

variable [Facts₀]

def gather_S9x64_S64x64x1_S64x64x64_2_0_n_n_0_2_164 : GatherDims S9x64 S64x64x1 S64x64x64 where
  offsetDims := [2]
  collapsedSliceDims := [0]
  operandBatchingDims := []
  startIndicesBatchingDims := []
  startIndexMap := [0]
  indexVectorDim := 2
  sliceSizes := ![1, 64]
  wf := gather_S9x64_S64x64x1_S64x64x64_2_0_n_n_0_2_164_wf
def dot_S16384x1_S1x64_S16384x64_1_0_0_1_n_n : DotDims S16384x1 S1x64 S16384x64 where
  lhsContracting := [1]
  rhsContracting := [0]
  lhsNonContracting := [0]
  rhsNonContracting := [1]
  lhsBatch := []
  rhsBatch := []
  wf := dot_S16384x1_S1x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S9x128_S32x32x1_S32x32x128_2_0_n_n_0_2_1128 : GatherDims S9x128 S32x32x1 S32x32x128 where
  offsetDims := [2]
  collapsedSliceDims := [0]
  operandBatchingDims := []
  startIndicesBatchingDims := []
  startIndexMap := [0]
  indexVectorDim := 2
  sliceSizes := ![1, 128]
  wf := gather_S9x128_S32x32x1_S32x32x128_2_0_n_n_0_2_1128_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S32x4096_S4096x256_S32x256_1_0_0_1_n_n : DotDims S32x4096 S4096x256 S32x256 where
  lhsContracting := [1]
  rhsContracting := [0]
  lhsNonContracting := [0]
  rhsNonContracting := [1]
  lhsBatch := []
  rhsBatch := []
  wf := dot_S32x4096_S4096x256_S32x256_1_0_0_1_n_n_wf
def dot_S32x256_S256x10_S32x10_1_0_0_1_n_n : DotDims S32x256 S256x10 S32x10 where
  lhsContracting := [1]
  rhsContracting := [0]
  lhsNonContracting := [0]
  rhsNonContracting := [1]
  lhsBatch := []
  rhsBatch := []
  wf := dot_S32x256_S256x10_S32x10_1_0_0_1_n_n_wf

abbrev win0_0 : Pipeline.Window sig grid0 :=
  Pipeline.Window.ofSpec (Memref.whole main_v0) S4x66x66x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x64x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S4x66x66x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S576x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4x64x64x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S4x34x34x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S576x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S32x32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S4x32x32x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S4x34x34x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1152x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S32x32x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S4x32x32x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S32x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S4096x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S32x256.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v42) S32x256.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S256x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S32x10.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S32x64x64x1 : Shape := ⟨4, ![32, 64, 64, 1]⟩
abbrev S9x64 : Shape := ⟨2, ![9, 64]⟩
abbrev S576x64 : Shape := ⟨2, ![576, 64]⟩
abbrev S576x128 : Shape := ⟨2, ![576, 128]⟩
abbrev S9x128 : Shape := ⟨2, ![9, 128]⟩
abbrev S1152x128 : Shape := ⟨2, ![1152, 128]⟩
abbrev S32768x256 : Shape := ⟨2, ![32768, 256]⟩
abbrev S256 : Shape := ⟨1, ![256]⟩
abbrev S256x10 : Shape := ⟨2, ![256, 10]⟩
abbrev S10 : Shape := ⟨1, ![10]⟩
abbrev S64x64 : Shape := ⟨2, ![64, 64]⟩
abbrev S32x32 : Shape := ⟨2, ![32, 32]⟩
abbrev S_ : Shape := ⟨0, ![]⟩
abbrev S32x66x66x1 : Shape := ⟨4, ![32, 66, 66, 1]⟩
abbrev S32x64x64x9 : Shape := ⟨4, ![32, 64, 64, 9]⟩
abbrev S32x64x64x64 : Shape := ⟨4, ![32, 64, 64, 64]⟩
abbrev S64x64x1 : Shape := ⟨3, ![64, 64, 1]⟩
abbrev S64x64x64 : Shape := ⟨3, ![64, 64, 64]⟩
abbrev S1x64x64x64 : Shape := ⟨4, ![1, 64, 64, 64]⟩
abbrev S32x66x66x64 : Shape := ⟨4, ![32, 66, 66, 64]⟩
abbrev S32x64x64x576 : Shape := ⟨4, ![32, 64, 64, 576]⟩
abbrev S32x32x2x32x2x64 : Shape := ⟨6, ![32, 32, 2, 32, 2, 64]⟩
abbrev S32x32x32x64 : Shape := ⟨4, ![32, 32, 32, 64]⟩
abbrev S32x34x34x64 : Shape := ⟨4, ![32, 34, 34, 64]⟩
abbrev S32x32x32x576 : Shape := ⟨4, ![32, 32, 32, 576]⟩
abbrev S32x32x32x128 : Shape := ⟨4, ![32, 32, 32, 128]⟩
abbrev S32x32x1 : Shape := ⟨3, ![32, 32, 1]⟩
abbrev S32x32x128 : Shape := ⟨3, ![32, 32, 128]⟩
abbrev S1x32x32x128 : Shape := ⟨4, ![1, 32, 32, 128]⟩
abbrev S32x34x34x128 : Shape := ⟨4, ![32, 34, 34, 128]⟩
abbrev S32x32x32x1152 : Shape := ⟨4, ![32, 32, 32, 1152]⟩
abbrev S32x16x2x16x2x128 : Shape := ⟨6, ![32, 16, 2, 16, 2, 128]⟩
abbrev S32x16x16x128 : Shape := ⟨4, ![32, 16, 16, 128]⟩
abbrev S32x32768 : Shape := ⟨2, ![32, 32768]⟩
abbrev S32x256 : Shape := ⟨2, ![32, 256]⟩
abbrev S1x256 : Shape := ⟨2, ![1, 256]⟩
abbrev S32x10 : Shape := ⟨2, ![32, 10]⟩
abbrev S1x10 : Shape := ⟨2, ![1, 10]⟩

abbrev nBuf : Space → Nat
  | .hbm => 184
  | .vmem => 0
  | .smem => 0
  | _ => 0

abbrev hbmTy0_0 (i : Nat) : BufTy := match i % 128 with
  | 0 => ⟨S32x64x64x1, .f32⟩
  | 1 => ⟨S9x64, .f32⟩
  | 2 => ⟨S9x64, .f32⟩
  | 3 => ⟨S576x64, .f32⟩
  | 4 => ⟨S9x64, .f32⟩
  | 5 => ⟨S576x128, .f32⟩
  | 6 => ⟨S9x128, .f32⟩
  | 7 => ⟨S1152x128, .f32⟩
  | 8 => ⟨S9x128, .f32⟩
  | 9 => ⟨S32768x256, .f32⟩
  | 10 => ⟨S256, .f32⟩
  | 11 => ⟨S256x10, .f32⟩
  | 12 => ⟨S10, .f32⟩
  | 13 => ⟨S64x64, .i32⟩
  | 14 => ⟨S64x64, .i32⟩
  | 15 => ⟨S32x32, .i32⟩
  | 16 => ⟨S32x32, .i32⟩
  | 17 => ⟨S_, .f32⟩
  | 18 => ⟨S_, .f32⟩
  | 19 => ⟨S32x66x66x1, .f32⟩
  | 20 => ⟨S32x64x64x1, .f32⟩
  | 21 => ⟨S32x64x64x1, .f32⟩
  | 22 => ⟨S32x64x64x1, .f32⟩
  | 23 => ⟨S32x64x64x1, .f32⟩
  | 24 => ⟨S32x64x64x1, .f32⟩
  | 25 => ⟨S32x64x64x1, .f32⟩
  | 26 => ⟨S32x64x64x1, .f32⟩
  | 27 => ⟨S32x64x64x1, .f32⟩
  | 28 => ⟨S32x64x64x1, .f32⟩
  | 29 => ⟨S32x64x64x9, .f32⟩
  | 30 => ⟨S_, .f32⟩
  | 31 => ⟨S32x64x64x9, .f32⟩
  | 32 => ⟨S32x64x64x9, .f32⟩
  | 33 => ⟨S32x64x64x64, .f32⟩
  | 34 => ⟨S_, .i32⟩
  | 35 => ⟨S64x64, .i32⟩
  | 36 => ⟨S64x64, .i1⟩
  | 37 => ⟨S_, .i32⟩
  | 38 => ⟨S64x64, .i32⟩
  | 39 => ⟨S64x64, .i32⟩
  | 40 => ⟨S64x64, .i32⟩
  | 41 => ⟨S64x64x1, .i32⟩
  | 42 => ⟨S64x64x64, .f32⟩
  | 43 => ⟨S_, .f32⟩
  | 44 => ⟨S64x64x64, .f32⟩
  | 45 => ⟨S64x64x64, .f32⟩
  | 46 => ⟨S1x64x64x64, .f32⟩
  | 47 => ⟨S32x64x64x64, .f32⟩
  | 48 => ⟨S32x64x64x64, .f32⟩
  | 49 => ⟨S_, .f32⟩
  | 50 => ⟨S32x64x64x64, .f32⟩
  | 51 => ⟨S32x64x64x64, .f32⟩
  | 52 => ⟨S_, .f32⟩
  | 53 => ⟨S_, .f32⟩
  | 54 => ⟨S32x66x66x64, .f32⟩
  | 55 => ⟨S32x64x64x64, .f32⟩
  | 56 => ⟨S32x64x64x64, .f32⟩
  | 57 => ⟨S32x64x64x64, .f32⟩
  | 58 => ⟨S32x64x64x64, .f32⟩
  | 59 => ⟨S32x64x64x64, .f32⟩
  | 60 => ⟨S32x64x64x64, .f32⟩
  | 61 => ⟨S32x64x64x64, .f32⟩
  | 62 => ⟨S32x64x64x64, .f32⟩
  | 63 => ⟨S32x64x64x64, .f32⟩
  | 64 => ⟨S32x64x64x576, .f32⟩
  | 65 => ⟨S_, .f32⟩
  | 66 => ⟨S32x64x64x576, .f32⟩
  | 67 => ⟨S32x64x64x576, .f32⟩
  | 68 => ⟨S32x64x64x64, .f32⟩
  | 69 => ⟨S_, .i32⟩
  | 70 => ⟨S64x64, .i32⟩
  | 71 => ⟨S64x64, .i1⟩
  | 72 => ⟨S_, .i32⟩
  | 73 => ⟨S64x64, .i32⟩
  | 74 => ⟨S64x64, .i32⟩
  | 75 => ⟨S64x64, .i32⟩
  | 76 => ⟨S64x64x1, .i32⟩
  | 77 => ⟨S64x64x64, .f32⟩
  | 78 => ⟨S_, .f32⟩
  | 79 => ⟨S64x64x64, .f32⟩
  | 80 => ⟨S64x64x64, .f32⟩
  | 81 => ⟨S1x64x64x64, .f32⟩
  | 82 => ⟨S32x64x64x64, .f32⟩
  | 83 => ⟨S32x64x64x64, .f32⟩
  | 84 => ⟨S_, .f32⟩
  | 85 => ⟨S32x64x64x64, .f32⟩
  | 86 => ⟨S32x64x64x64, .f32⟩
  | 87 => ⟨S32x32x2x32x2x64, .f32⟩
  | 88 => ⟨S_, .f32⟩
  | 89 => ⟨S32x32x32x64, .f32⟩
  | 90 => ⟨S_, .f32⟩
  | 91 => ⟨S_, .f32⟩
  | 92 => ⟨S32x34x34x64, .f32⟩
  | 93 => ⟨S32x32x32x64, .f32⟩
  | 94 => ⟨S32x32x32x64, .f32⟩
  | 95 => ⟨S32x32x32x64, .f32⟩
  | 96 => ⟨S32x32x32x64, .f32⟩
  | 97 => ⟨S32x32x32x64, .f32⟩
  | 98 => ⟨S32x32x32x64, .f32⟩
  | 99 => ⟨S32x32x32x64, .f32⟩
  | 100 => ⟨S32x32x32x64, .f32⟩
  | 101 => ⟨S32x32x32x64, .f32⟩
  | 102 => ⟨S32x32x32x576, .f32⟩
  | 103 => ⟨S_, .f32⟩
  | 104 => ⟨S32x32x32x576, .f32⟩
  | 105 => ⟨S32x32x32x576, .f32⟩
  | 106 => ⟨S32x32x32x128, .f32⟩
  | 107 => ⟨S_, .i32⟩
  | 108 => ⟨S32x32, .i32⟩
  | 109 => ⟨S32x32, .i1⟩
  | 110 => ⟨S_, .i32⟩
  | 111 => ⟨S32x32, .i32⟩
  | 112 => ⟨S32x32, .i32⟩
  | 113 => ⟨S32x32, .i32⟩
  | 114 => ⟨S32x32x1, .i32⟩
  | 115 => ⟨S32x32x128, .f32⟩
  | 116 => ⟨S_, .f32⟩
  | 117 => ⟨S32x32x128, .f32⟩
  | 118 => ⟨S32x32x128, .f32⟩
  | 119 => ⟨S1x32x32x128, .f32⟩
  | 120 => ⟨S32x32x32x128, .f32⟩
  | 121 => ⟨S32x32x32x128, .f32⟩
  | 122 => ⟨S_, .f32⟩
  | 123 => ⟨S32x32x32x128, .f32⟩
  | 124 => ⟨S32x32x32x128, .f32⟩
  | 125 => ⟨S_, .f32⟩
  | 126 => ⟨S_, .f32⟩
  | 127 => ⟨S32x34x34x128, .f32⟩
  | _ => ⟨S32x64x64x1, .f32⟩

abbrev hbmTy0_1 (i : Nat) : BufTy := match i % 128 with
  | 0 => ⟨S32x32x32x128, .f32⟩
  | 1 => ⟨S32x32x32x128, .f32⟩
  | 2 => ⟨S32x32x32x128, .f32⟩
  | 3 => ⟨S32x32x32x128, .f32⟩
  | 4 => ⟨S32x32x32x128, .f32⟩
  | 5 => ⟨S32x32x32x128, .f32⟩
  | 6 => ⟨S32x32x32x128, .f32⟩
  | 7 => ⟨S32x32x32x128, .f32⟩
  | 8 => ⟨S32x32x32x128, .f32⟩
  | 9 => ⟨S32x32x32x1152, .f32⟩
  | 10 => ⟨S_, .f32⟩
  | 11 => ⟨S32x32x32x1152, .f32⟩
  | 12 => ⟨S32x32x32x1152, .f32⟩
  | 13 => ⟨S32x32x32x128, .f32⟩
  | 14 => ⟨S_, .i32⟩
  | 15 => ⟨S32x32, .i32⟩
  | 16 => ⟨S32x32, .i1⟩
  | 17 => ⟨S_, .i32⟩
  | 18 => ⟨S32x32, .i32⟩
  | 19 => ⟨S32x32, .i32⟩
  | 20 => ⟨S32x32, .i32⟩
  | 21 => ⟨S32x32x1, .i32⟩
  | 22 => ⟨S32x32x128, .f32⟩
  | 23 => ⟨S_, .f32⟩
  | 24 => ⟨S32x32x128, .f32⟩
  | 25 => ⟨S32x32x128, .f32⟩
  | 26 => ⟨S1x32x32x128, .f32⟩
  | 27 => ⟨S32x32x32x128, .f32⟩
  | 28 => ⟨S32x32x32x128, .f32⟩
  | 29 => ⟨S_, .f32⟩
  | 30 => ⟨S32x32x32x128, .f32⟩
  | 31 => ⟨S32x32x32x128, .f32⟩
  | 32 => ⟨S32x16x2x16x2x128, .f32⟩
  | 33 => ⟨S_, .f32⟩
  | 34 => ⟨S32x16x16x128, .f32⟩
  | 35 => ⟨S32x32768, .f32⟩
  | 36 => ⟨S_, .f32⟩
  | 37 => ⟨S32x32768, .f32⟩
  | 38 => ⟨S32x32768, .f32⟩
  | 39 => ⟨S32x256, .f32⟩
  | 40 => ⟨S_, .f32⟩
  | 41 => ⟨S256, .f32⟩
  | 42 => ⟨S256, .f32⟩
  | 43 => ⟨S1x256, .f32⟩
  | 44 => ⟨S32x256, .f32⟩
  | 45 => ⟨S32x256, .f32⟩
  | 46 => ⟨S_, .f32⟩
  | 47 => ⟨S32x256, .f32⟩
  | 48 => ⟨S32x256, .f32⟩
  | 49 => ⟨S_, .f32⟩
  | 50 => ⟨S32x256, .f32⟩
  | 51 => ⟨S32x256, .f32⟩
  | 52 => ⟨S32x10, .f32⟩
  | 53 => ⟨S1x10, .f32⟩
  | 54 => ⟨S32x10, .f32⟩
  | 55 => ⟨S32x10, .f32⟩
  | _ => ⟨S32x64x64x1, .f32⟩

abbrev hbmTy (i : Nat) : BufTy := match i / 128 with
  | 0 => hbmTy0_0 i
  | 1 => hbmTy0_1 i
  | _ => ⟨S32x64x64x1, .f32⟩

abbrev bufTy : (tb : Table) → Fin (tcTables nBuf tb) → BufTy
  | .hbm, ⟨i, _⟩ => hbmTy i
  | _, _ => ⟨S32x64x64x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_cst : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_cst_8 : Ref sig .tc := ⟨.hbm, 52, rfl⟩
abbrev main_call1_v0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_cst_15 : Ref sig .tc := ⟨.hbm, 90, rfl⟩
abbrev main_call2_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_20 : Ref sig .tc := ⟨.hbm, 122, rfl⟩
abbrev main_v84 : Ref sig .tc := ⟨.hbm, 123, rfl⟩
abbrev main_v85 : Ref sig .tc := ⟨.hbm, 124, rfl⟩
abbrev main_cst_21 : Ref sig .tc := ⟨.hbm, 125, rfl⟩
abbrev main_call3_v0 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_22 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_23 : Ref sig .tc := ⟨.hbm, 142, rfl⟩
abbrev main_v100 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_25 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_26 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_27 : Ref sig .tc := ⟨.hbm, 161, rfl⟩
abbrev main_v115 : Ref sig .tc := ⟨.hbm, 162, rfl⟩
abbrev main_v116 : Ref sig .tc := ⟨.hbm, 163, rfl⟩
abbrev main_cst_28 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_29 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_30 : Ref sig .tc := ⟨.hbm, 174, rfl⟩
abbrev main_v125 : Ref sig .tc := ⟨.hbm, 175, rfl⟩
abbrev main_v126 : Ref sig .tc := ⟨.hbm, 176, rfl⟩
abbrev main_cst_31 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩

abbrev nD : Nat := 1
abbrev τ : Topo := Topo.v7x

variable {F : FTy → Type} [FloatOps F]

class Facts₀ : Prop where
  pads_S32x64x64x1_S32x66x66x1_000_110_110_000 : S32x64x64x1.Pads (![0, 1, 1, 0] : Fin 4 → Nat) ![0, 1, 1, 0] ![0, 0, 0, 0] S32x66x66x1
  h_S_ : 0 < S_.numel
  slices_S32x66x66x1_S32x64x64x1_0_0_0_0 : S32x66x66x1.Slices ![0, 0, 0, 0] S32x64x64x1
  slices_S32x66x66x1_S32x64x64x1_0_0_1_0 : S32x66x66x1.Slices ![0, 0, 1, 0] S32x64x64x1
  slices_S32x66x66x1_S32x64x64x1_0_0_2_0 : S32x66x66x1.Slices ![0, 0, 2, 0] S32x64x64x1
  slices_S32x66x66x1_S32x64x64x1_0_1_0_0 : S32x66x66x1.Slices ![0, 1, 0, 0] S32x64x64x1
  slices_S32x66x66x1_S32x64x64x1_0_1_1_0 : S32x66x66x1.Slices ![0, 1, 1, 0] S32x64x64x1
  slices_S32x66x66x1_S32x64x64x1_0_1_2_0 : S32x66x66x1.Slices ![0, 1, 2, 0] S32x64x64x1
  slices_S32x66x66x1_S32x64x64x1_0_2_0_0 : S32x66x66x1.Slices ![0, 2, 0, 0] S32x64x64x1
  slices_S32x66x66x1_S32x64x64x1_0_2_1_0 : S32x66x66x1.Slices ![0, 2, 1, 0] S32x64x64x1
  slices_S32x66x66x1_S32x64x64x1_0_2_2_0 : S32x66x66x1.Slices ![0, 2, 2, 0] S32x64x64x1
  concatenates_S32x64x64x1_S32x64x64x1_S32x64x64x1_S32x64x64x1_S32x64x64x1_S32x64x64x1_S32x64x64x1_S32x64x64x1_S32x64x64x1_S32x64x64x9_d3 : Shape.Concatenates [S32x64x64x1, S32x64x64x1, S32x64x64x1, S32x64x64x1, S32x64x64x1, S32x64x64x1, S32x64x64x1, S32x64x64x1, S32x64x64x1] S32x64x64x9 3
  bcast_S_S32x64x64x9 : S_.BroadcastsInDim S32x64x64x9 (![] : Fin 0 → Fin S32x64x64x9.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S_S64x64x64 : S_.BroadcastsInDim S64x64x64 (![] : Fin 0 → Fin S64x64x64.rank)
  bcast_S64x64x64_S1x64x64x64_1_2_3 : S64x64x64.BroadcastsInDim S1x64x64x64 (![1, 2, 3] : Fin 3 → Fin S1x64x64x64.rank)
  bcast_S1x64x64x64_S32x64x64x64_0_1_2_3 : S1x64x64x64.BroadcastsInDim S32x64x64x64 (![0, 1, 2, 3] : Fin 4 → Fin S32x64x64x64.rank)
  bcast_S_S32x64x64x64 : S_.BroadcastsInDim S32x64x64x64 (![] : Fin 0 → Fin S32x64x64x64.rank)
  pads_S32x64x64x64_S32x66x66x64_000_110_110_000 : S32x64x64x64.Pads (![0, 1, 1, 0] : Fin 4 → Nat) ![0, 1, 1, 0] ![0, 0, 0, 0] S32x66x66x64
  slices_S32x66x66x64_S32x64x64x64_0_0_0_0 : S32x66x66x64.Slices ![0, 0, 0, 0] S32x64x64x64
  slices_S32x66x66x64_S32x64x64x64_0_0_1_0 : S32x66x66x64.Slices ![0, 0, 1, 0] S32x64x64x64
  slices_S32x66x66x64_S32x64x64x64_0_0_2_0 : S32x66x66x64.Slices ![0, 0, 2, 0] S32x64x64x64
  slices_S32x66x66x64_S32x64x64x64_0_1_0_0 : S32x66x66x64.Slices ![0, 1, 0, 0] S32x64x64x64
  slices_S32x66x66x64_S32x64x64x64_0_1_1_0 : S32x66x66x64.Slices ![0, 1, 1, 0] S32x64x64x64
  slices_S32x66x66x64_S32x64x64x64_0_1_2_0 : S32x66x66x64.Slices ![0, 1, 2, 0] S32x64x64x64
  slices_S32x66x66x64_S32x64x64x64_0_2_0_0 : S32x66x66x64.Slices ![0, 2, 0, 0] S32x64x64x64
  slices_S32x66x66x64_S32x64x64x64_0_2_1_0 : S32x66x66x64.Slices ![0, 2, 1, 0] S32x64x64x64
  slices_S32x66x66x64_S32x64x64x64_0_2_2_0 : S32x66x66x64.Slices ![0, 2, 2, 0] S32x64x64x64
  concatenates_S32x64x64x64_S32x64x64x64_S32x64x64x64_S32x64x64x64_S32x64x64x64_S32x64x64x64_S32x64x64x64_S32x64x64x64_S32x64x64x64_S32x64x64x576_d3 : Shape.Concatenates [S32x64x64x64, S32x64x64x64, S32x64x64x64, S32x64x64x64, S32x64x64x64, S32x64x64x64, S32x64x64x64, S32x64x64x64, S32x64x64x64] S32x64x64x576 3
  bcast_S_S32x64x64x576 : S_.BroadcastsInDim S32x64x64x576 (![] : Fin 0 → Fin S32x64x64x576.rank)
  shapeCasts_S32x64x64x64_S32x32x2x32x2x64 : S32x64x64x64.ShapeCasts S32x32x2x32x2x64
  reducesTo_S32x32x2x32x2x64_S32x32x32x64_d2_4 : S32x32x2x32x2x64.ReducesTo [2, 4] S32x32x32x64
  pads_S32x32x32x64_S32x34x34x64_000_110_110_000 : S32x32x32x64.Pads (![0, 1, 1, 0] : Fin 4 → Nat) ![0, 1, 1, 0] ![0, 0, 0, 0] S32x34x34x64
  slices_S32x34x34x64_S32x32x32x64_0_0_0_0 : S32x34x34x64.Slices ![0, 0, 0, 0] S32x32x32x64
  slices_S32x34x34x64_S32x32x32x64_0_0_1_0 : S32x34x34x64.Slices ![0, 0, 1, 0] S32x32x32x64
  slices_S32x34x34x64_S32x32x32x64_0_0_2_0 : S32x34x34x64.Slices ![0, 0, 2, 0] S32x32x32x64
  slices_S32x34x34x64_S32x32x32x64_0_1_0_0 : S32x34x34x64.Slices ![0, 1, 0, 0] S32x32x32x64
  slices_S32x34x34x64_S32x32x32x64_0_1_1_0 : S32x34x34x64.Slices ![0, 1, 1, 0] S32x32x32x64
  slices_S32x34x34x64_S32x32x32x64_0_1_2_0 : S32x34x34x64.Slices ![0, 1, 2, 0] S32x32x32x64
  slices_S32x34x34x64_S32x32x32x64_0_2_0_0 : S32x34x34x64.Slices ![0, 2, 0, 0] S32x32x32x64
  slices_S32x34x34x64_S32x32x32x64_0_2_1_0 : S32x34x34x64.Slices ![0, 2, 1, 0] S32x32x32x64
  slices_S32x34x34x64_S32x32x32x64_0_2_2_0 : S32x34x34x64.Slices ![0, 2, 2, 0] S32x32x32x64
  concatenates_S32x32x32x64_S32x32x32x64_S32x32x32x64_S32x32x32x64_S32x32x32x64_S32x32x32x64_S32x32x32x64_S32x32x32x64_S32x32x32x64_S32x32x32x576_d3 : Shape.Concatenates [S32x32x32x64, S32x32x32x64, S32x32x32x64, S32x32x32x64, S32x32x32x64, S32x32x32x64, S32x32x32x64, S32x32x32x64, S32x32x32x64] S32x32x32x576 3
  bcast_S_S32x32x32x576 : S_.BroadcastsInDim S32x32x32x576 (![] : Fin 0 → Fin S32x32x32x576.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S_S32x32x128 : S_.BroadcastsInDim S32x32x128 (![] : Fin 0 → Fin S32x32x128.rank)
  bcast_S32x32x128_S1x32x32x128_1_2_3 : S32x32x128.BroadcastsInDim S1x32x32x128 (![1, 2, 3] : Fin 3 → Fin S1x32x32x128.rank)
  bcast_S1x32x32x128_S32x32x32x128_0_1_2_3 : S1x32x32x128.BroadcastsInDim S32x32x32x128 (![0, 1, 2, 3] : Fin 4 → Fin S32x32x32x128.rank)
  bcast_S_S32x32x32x128 : S_.BroadcastsInDim S32x32x32x128 (![] : Fin 0 → Fin S32x32x32x128.rank)
  pads_S32x32x32x128_S32x34x34x128_000_110_110_000 : S32x32x32x128.Pads (![0, 1, 1, 0] : Fin 4 → Nat) ![0, 1, 1, 0] ![0, 0, 0, 0] S32x34x34x128
  slices_S32x34x34x128_S32x32x32x128_0_0_0_0 : S32x34x34x128.Slices ![0, 0, 0, 0] S32x32x32x128
  slices_S32x34x34x128_S32x32x32x128_0_0_1_0 : S32x34x34x128.Slices ![0, 0, 1, 0] S32x32x32x128
  slices_S32x34x34x128_S32x32x32x128_0_0_2_0 : S32x34x34x128.Slices ![0, 0, 2, 0] S32x32x32x128
  slices_S32x34x34x128_S32x32x32x128_0_1_0_0 : S32x34x34x128.Slices ![0, 1, 0, 0] S32x32x32x128
  slices_S32x34x34x128_S32x32x32x128_0_1_1_0 : S32x34x34x128.Slices ![0, 1, 1, 0] S32x32x32x128
  slices_S32x34x34x128_S32x32x32x128_0_1_2_0 : S32x34x34x128.Slices ![0, 1, 2, 0] S32x32x32x128
  slices_S32x34x34x128_S32x32x32x128_0_2_0_0 : S32x34x34x128.Slices ![0, 2, 0, 0] S32x32x32x128
  slices_S32x34x34x128_S32x32x32x128_0_2_1_0 : S32x34x34x128.Slices ![0, 2, 1, 0] S32x32x32x128
  slices_S32x34x34x128_S32x32x32x128_0_2_2_0 : S32x34x34x128.Slices ![0, 2, 2, 0] S32x32x32x128
  concatenates_S32x32x32x128_S32x32x32x128_S32x32x32x128_S32x32x32x128_S32x32x32x128_S32x32x32x128_S32x32x32x128_S32x32x32x128_S32x32x32x128_S32x32x32x1152_d3 : Shape.Concatenates [S32x32x32x128, S32x32x32x128, S32x32x32x128, S32x32x32x128, S32x32x32x128, S32x32x32x128, S32x32x32x128, S32x32x32x128, S32x32x32x128] S32x32x32x1152 3
  bcast_S_S32x32x32x1152 : S_.BroadcastsInDim S32x32x32x1152 (![] : Fin 0 → Fin S32x32x32x1152.rank)
  shapeCasts_S32x32x32x128_S32x16x2x16x2x128 : S32x32x32x128.ShapeCasts S32x16x2x16x2x128
  reducesTo_S32x16x2x16x2x128_S32x16x16x128_d2_4 : S32x16x2x16x2x128.ReducesTo [2, 4] S32x16x16x128
  shapeCasts_S32x16x16x128_S32x32768 : S32x16x16x128.ShapeCasts S32x32768
  bcast_S_S32x32768 : S_.BroadcastsInDim S32x32768 (![] : Fin 0 → Fin S32x32768.rank)
  bcast_S_S256 : S_.BroadcastsInDim S256 (![] : Fin 0 → Fin S256.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  dot_S32x64x64x9_S9x64_S32x64x64x64_3_0_012_1_n_n_wf : DotDims.WF S32x64x64x9 S9x64 S32x64x64x64 [3] [0] [0, 1, 2] [1] [] []
  gather_S9x64_S64x64x1_S64x64x64_2_0_n_n_0_2_164_wf : GatherDims.WF S9x64 S64x64x1 S64x64x64 [2] [0] [] [0] [] 2 ![1, 64]
  dot_S32x64x64x576_S576x64_S32x64x64x64_3_0_012_1_n_n_wf : DotDims.WF S32x64x64x576 S576x64 S32x64x64x64 [3] [0] [0, 1, 2] [1] [] []
  dot_S32x32x32x576_S576x128_S32x32x32x128_3_0_012_1_n_n_wf : DotDims.WF S32x32x32x576 S576x128 S32x32x32x128 [3] [0] [0, 1, 2] [1] [] []
  gather_S9x128_S32x32x1_S32x32x128_2_0_n_n_0_2_1128_wf : GatherDims.WF S9x128 S32x32x1 S32x32x128 [2] [0] [] [0] [] 2 ![1, 128]
  dot_S32x32x32x1152_S1152x128_S32x32x32x128_3_0_012_1_n_n_wf : DotDims.WF S32x32x32x1152 S1152x128 S32x32x32x128 [3] [0] [0, 1, 2] [1] [] []
  dot_S32x32768_S32768x256_S32x256_1_0_0_1_n_n_wf : DotDims.WF S32x32768 S32768x256 S32x256 [1] [0] [0] [1] [] []
  dot_S32x256_S256x10_S32x10_1_0_0_1_n_n_wf : DotDims.WF S32x256 S256x10 S32x10 [1] [0] [0] [1] [] []

variable [Facts₀]

def dot_S32x64x64x9_S9x64_S32x64x64x64_3_0_012_1_n_n : DotDims S32x64x64x9 S9x64 S32x64x64x64 where
  lhsContracting := [3]
  rhsContracting := [0]
  lhsNonContracting := [0, 1, 2]
  rhsNonContracting := [1]
  lhsBatch := []
  rhsBatch := []
  wf := dot_S32x64x64x9_S9x64_S32x64x64x64_3_0_012_1_n_n_wf
def gather_S9x64_S64x64x1_S64x64x64_2_0_n_n_0_2_164 : GatherDims S9x64 S64x64x1 S64x64x64 where
  offsetDims := [2]
  collapsedSliceDims := [0]
  operandBatchingDims := []
  startIndicesBatchingDims := []
  startIndexMap := [0]
  indexVectorDim := 2
  sliceSizes := ![1, 64]
  wf := gather_S9x64_S64x64x1_S64x64x64_2_0_n_n_0_2_164_wf
def dot_S32x64x64x576_S576x64_S32x64x64x64_3_0_012_1_n_n : DotDims S32x64x64x576 S576x64 S32x64x64x64 where
  lhsContracting := [3]
  rhsContracting := [0]
  lhsNonContracting := [0, 1, 2]
  rhsNonContracting := [1]
  lhsBatch := []
  rhsBatch := []
  wf := dot_S32x64x64x576_S576x64_S32x64x64x64_3_0_012_1_n_n_wf
def dot_S32x32x32x576_S576x128_S32x32x32x128_3_0_012_1_n_n : DotDims S32x32x32x576 S576x128 S32x32x32x128 where
  lhsContracting := [3]
  rhsContracting := [0]
  lhsNonContracting := [0, 1, 2]
  rhsNonContracting := [1]
  lhsBatch := []
  rhsBatch := []
  wf := dot_S32x32x32x576_S576x128_S32x32x32x128_3_0_012_1_n_n_wf
def gather_S9x128_S32x32x1_S32x32x128_2_0_n_n_0_2_1128 : GatherDims S9x128 S32x32x1 S32x32x128 where
  offsetDims := [2]
  collapsedSliceDims := [0]
  operandBatchingDims := []
  startIndicesBatchingDims := []
  startIndexMap := [0]
  indexVectorDim := 2
  sliceSizes := ![1, 128]
  wf := gather_S9x128_S32x32x1_S32x32x128_2_0_n_n_0_2_1128_wf
def dot_S32x32x32x1152_S1152x128_S32x32x32x128_3_0_012_1_n_n : DotDims S32x32x32x1152 S1152x128 S32x32x32x128 where
  lhsContracting := [3]
  rhsContracting := [0]
  lhsNonContracting := [0, 1, 2]
  rhsNonContracting := [1]
  lhsBatch := []
  rhsBatch := []
  wf := dot_S32x32x32x1152_S1152x128_S32x32x32x128_3_0_012_1_n_n_wf
def dot_S32x32768_S32768x256_S32x256_1_0_0_1_n_n : DotDims S32x32768 S32768x256 S32x256 where
  lhsContracting := [1]
  rhsContracting := [0]
  lhsNonContracting := [0]
  rhsNonContracting := [1]
  lhsBatch := []
  rhsBatch := []
  wf := dot_S32x32768_S32768x256_S32x256_1_0_0_1_n_n_wf
def dot_S32x256_S256x10_S32x10_1_0_0_1_n_n : DotDims S32x256 S256x10 S32x10 where
  lhsContracting := [1]
  rhsContracting := [0]
  lhsNonContracting := [0]
  rhsNonContracting := [1]
  lhsBatch := []
  rhsBatch := []
  wf := dot_S32x256_S256x10_S32x10_1_0_0_1_n_n_wf

class Facts : Prop extends Facts₀ where

variable [Facts]
-- ==== Proof.NetB.Reg0.lean ====
import proofs.«133004_j26104811225511_1_alg».proof.Proof.Gen.Kernel.Launch
import proofs.«133004_j26104811225511_1_alg».proof.Proof.Gen.Kernel.Skeleton
import proofs.«133004_j26104811225511_1_alg».proof.Proof.Gen.Kernel.Points
import Idealize.ShloMosaic.Lib.Pipeline.FrameBody
import Idealize.ShloMosaic.Lib.Tactic

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev tap0_00 : Rect S4x66x66x1 := Rect.unit ![0, 0, 0, 0] S4x64x64x1.size inb_S4x66x66x1_S4x64x64x1_0_0_0_0
abbrev tap0_01 : Rect S4x66x66x1 := Rect.unit ![0, 0, 1, 0] S4x64x64x1.size inb_S4x66x66x1_S4x64x64x1_0_0_1_0
abbrev tap0_02 : Rect S4x66x66x1 := Rect.unit ![0, 0, 2, 0] S4x64x64x1.size inb_S4x66x66x1_S4x64x64x1_0_0_2_0
abbrev tap0_10 : Rect S4x66x66x1 := Rect.unit ![0, 1, 0, 0] S4x64x64x1.size inb_S4x66x66x1_S4x64x64x1_0_1_0_0
abbrev tap0_11 : Rect S4x66x66x1 := Rect.unit ![0, 1, 1, 0] S4x64x64x1.size inb_S4x66x66x1_S4x64x64x1_0_1_1_0
abbrev tap0_12 : Rect S4x66x66x1 := Rect.unit ![0, 1, 2, 0] S4x64x64x1.size inb_S4x66x66x1_S4x64x64x1_0_1_2_0
abbrev tap0_20 : Rect S4x66x66x1 := Rect.unit ![0, 2, 0, 0] S4x64x64x1.size inb_S4x66x66x1_S4x64x64x1_0_2_0_0
abbrev tap0_21 : Rect S4x66x66x1 := Rect.unit ![0, 2, 1, 0] S4x64x64x1.size inb_S4x66x66x1_S4x64x64x1_0_2_1_0
abbrev tap0_22 : Rect S4x66x66x1 := Rect.unit ![0, 2, 2, 0] S4x64x64x1.size inb_S4x66x66x1_S4x64x64x1_0_2_2_0

abbrev wrow0_0 : Rect S9x64 := Rect.unit ![0, 0] S1x64.size inb_S9x64_S1x64_0_0
abbrev wrow0_1 : Rect S9x64 := Rect.unit ![1, 0] S1x64.size inb_S9x64_S1x64_1_0
abbrev wrow0_2 : Rect S9x64 := Rect.unit ![2, 0] S1x64.size inb_S9x64_S1x64_2_0
abbrev wrow0_3 : Rect S9x64 := Rect.unit ![3, 0] S1x64.size inb_S9x64_S1x64_3_0
abbrev wrow0_4 : Rect S9x64 := Rect.unit ![4, 0] S1x64.size inb_S9x64_S1x64_4_0
abbrev wrow0_5 : Rect S9x64 := Rect.unit ![5, 0] S1x64.size inb_S9x64_S1x64_5_0
abbrev wrow0_6 : Rect S9x64 := Rect.unit ![6, 0] S1x64.size inb_S9x64_S1x64_6_0
abbrev wrow0_7 : Rect S9x64 := Rect.unit ![7, 0] S1x64.size inb_S9x64_S1x64_7_0
abbrev wrow0_8 : Rect S9x64 := Rect.unit ![8, 0] S1x64.size inb_S9x64_S1x64_8_0

abbrev thr0 : Rect S64x64x64 := Rect.unit ![0, 0, 0] S64x64x64.size inb_S64x64x64_S64x64x64_0_0_0
abbrev oblk0 : Rect S4x64x64x64 := Rect.unit ![0, 0, 0, 0] S4x64x64x64.size inb_S4x64x64x64_S4x64x64x64_0_0_0_0

def acc0 (x0 : Vec F S4x66x66x1 .f32) (x1 : Vec F S9x64 .f32) : FVec F S4x64x64x64 .f32 :=
  k0_pay4
    (k0_pay3
      (k0_pay2 (View.ld x0 tap0_00) (View.ld x1 wrow0_0) (View.ld x0 tap0_01) (View.ld x1 wrow0_1) (View.ld x0 tap0_02) (View.ld x1 wrow0_2))
      (View.ld x0 tap0_10) (View.ld x1 wrow0_3) (View.ld x0 tap0_11) (View.ld x1 wrow0_4) (View.ld x0 tap0_12) (View.ld x1 wrow0_5))
    (View.ld x0 tap0_20) (View.ld x1 wrow0_6) (View.ld x0 tap0_21) (View.ld x1 wrow0_7) (View.ld x0 tap0_22) (View.ld x1 wrow0_8)

def out0_3 (x0 : Vec F S4x66x66x1 .f32) (x1 : Vec F S9x64 .f32) (x2 : Vec F S64x64x64 .f32) : Vec F S4x64x64x64 .f32 :=
  View.canon [⟨oblk0, k0_pay1 (acc0 x0 x1) (k0_pay5 (View.ld x2 thr0)) (Scalar.ofBits .f32 0x44BB8000#32)⟩]

set_option maxHeartbeats 4000000 in
-- The body reads its three inputs and stores `out0_3` of them over the whole output; `P` and `Q` pass through unread.
theorem sound_kernel0 {c : Dev nD} {E} {i} {arg1} {harg1} {arg2} {harg2} {arg3} {harg3} {arg4} {harg4} {x0} {x1} {x2} {α β γ δ : Type} {g : δ → _} {P Q : sProp 𝕄} :
    iprop(P ∗ Q ∗ (∃ _ : α, owns c arg1 fullShare x0) ∗ (∃ _ : β, owns c arg2 fullShare x1)
        ∗ (∃ _ : γ, owns c arg3 fullShare x2) ∗ ∃ d, owns c arg4 fullShare (g d))
      ⊢ wp frame (wpE (defs₀ (F := F)) Variants.none c none) E (cc0__conv_kernel_body i arg1 harg1 arg2 harg2 arg3 harg3 arg4 harg4) fun _ =>
        iprop(P ∗ Q ∗ owns c arg1 fullShare x0 ∗ owns c arg2 fullShare x1 ∗ owns c arg3 fullShare x2
          ∗ owns c arg4 fullShare (out0_3 x0 x1 x2)) := by
  simp only [cc0__conv_kernel_body_eq_skeleton]; unfold cc0__conv_kernel_body_skel
  simp only [k0_part1_eq_skeleton, k0_part2_eq_skeleton, k0_part3_eq_skeleton]; unfold k0_part1_skel k0_part2_skel k0_part3_skel
  unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4x64x64x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0 (c : Dev nD) (t : Fin cfg0.N) : (∀ d, (dat0 V c).before 0 t d = iblk0 V c 0 t) ∧ (∀ d, (dat0 V c).before 1 t d = iblk0 V c 1 t) ∧
    ∀ d, (dat0 V c).before 2 t d = iblk0 V c 2 t := by
  refine ⟨fun d => ?_, fun d => ?_, fun d => ?_⟩ <;>
  exact ((dat0 V c).before_in_eq_fetched _ rfl (fun _ => rfl) (fun _ _ _ => rfl) (fun _ => by dsimp only [dat0, Dat.blockOf, iblk0]; try rfl) t d).trans
    (by dsimp only [dat0, Dat.fetched, Dat.blockOf, iblk0]; try rfl)

theorem body_obligation0 (c : Dev nD) : BodyObligation (dat0 (F := F) V c) (defs₀ (F := F)) Variants.none () Set.univ := fun t => by
  rw [bigSep_W0, bigSep_W0]
  simp only [(before0 V c t).1, (before0 V c t).2.1, (before0 V c t).2.2]
  dsimp only [dat0]
  exact sound_kernel0

end Cert.Kernel.Net

end
-- ==== Proof.NetB.Reg1.lean ====
import proofs.«133004_j26104811225511_1_alg».proof.Proof.Gen.Kernel.Launch
import proofs.«133004_j26104811225511_1_alg».proof.Proof.Gen.Kernel.Skeleton
import proofs.«133004_j26104811225511_1_alg».proof.Proof.Gen.Kernel.Points
import Idealize.ShloMosaic.Lib.Pipeline.FrameBody
import Idealize.ShloMosaic.Lib.Tactic

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev tap1_00 : Rect S4x66x66x64 := Rect.unit ![0, 0, 0, 0] S4x64x64x64.size inb_S4x66x66x64_S4x64x64x64_0_0_0_0
abbrev tap1_01 : Rect S4x66x66x64 := Rect.unit ![0, 0, 1, 0] S4x64x64x64.size inb_S4x66x66x64_S4x64x64x64_0_0_1_0
abbrev tap1_02 : Rect S4x66x66x64 := Rect.unit ![0, 0, 2, 0] S4x64x64x64.size inb_S4x66x66x64_S4x64x64x64_0_0_2_0
abbrev tap1_10 : Rect S4x66x66x64 := Rect.unit ![0, 1, 0, 0] S4x64x64x64.size inb_S4x66x66x64_S4x64x64x64_0_1_0_0
abbrev tap1_11 : Rect S4x66x66x64 := Rect.unit ![0, 1, 1, 0] S4x64x64x64.size inb_S4x66x66x64_S4x64x64x64_0_1_1_0
abbrev tap1_12 : Rect S4x66x66x64 := Rect.unit ![0, 1, 2, 0] S4x64x64x64.size inb_S4x66x66x64_S4x64x64x64_0_1_2_0
abbrev tap1_20 : Rect S4x66x66x64 := Rect.unit ![0, 2, 0, 0] S4x64x64x64.size inb_S4x66x66x64_S4x64x64x64_0_2_0_0
abbrev tap1_21 : Rect S4x66x66x64 := Rect.unit ![0, 2, 1, 0] S4x64x64x64.size inb_S4x66x66x64_S4x64x64x64_0_2_1_0
abbrev tap1_22 : Rect S4x66x66x64 := Rect.unit ![0, 2, 2, 0] S4x64x64x64.size inb_S4x66x66x64_S4x64x64x64_0_2_2_0

abbrev wrow1_0 : Rect S576x64 := Rect.unit ![0, 0] S64x64.size inb_S576x64_S64x64_0_0
abbrev wrow1_1 : Rect S576x64 := Rect.unit ![64, 0] S64x64.size inb_S576x64_S64x64_64_0
abbrev wrow1_2 : Rect S576x64 := Rect.unit ![128, 0] S64x64.size inb_S576x64_S64x64_128_0
abbrev wrow1_3 : Rect S576x64 := Rect.unit ![192, 0] S64x64.size inb_S576x64_S64x64_192_0
abbrev wrow1_4 : Rect S576x64 := Rect.unit ![256, 0] S64x64.size inb_S576x64_S64x64_256_0
abbrev wrow1_5 : Rect S576x64 := Rect.unit ![320, 0] S64x64.size inb_S576x64_S64x64_320_0
abbrev wrow1_6 : Rect S576x64 := Rect.unit ![384, 0] S64x64.size inb_S576x64_S64x64_384_0
abbrev wrow1_7 : Rect S576x64 := Rect.unit ![448, 0] S64x64.size inb_S576x64_S64x64_448_0
abbrev wrow1_8 : Rect S576x64 := Rect.unit ![512, 0] S64x64.size inb_S576x64_S64x64_512_0

abbrev thr1 : Rect S64x64x64 := Rect.unit ![0, 0, 0] S64x64x64.size inb_S64x64x64_S64x64x64_0_0_0
abbrev oblk1 : Rect S4x64x64x64 := Rect.unit ![0, 0, 0, 0] S4x64x64x64.size inb_S4x64x64x64_S4x64x64x64_0_0_0_0

def acc1 (x0 : Vec F S4x66x66x64 .f32) (x1 : Vec F S576x64 .f32) : FVec F S4x64x64x64 .f32 :=
  k1_pay4
    (k1_pay3
      (k1_pay2 (View.ld x0 tap1_00) (View.ld x1 wrow1_0) (View.ld x0 tap1_01) (View.ld x1 wrow1_1) (View.ld x0 tap1_02) (View.ld x1 wrow1_2))
      (View.ld x0 tap1_10) (View.ld x1 wrow1_3) (View.ld x0 tap1_11) (View.ld x1 wrow1_4) (View.ld x0 tap1_12) (View.ld x1 wrow1_5))
    (View.ld x0 tap1_20) (View.ld x1 wrow1_6) (View.ld x0 tap1_21) (View.ld x1 wrow1_7) (View.ld x0 tap1_22) (View.ld x1 wrow1_8)

def out1_3 (x0 : Vec F S4x66x66x64 .f32) (x1 : Vec F S576x64 .f32) (x2 : Vec F S64x64x64 .f32) : Vec F S4x64x64x64 .f32 :=
  View.canon [⟨oblk1, k1_pay1 (acc1 x0 x1) (k1_pay5 (View.ld x2 thr1)) (Scalar.ofBits .f32 0x453B8000#32)⟩]

set_option maxHeartbeats 4000000 in
-- The body reads its three inputs and stores `out1_3` of them over the whole output; `P` and `Q` pass through unread.
theorem sound_kernel1 {c : Dev nD} {E} {i} {arg1} {harg1} {arg2} {harg2} {arg3} {harg3} {arg4} {harg4} {x0} {x1} {x2} {α β γ δ : Type} {g : δ → _} {P Q : sProp 𝕄} :
    iprop(P ∗ Q ∗ (∃ _ : α, owns c arg1 fullShare x0) ∗ (∃ _ : β, owns c arg2 fullShare x1)
        ∗ (∃ _ : γ, owns c arg3 fullShare x2) ∗ ∃ d, owns c arg4 fullShare (g d))
      ⊢ wp frame (wpE (defs₀ (F := F)) Variants.none c none) E (cc1__conv_kernel_body i arg1 harg1 arg2 harg2 arg3 harg3 arg4 harg4) fun _ =>
        iprop(P ∗ Q ∗ owns c arg1 fullShare x0 ∗ owns c arg2 fullShare x1 ∗ owns c arg3 fullShare x2
          ∗ owns c arg4 fullShare (out1_3 x0 x1 x2)) := by
  simp only [cc1__conv_kernel_body_eq_skeleton]; unfold cc1__conv_kernel_body_skel
  simp only [k1_part1_eq_skeleton, k1_part2_eq_skeleton, k1_part3_eq_skeleton]; unfold k1_part1_skel k1_part2_skel k1_part3_skel
  unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4x64x64x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1 (c : Dev nD) (t : Fin cfg1.N) : (∀ d, (dat1 V c).before 0 t d = iblk1 V c 0 t) ∧ (∀ d, (dat1 V c).before 1 t d = iblk1 V c 1 t) ∧
    ∀ d, (dat1 V c).before 2 t d = iblk1 V c 2 t := by
  refine ⟨fun d => ?_, fun d => ?_, fun d => ?_⟩ <;>
  exact ((dat1 V c).before_in_eq_fetched _ rfl (fun _ => rfl) (fun _ _ _ => rfl) (fun _ => by dsimp only [dat1, Dat.blockOf, iblk1]; try rfl) t d).trans
    (by dsimp only [dat1, Dat.fetched, Dat.blockOf, iblk1]; try rfl)

theorem body_obligation1 (c : Dev nD) : BodyObligation (dat1 (F := F) V c) (defs₀ (F := F)) Variants.none () Set.univ := fun t => by
  rw [bigSep_W1, bigSep_W1]
  simp only [(before1 V c t).1, (before1 V c t).2.1, (before1 V c t).2.2]
  dsimp only [dat1]
  exact sound_kernel1

end Cert.Kernel.Net

end
-- ==== Proof.NetB.Reg2.lean ====
import proofs.«133004_j26104811225511_1_alg».proof.Proof.Gen.Kernel.Launch
import proofs.«133004_j26104811225511_1_alg».proof.Proof.Gen.Kernel.Skeleton
import proofs.«133004_j26104811225511_1_alg».proof.Proof.Gen.Kernel.Points
import Idealize.ShloMosaic.Lib.Pipeline.FrameBody
import Idealize.ShloMosaic.Lib.Tactic

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev tap2_00 : Rect S4x34x34x64 := Rect.unit ![0, 0, 0, 0] S4x32x32x64.size inb_S4x34x34x64_S4x32x32x64_0_0_0_0
abbrev tap2_01 : Rect S4x34x34x64 := Rect.unit ![0, 0, 1, 0] S4x32x32x64.size inb_S4x34x34x64_S4x32x32x64_0_0_1_0
abbrev tap2_02 : Rect S4x34x34x64 := Rect.unit ![0, 0, 2, 0] S4x32x32x64.size inb_S4x34x34x64_S4x32x32x64_0_0_2_0
abbrev tap2_10 : Rect S4x34x34x64 := Rect.unit ![0, 1, 0, 0] S4x32x32x64.size inb_S4x34x34x64_S4x32x32x64_0_1_0_0
abbrev tap2_11 : Rect S4x34x34x64 := Rect.unit ![0, 1, 1, 0] S4x32x32x64.size inb_S4x34x34x64_S4x32x32x64_0_1_1_0
abbrev tap2_12 : Rect S4x34x34x64 := Rect.unit ![0, 1, 2, 0] S4x32x32x64.size inb_S4x34x34x64_S4x32x32x64_0_1_2_0
abbrev tap2_20 : Rect S4x34x34x64 := Rect.unit ![0, 2, 0, 0] S4x32x32x64.size inb_S4x34x34x64_S4x32x32x64_0_2_0_0
abbrev tap2_21 : Rect S4x34x34x64 := Rect.unit ![0, 2, 1, 0] S4x32x32x64.size inb_S4x34x34x64_S4x32x32x64_0_2_1_0
abbrev tap2_22 : Rect S4x34x34x64 := Rect.unit ![0, 2, 2, 0] S4x32x32x64.size inb_S4x34x34x64_S4x32x32x64_0_2_2_0

abbrev wrow2_0 : Rect S576x128 := Rect.unit ![0, 0] S64x128.size inb_S576x128_S64x128_0_0
abbrev wrow2_1 : Rect S576x128 := Rect.unit ![64, 0] S64x128.size inb_S576x128_S64x128_64_0
abbrev wrow2_2 : Rect S576x128 := Rect.unit ![128, 0] S64x128.size inb_S576x128_S64x128_128_0
abbrev wrow2_3 : Rect S576x128 := Rect.unit ![192, 0] S64x128.size inb_S576x128_S64x128_192_0
abbrev wrow2_4 : Rect S576x128 := Rect.unit ![256, 0] S64x128.size inb_S576x128_S64x128_256_0
abbrev wrow2_5 : Rect S576x128 := Rect.unit ![320, 0] S64x128.size inb_S576x128_S64x128_320_0
abbrev wrow2_6 : Rect S576x128 := Rect.unit ![384, 0] S64x128.size inb_S576x128_S64x128_384_0
abbrev wrow2_7 : Rect S576x128 := Rect.unit ![448, 0] S64x128.size inb_S576x128_S64x128_448_0
abbrev wrow2_8 : Rect S576x128 := Rect.unit ![512, 0] S64x128.size inb_S576x128_S64x128_512_0

abbrev thr2 : Rect S32x32x128 := Rect.unit ![0, 0, 0] S32x32x128.size inb_S32x32x128_S32x32x128_0_0_0
abbrev oblk2 : Rect S4x32x32x128 := Rect.unit ![0, 0, 0, 0] S4x32x32x128.size inb_S4x32x32x128_S4x32x32x128_0_0_0_0

def acc2 (x0 : Vec F S4x34x34x64 .f32) (x1 : Vec F S576x128 .f32) : FVec F S4x32x32x128 .f32 :=
  k2_pay4
    (k2_pay3
      (k2_pay2 (View.ld x0 tap2_00) (View.ld x1 wrow2_0) (View.ld x0 tap2_01) (View.ld x1 wrow2_1) (View.ld x0 tap2_02) (View.ld x1 wrow2_2))
      (View.ld x0 tap2_10) (View.ld x1 wrow2_3) (View.ld x0 tap2_11) (View.ld x1 wrow2_4) (View.ld x0 tap2_12) (View.ld x1 wrow2_5))
    (View.ld x0 tap2_20) (View.ld x1 wrow2_6) (View.ld x0 tap2_21) (View.ld x1 wrow2_7) (View.ld x0 tap2_22) (View.ld x1 wrow2_8)

def out2_3 (x0 : Vec F S4x34x34x64 .f32) (x1 : Vec F S576x128 .f32) (x2 : Vec F S32x32x128 .f32) : Vec F S4x32x32x128 .f32 :=
  View.canon [⟨oblk2, k2_pay1 (acc2 x0 x1) (k2_pay5 (View.ld x2 thr2)) (Scalar.ofBits .f32 0x458CA000#32)⟩]

set_option maxHeartbeats 4000000 in
-- The body reads its three inputs and stores `out2_3` of them over the whole output; `P` and `Q` pass through unread.
theorem sound_kernel2 {c : Dev nD} {E} {i} {arg1} {harg1} {arg2} {harg2} {arg3} {harg3} {arg4} {harg4} {x0} {x1} {x2} {α β γ δ : Type} {g : δ → _} {P Q : sProp 𝕄} :
    iprop(P ∗ Q ∗ (∃ _ : α, owns c arg1 fullShare x0) ∗ (∃ _ : β, owns c arg2 fullShare x1)
        ∗ (∃ _ : γ, owns c arg3 fullShare x2) ∗ ∃ d, owns c arg4 fullShare (g d))
      ⊢ wp frame (wpE (defs₀ (F := F)) Variants.none c none) E (cc2__conv_kernel_body i arg1 harg1 arg2 harg2 arg3 harg3 arg4 harg4) fun _ =>
        iprop(P ∗ Q ∗ owns c arg1 fullShare x0 ∗ owns c arg2 fullShare x1 ∗ owns c arg3 fullShare x2
          ∗ owns c arg4 fullShare (out2_3 x0 x1 x2)) := by
  simp only [cc2__conv_kernel_body_eq_skeleton]; unfold cc2__conv_kernel_body_skel
  simp only [k2_part1_eq_skeleton, k2_part2_eq_skeleton, k2_part3_eq_skeleton]; unfold k2_part1_skel k2_part2_skel k2_part3_skel
  unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4x32x32x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

theorem before2 (c : Dev nD) (t : Fin cfg2.N) : (∀ d, (dat2 V c).before 0 t d = iblk2 V c 0 t) ∧ (∀ d, (dat2 V c).before 1 t d = iblk2 V c 1 t) ∧
    ∀ d, (dat2 V c).before 2 t d = iblk2 V c 2 t := by
  refine ⟨fun d => ?_, fun d => ?_, fun d => ?_⟩ <;>
  exact ((dat2 V c).before_in_eq_fetched _ rfl (fun _ => rfl) (fun _ _ _ => rfl) (fun _ => by dsimp only [dat2, Dat.blockOf, iblk2]; try rfl) t d).trans
    (by dsimp only [dat2, Dat.fetched, Dat.blockOf, iblk2]; try rfl)

theorem body_obligation2 (c : Dev nD) : BodyObligation (dat2 (F := F) V c) (defs₀ (F := F)) Variants.none () Set.univ := fun t => by
  rw [bigSep_W2, bigSep_W2]
  simp only [(before2 V c t).1, (before2 V c t).2.1, (before2 V c t).2.2]
  dsimp only [dat2]
  exact sound_kernel2

end Cert.Kernel.Net

end
-- ==== Proof.NetB.Reg3.lean ====
import proofs.«133004_j26104811225511_1_alg».proof.Proof.Gen.Kernel.Launch
import proofs.«133004_j26104811225511_1_alg».proof.Proof.Gen.Kernel.Skeleton
import proofs.«133004_j26104811225511_1_alg».proof.Proof.Gen.Kernel.Points
import Idealize.ShloMosaic.Lib.Pipeline.FrameBody
import Idealize.ShloMosaic.Lib.Tactic

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev tap3_00 : Rect S4x34x34x128 := Rect.unit ![0, 0, 0, 0] S4x32x32x128.size inb_S4x34x34x128_S4x32x32x128_0_0_0_0
abbrev tap3_01 : Rect S4x34x34x128 := Rect.unit ![0, 0, 1, 0] S4x32x32x128.size inb_S4x34x34x128_S4x32x32x128_0_0_1_0
abbrev tap3_02 : Rect S4x34x34x128 := Rect.unit ![0, 0, 2, 0] S4x32x32x128.size inb_S4x34x34x128_S4x32x32x128_0_0_2_0
abbrev tap3_10 : Rect S4x34x34x128 := Rect.unit ![0, 1, 0, 0] S4x32x32x128.size inb_S4x34x34x128_S4x32x32x128_0_1_0_0
abbrev tap3_11 : Rect S4x34x34x128 := Rect.unit ![0, 1, 1, 0] S4x32x32x128.size inb_S4x34x34x128_S4x32x32x128_0_1_1_0
abbrev tap3_12 : Rect S4x34x34x128 := Rect.unit ![0, 1, 2, 0] S4x32x32x128.size inb_S4x34x34x128_S4x32x32x128_0_1_2_0
abbrev tap3_20 : Rect S4x34x34x128 := Rect.unit ![0, 2, 0, 0] S4x32x32x128.size inb_S4x34x34x128_S4x32x32x128_0_2_0_0
abbrev tap3_21 : Rect S4x34x34x128 := Rect.unit ![0, 2, 1, 0] S4x32x32x128.size inb_S4x34x34x128_S4x32x32x128_0_2_1_0
abbrev tap3_22 : Rect S4x34x34x128 := Rect.unit ![0, 2, 2, 0] S4x32x32x128.size inb_S4x34x34x128_S4x32x32x128_0_2_2_0

abbrev wrow3_0 : Rect S1152x128 := Rect.unit ![0, 0] S128x128.size inb_S1152x128_S128x128_0_0
abbrev wrow3_1 : Rect S1152x128 := Rect.unit ![128, 0] S128x128.size inb_S1152x128_S128x128_128_0
abbrev wrow3_2 : Rect S1152x128 := Rect.unit ![256, 0] S128x128.size inb_S1152x128_S128x128_256_0
abbrev wrow3_3 : Rect S1152x128 := Rect.unit ![384, 0] S128x128.size inb_S1152x128_S128x128_384_0
abbrev wrow3_4 : Rect S1152x128 := Rect.unit ![512, 0] S128x128.size inb_S1152x128_S128x128_512_0
abbrev wrow3_5 : Rect S1152x128 := Rect.unit ![640, 0] S128x128.size inb_S1152x128_S128x128_640_0
abbrev wrow3_6 : Rect S1152x128 := Rect.unit ![768, 0] S128x128.size inb_S1152x128_S128x128_768_0
abbrev wrow3_7 : Rect S1152x128 := Rect.unit ![896, 0] S128x128.size inb_S1152x128_S128x128_896_0
abbrev wrow3_8 : Rect S1152x128 := Rect.unit ![1024, 0] S128x128.size inb_S1152x128_S128x128_1024_0

abbrev thr3 : Rect S32x32x128 := Rect.unit ![0, 0, 0] S32x32x128.size inb_S32x32x128_S32x32x128_0_0_0
abbrev oblk3 : Rect S4x32x32x128 := Rect.unit ![0, 0, 0, 0] S4x32x32x128.size inb_S4x32x32x128_S4x32x32x128_0_0_0_0

def acc3 (x0 : Vec F S4x34x34x128 .f32) (x1 : Vec F S1152x128 .f32) : FVec F S4x32x32x128 .f32 :=
  k3_pay4
    (k3_pay3
      (k3_pay2 (View.ld x0 tap3_00) (View.ld x1 wrow3_0) (View.ld x0 tap3_01) (View.ld x1 wrow3_1) (View.ld x0 tap3_02) (View.ld x1 wrow3_2))
      (View.ld x0 tap3_10) (View.ld x1 wrow3_3) (View.ld x0 tap3_11) (View.ld x1 wrow3_4) (View.ld x0 tap3_12) (View.ld x1 wrow3_5))
    (View.ld x0 tap3_20) (View.ld x1 wrow3_6) (View.ld x0 tap3_21) (View.ld x1 wrow3_7) (View.ld x0 tap3_22) (View.ld x1 wrow3_8)

def out3_3 (x0 : Vec F S4x34x34x128 .f32) (x1 : Vec F S1152x128 .f32) (x2 : Vec F S32x32x128 .f32) : Vec F S4x32x32x128 .f32 :=
  View.canon [⟨oblk3, k3_pay1 (acc3 x0 x1) (k3_pay5 (View.ld x2 thr3)) (Scalar.ofBits .f32 0x45BB8000#32)⟩]

set_option maxHeartbeats 4000000 in
-- The body reads its three inputs and stores `out3_3` of them over the whole output; `P` and `Q` pass through unread.
theorem sound_kernel3 {c : Dev nD} {E} {i} {arg1} {harg1} {arg2} {harg2} {arg3} {harg3} {arg4} {harg4} {x0} {x1} {x2} {α β γ δ : Type} {g : δ → _} {P Q : sProp 𝕄} :
    iprop(P ∗ Q ∗ (∃ _ : α, owns c arg1 fullShare x0) ∗ (∃ _ : β, owns c arg2 fullShare x1)
        ∗ (∃ _ : γ, owns c arg3 fullShare x2) ∗ ∃ d, owns c arg4 fullShare (g d))
      ⊢ wp frame (wpE (defs₀ (F := F)) Variants.none c none) E (cc3__conv_kernel_body i arg1 harg1 arg2 harg2 arg3 harg3 arg4 harg4) fun _ =>
        iprop(P ∗ Q ∗ owns c arg1 fullShare x0 ∗ owns c arg2 fullShare x1 ∗ owns c arg3 fullShare x2
          ∗ owns c arg4 fullShare (out3_3 x0 x1 x2)) := by
  simp only [cc3__conv_kernel_body_eq_skeleton]; unfold cc3__conv_kernel_body_skel
  simp only [k3_part1_eq_skeleton, k3_part2_eq_skeleton, k3_part3_eq_skeleton]; unfold k3_part1_skel k3_part2_skel k3_part3_skel
  unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4x32x32x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) :
    (dat3 V c).after 3 t = out3_3 (iblk3 V c 0 t) (iblk3 V c 1 t) (iblk3 V c 2 t) := by dsimp only [dat3]

theorem before3 (c : Dev nD) (t : Fin cfg3.N) : (∀ d, (dat3 V c).before 0 t d = iblk3 V c 0 t) ∧ (∀ d, (dat3 V c).before 1 t d = iblk3 V c 1 t) ∧
    ∀ d, (dat3 V c).before 2 t d = iblk3 V c 2 t := by
  refine ⟨fun d => ?_, fun d => ?_, fun d => ?_⟩ <;>
  exact ((dat3 V c).before_in_eq_fetched _ rfl (fun _ => rfl) (fun _ _ _ => rfl) (fun _ => by dsimp only [dat3, Dat.blockOf, iblk3]; try rfl) t d).trans
    (by dsimp only [dat3, Dat.fetched, Dat.blockOf, iblk3]; try rfl)

theorem body_obligation3 (c : Dev nD) : BodyObligation (dat3 (F := F) V c) (defs₀ (F := F)) Variants.none () Set.univ := fun t => by
  rw [bigSep_W3, bigSep_W3]
  simp only [(before3 V c t).1, (before3 V c t).2.1, (before3 V c t).2.2]
  dsimp only [dat3]
  exact sound_kernel3

end Cert.Kernel.Net

end
-- ==== Proof.NetB.Reg4.lean ====
import proofs.«133004_j26104811225511_1_alg».proof.Proof.Gen.Kernel.Launch
import proofs.«133004_j26104811225511_1_alg».proof.Proof.Gen.Kernel.Skeleton
import proofs.«133004_j26104811225511_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def pt4 (n : Nat) : Fin cfg4.N := ⟨n % 8, lt_of_lt_of_eq (Nat.mod_lt n (by decide)) N_4.symm⟩

-- the running sums: the first point's product added to zeros, every later point's added to what the point before left
def acc4 (c : Dev nD) : (n : Nat) → Vec F S32x256 .f32
  | 0 => k4_pay2 (iblk4 V c 0 (pt4 0)) (iblk4 V c 1 (pt4 0)) (k4_pay1 (F := F))
  | n + 1 => k4_pay2 (iblk4 V c 0 (pt4 (n + 1))) (iblk4 V c 1 (pt4 (n + 1))) (acc4 c n)

theorem acc4_zero (c : Dev nD) :
    acc4 V c 0 = k4_pay2 (iblk4 V c 0 (pt4 0)) (iblk4 V c 1 (pt4 0)) (k4_pay1 (F := F)) := rfl
theorem acc4_succ (c : Dev nD) (n : Nat) :
    acc4 V c (n + 1) = k4_pay2 (iblk4 V c 0 (pt4 (n + 1))) (iblk4 V c 1 (pt4 (n + 1))) (acc4 V c n) := rfl

abbrev r4_3 : Rect S32x256 := Rect.unit (s := S32x256) ![0, 0] S32x256.size inb_S32x256_S32x256_0_0

def out4_3 (c : Dev nD) : Vec F S32x256 .f32 :=
  View.canon [⟨r4_3, k4_pay3 (acc4 V c 7) (iblk4 V c 2 (pt4 7))⟩]

def scr4 (c : Dev nD) : Nat → sProp 𝕄
  | 0 => iprop(∃ X : Vec F S32x256 .f32, owns (c : Thread nD τ) (Memref.whole cc4_scratch0) fullShare X)
  | n + 1 => owns (c : Thread nD τ) (Memref.whole cc4_scratch0) fullShare (acc4 V c n)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 V c
  Φ t := iprop(scr4 V c t.val ∗ Pipeline.scopedRestBut (Ix := Unit) (Name := ℕ) (U := UR sig nD τ) (Lvl := ℕ) (Val := Elt F) spec4 c [cc4_scratch0] ∗ ∃ r, prngReg c r)
  q _ := fullShare
  owed _ := 0

theorem A_eq4 (c : Dev nD) (w : Fin cfg4.W) : (dat4 V c).A w = V c (Pipeline.arrRef spec4 w) := by
  dsimp only [dat4]
theorem after4_3 (c : Dev nD) (t : Fin cfg4.N) : (dat4 V c).after 3 t = out4_3 V c := by dsimp only [dat4]
theorem Φ4 (c : Dev nD) (t : Fin (cfg4.N + 1)) :
    (dat4 V c).Φ t = iprop(scr4 V c t.val ∗ Pipeline.scopedRestBut (Ix := Unit) (Name := ℕ) (U := UR sig nD τ) (Lvl := ℕ) (Val := Elt F) spec4 c [cc4_scratch0] ∗ ∃ r, prngReg c r) := by
  dsimp only [dat4]

theorem hin4 (c : Dev nD) : iprop((∃ r, prngReg c r) ∗ Pipeline.prefHeld (pcfgs (F := F) 4).pre c (fun _ => fullShare) ((cfgs 4).toPCfg_adm).1 ∗ Pipeline.scopedRest spec4 c) ⊢ ((dat4 V c).Φ 0 : sProp 𝕄) := by
  rw [Φ4, scopedRest4_split, show ((0 : Fin (cfg4.N + 1)).val) = 0 from rfl, scr4]
  iintro ⟨Hr, -, ⟨%f, Hs⟩, Hrest⟩
  isplitl [Hs]
  · iexists f; rw [owns_whole]; iexact Hs
  iframe

theorem hout4 (c : Dev nD) : ((dat4 V c).Φ (Fin.last cfg4.N) : sProp 𝕄) ⊢ iprop((∃ r, prngReg c r) ∗ Pipeline.ownSems0 (fun k : PEmpty => k.elim) c ∗ Pipeline.scopedRest spec4 c) := by
  rw [Φ4, Pipeline.ownSems0_none, scopedRest4_split, show (Fin.last cfg4.N).val = 7 + 1 from N_4, scr4, owns_whole]
  iintro ⟨Hs, Hrest, Hr⟩
  iframe Hr Hrest
  isplitr; · iempintro
  iexists _; iexact Hs

abbrev cond4_1 (i : grid4.Coords) : Prop :=
  (Scalar.cmpi .ne (Scalar.extui (Scalar.cmpi .eq (BitVec.ofNat 32 (i 0).val) 0#32)) 0#32) = 1#1
theorem hcond4_1 : ∀ t : Fin cfg4.N, cond4_1 (grid4.coords t) ↔ t.val % 8 = 0 :=
  (by decide +kernel : ∀ t : Fin grid4.N, cond4_1 (grid4.coords t) ↔ t.val % 8 = 0)

abbrev cond4_2 (i : grid4.Coords) : Prop := k4_cond2 i = 1#1
theorem hcond4_2 : ∀ t : Fin cfg4.N, cond4_2 (grid4.coords t) ↔ t.val % 8 = 7 :=
  (by decide +kernel : ∀ t : Fin grid4.N, cond4_2 (grid4.coords t) ↔ t.val % 8 = 7)

theorem idleAt4_3 : ∀ t : Fin cfg4.N, cfg4.idle 3 (grid4.coords t) = decide (¬t.val % 8 = 7) :=
  (by decide +kernel : ∀ t : Fin grid4.N, cfg4.idle 3 (grid4.coords t) = decide (¬t.val % 8 = 7))

theorem hz2 : (![0, 0] : Fin 2 → Nat) = fun _ => 0 := funext fun a => by fin_cases a <;> rfl

theorem cover4 (p : Vec F S32x256 .f32) (L : List (View.Piece (Elt F) S32x256 .f32)) (y : S32x256.Idx) :
    ∃ pc ∈ ((⟨r4_3, p⟩ : View.Piece (Elt F) S32x256 .f32) :: L), y ∈ pc.1.set :=
  ⟨_, List.mem_cons_self, View.mem_set_unit_zero (S := S32x256) hz2 inb_S32x256_S32x256_0_0 y⟩

-- one statement for all truth values of the two conditions: a' is zeros or a, and o is the thresholded sums or d
theorem sound_kernel4 (c : Dev nD) (E : Set ℕ) (i : grid4.Coords)
    (arg1 : Memref sig .tc .vmem S32x4096 .f32) (harg1 : arg1.IsWhole)
    (arg2 : Memref sig .tc .vmem S4096x256 .f32) (harg2 : arg2.IsWhole)
    (arg3 : Memref sig .tc .vmem S1x256 .f32) (harg3 : arg3.IsWhole)
    (arg4 : Memref sig .tc .vmem S32x256 .f32) (harg4 : arg4.IsWhole)
    (arg5 : Memref sig .tc .vmem S32x256 .f32) (harg5 : arg5.IsWhole)
    (x0 : Vec F S32x4096 .f32) (x1 : Vec F S4096x256 .f32) (x2 : Vec F S1x256 .f32) (d a a' o : Vec F S32x256 .f32)
    (ha : cond4_1 i ∧ a' = k4_pay1 ∨ ¬cond4_1 i ∧ a' = a)
    (ho : cond4_2 i ∧ o = View.canon [⟨r4_3, k4_pay3 (k4_pay2 x0 x1 a') x2⟩] ∨ ¬cond4_2 i ∧ o = d)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare d
        ∗ owns (c : Thread nD τ) arg5 fullShare a
        ∗ (iprop(owns (c : Thread nD τ) arg1 fullShare x0 ∗ owns (c : Thread nD τ) arg2 fullShare x1
            ∗ owns (c : Thread nD τ) arg3 fullShare x2 ∗ owns (c : Thread nD τ) arg4 fullShare o
            ∗ owns (c : Thread nD τ) arg5 fullShare (k4_pay2 x0 x1 a')) -∗ K ⟨⟩))
      ⊢ wp frame (wpE (defs₀ (F := F)) Variants.none c none) E (cc4__dense_kernel_body i arg1 harg1 arg2 harg2 arg3 harg3 arg4 harg4 arg5 harg5) K := by
  simp only [cc4__dense_kernel_body_eq_skeleton]; unfold cc4__dense_kernel_body_skel owns
  iintro ⟨⟨%f0, %hf0, H0⟩, ⟨%f1, %hf1, H1⟩, ⟨%f2, %hf2, H2⟩, ⟨%f4, %hf4, H4⟩, ⟨%f5, %hf5, H5⟩, Hk⟩
  subst hf0 hf1 hf2 hf4 hf5
  obtain ⟨hc1, rfl⟩ | ⟨hc1, rfl⟩ := ha <;> obtain ⟨hc2, rfl⟩ | ⟨hc2, rfl⟩ := ho
  all_goals
    sl_exec (disch := first | sl_exact hc1 | sl_exact hc2)
    sl_step
    iapply Hk
    isplitl [H0]; swap; isplitl [H1]; swap; isplitl [H2]; swap; isplitl [H4]
    all_goals
      iexists _; isplitr; swap; · first | iexact H0 | iexact H1 | iexact H2 | iexact H4 | iexact H5
      ipureintro; sl_unfold_run_names
      simp only [View.read_writes_eq_canon _ _ _ (cover4 _ _), View.readCov_eq_canon_ld _ _ _ (cover4 _ _),
      View.canon_cons_unit_zero (S := S32x256) hz2, View.readAt_eq_ld, View.ld_unit_zero (S := S32x4096) hz2,
      View.ld_unit_zero (S := S4096x256) hz2, View.ld_unit_zero (S := S32x256) hz2, View.ld_unit_zero (S := S1x256) hz2]

theorem acc4_next (c : Dev nD) (t : Fin cfg4.N) (h : t.val ≠ 0) :
    acc4 V c t.val = k4_pay2 (iblk4 V c 0 t) (iblk4 V c 1 t) (acc4 V c (t.val - 1)) := by
  obtain ⟨n, hn⟩ : ∃ n, t.val = n + 1 := ⟨t.val - 1, by omega⟩
  have hN : t.val < 8 := lt_of_lt_of_eq t.isLt N_4
  have e : pt4 (n + 1) = t := Fin.ext (by show (n + 1) % 8 = t.val; omega)
  rw [hn, acc4_succ, e, Nat.add_sub_cancel]

theorem scr4_later (c : Dev nD) (t : Fin cfg4.N) (h : t.val ≠ 0) :
    scr4 V c t.val = owns (c : Thread nD τ) (Memref.whole cc4_scratch0) fullShare (acc4 V c (t.val - 1)) := by
  obtain ⟨n, hn⟩ : ∃ n, t.val = n + 1 := ⟨t.val - 1, by omega⟩
  rw [hn, scr4, Nat.add_sub_cancel]

theorem out4_3_last (c : Dev nD) (t : Fin cfg4.N) (h : t.val = 7) :
    out4_3 V c = View.canon [⟨r4_3, k4_pay3 (k4_pay2 (iblk4 V c 0 t) (iblk4 V c 1 t) (acc4 V c (t.val - 1))) (iblk4 V c 2 t)⟩] := by
  have e : pt4 7 = t := Fin.ext (by show 7 % 8 = t.val; omega)
  unfold out4_3
  rw [e, ← acc4_next V c t (by omega), h]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem leaves4_3_idle (c : Dev nD) (t : Fin cfg4.N) (h : ¬t.val % 8 = 7) :
    (dat4 V c).leavesExact 3 t = iprop(∃ d, owns (c : Thread nD τ) (st4_3 t) fullShare ((dat4 V c).before 3 t d)) :=
  (dat4 V c).leavesExact_idle 3 t ((idleAt4_3 t).trans (decide_eq_true h))
    (Bool.eq_false_iff.mpr fun hf => h ((flush4_3 t).mp hf))

theorem leaves4_3_last (c : Dev nD) (t : Fin cfg4.N) (h : t.val % 8 = 7) :
    (dat4 V c).leavesExact 3 t = owns (c : Thread nD τ) (st4_3 t) fullShare (out4_3 V c) := by
  unfold Dat.leavesExact
  rw [show cfg4.idle 3 (cfg4.grid.coords t) = false from (idleAt4_3 t).trans (decide_eq_false (not_not.mpr h)), after4_3]

-- by cases on the point: first, last, or between; each fixes the truth values of the two conditions
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare (iblk4 V c 0 t) ∗ owns (c : Thread nD τ) (st4_1 t) fullShare (iblk4 V c 1 t)
        ∗ owns (c : Thread nD τ) (st4_2 t) fullShare (iblk4 V c 2 t) ∗ (dat4 V c).leavesExact 3 t)) := by
  unfold bodyAt4
  simp only [before4_0, before4_1, before4_2]
  rw [show (dat4 V c).owesAt () t.succ = (dat4 V c).owesAt () t.castSucc from rfl,
    Φ4, Φ4, show t.castSucc.val = t.val from rfl,
    show t.succ.val = t.val + 1 from rfl, scr4]
  have hN : t.val < 8 := lt_of_lt_of_eq t.isLt N_4
  by_cases h0 : t.val % 8 = 0
  · have h7 : ¬t.val % 8 = 7 := by omega
    have e : pt4 0 = t := Fin.ext (by show 0 % 8 = t.val; omega)
    rw [leaves4_3_idle V c t h7, show t.val = 0 by omega, acc4_zero, scr4, e]
    iintro ⟨⟨⟨%X, Hs⟩, Hrest, Hr⟩, Ho, ⟨%d0, H0⟩, ⟨%d1, H1⟩, ⟨%d2, H2⟩, ⟨%d3, H3⟩⟩
    iapply (sound_kernel4 c Set.univ (grid4.coords t) (st4_0 t) _ (st4_1 t) _ (st4_2 t) _ (st4_3 t) _ _ _
      (iblk4 V c 0 t) (iblk4 V c 1 t) (iblk4 V c 2 t) ((dat4 V c).before 3 t d3) X _ _ (.inl ⟨(hcond4_1 t).mpr h0, rfl⟩) (.inr ⟨fun h => h7 ((hcond4_2 t).mp h), rfl⟩) _)
    iframe H0 H1 H2 H3 Hs
    iintro ⟨H0, H1, H2, H3, Hs⟩
    iframe Hs Hrest Hr Ho H0 H1 H2
    iexists d3; iexact H3
  · rw [acc4_next V c t (by omega), scr4_later V c t (by omega)]
    by_cases h7 : t.val % 8 = 7
    · rw [leaves4_3_last V c t h7, out4_3_last V c t (by omega)]
      iintro ⟨⟨Hs, Hrest, Hr⟩, Ho, ⟨%d0, H0⟩, ⟨%d1, H1⟩, ⟨%d2, H2⟩, ⟨%d3, H3⟩⟩
      iapply (sound_kernel4 c Set.univ (grid4.coords t) (st4_0 t) _ (st4_1 t) _ (st4_2 t) _ (st4_3 t) _ _ _
        (iblk4 V c 0 t) (iblk4 V c 1 t) (iblk4 V c 2 t) ((dat4 V c).before 3 t d3) (acc4 V c (t.val - 1)) _ _ (.inr ⟨fun h => h0 ((hcond4_1 t).mp h), rfl⟩) (.inl ⟨(hcond4_2 t).mpr h7, rfl⟩) _)
      iframe H0 H1 H2 H3 Hs
      iintro ⟨H0, H1, H2, H3, Hs⟩
      iframe
    · rw [leaves4_3_idle V c t h7]
      iintro ⟨⟨Hs, Hrest, Hr⟩, Ho, ⟨%d0, H0⟩, ⟨%d1, H1⟩, ⟨%d2, H2⟩, ⟨%d3, H3⟩⟩
      iapply (sound_kernel4 c Set.univ (grid4.coords t) (st4_0 t) _ (st4_1 t) _ (st4_2 t) _ (st4_3 t) _ _ _
        (iblk4 V c 0 t) (iblk4 V c 1 t) (iblk4 V c 2 t) ((dat4 V c).before 3 t d3) (acc4 V c (t.val - 1)) _ _ (.inr ⟨fun h => h0 ((hcond4_1 t).mp h), rfl⟩) (.inr ⟨fun h => h7 ((hcond4_2 t).mp h), rfl⟩) _)
      iframe H0 H1 H2 H3 Hs
      iintro ⟨H0, H1, H2, H3, Hs⟩
      iframe Hs Hrest Hr Ho H0 H1 H2
      iexists d3; iexact H3

theorem body_obligation4 (c : Dev nD) : BodyObligation (dat4 (F := F) V c) (defs₀ (F := F)) Variants.none () Set.univ := fun t => by
  rw [bigSep_W4, bigSep_W4]
  exact sound_body4 V c t

end Cert.Kernel.Net

end
-- ==== Proof.NetB.Reg5.lean ====
import proofs.«133004_j26104811225511_1_alg».proof.Proof.Gen.Kernel.Launch
import proofs.«133004_j26104811225511_1_alg».proof.Proof.Gen.Kernel.Skeleton
import proofs.«133004_j26104811225511_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S32x256 := Rect.unit (s := S32x256) ![0, 0] S32x256.size inb_S32x256_S32x256_0_0
abbrev r5_1 : Rect S256x10 := Rect.unit (s := S256x10) ![0, 0] S256x10.size inb_S256x10_S256x10_0_0
abbrev r5_2 : Rect S1x10 := Rect.unit (s := S1x10) ![0, 0] S1x10.size inb_S1x10_S1x10_0_0
abbrev r5_3 : Rect S32x10 := Rect.unit (s := S32x10) ![0, 0] S32x10.size inb_S32x10_S32x10_0_0

def out5_3 (x0 : Vec F S32x256 .f32) (x1 : Vec F S256x10 .f32) (x2 : Vec F S1x10 .f32) : Vec F S32x10 .f32 :=
  View.canon [⟨r5_3, k5_pay1 (View.ld x0 r5_0) (View.ld x1 r5_1) (View.ld x2 r5_2)⟩]

theorem cover5_3 (p0 : Vec F S32x10 .f32) (y : S32x10.Idx) :
    ∃ pc ∈ ([⟨r5_3, p0⟩] : List (View.Piece (Elt F) S32x10 .f32)), y ∈ pc.1.set :=
  View.cover_of_tiled [⟨r5_3, p0⟩] S32x10.size (by rfl) y

theorem sound_kernel5 (c : Dev nD) (E : Set ℕ) (i : grid5.Coords)
    (arg1 : Memref sig .tc .vmem S32x256 .f32) (harg1 : arg1.IsWhole)
    (arg2 : Memref sig .tc .vmem S256x10 .f32) (harg2 : arg2.IsWhole)
    (arg3 : Memref sig .tc .vmem S1x10 .f32) (harg3 : arg3.IsWhole)
    (arg4 : Memref sig .tc .vmem S32x10 .f32) (harg4 : arg4.IsWhole)
    (x0 : Vec F S32x256 .f32) (x1 : Vec F S256x10 .f32) (x2 : Vec F S1x10 .f32) (d : Vec F S32x10 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare d
        ∗ (iprop(owns (c : Thread nD τ) arg1 fullShare x0 ∗ owns (c : Thread nD τ) arg2 fullShare x1
            ∗ owns (c : Thread nD τ) arg3 fullShare x2 ∗ owns (c : Thread nD τ) arg4 fullShare (out5_3 x0 x1 x2)) -∗ K ⟨⟩))
      ⊢ wp frame (wpE (defs₀ (F := F)) Variants.none c none) E (cc5__out_kernel_body i arg1 harg1 arg2 harg2 arg3 harg3 arg4 harg4) K := by
  simp only [cc5__out_kernel_body_eq_skeleton]; unfold cc5__out_kernel_body_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; swap; isplitl [H1]; swap; isplitl [H2]
  all_goals
    iexists _; isplitr; swap; · first | iexact H0 | iexact H1 | iexact H2 | iexact H3
    ipureintro
    first | with_reducible rfl | exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d)))
    ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare (iblk5 V c 0 t)
        ∗ owns (c : Thread nD τ) (st5_1 t) fullShare (iblk5 V c 1 t)
        ∗ owns (c : Thread nD τ) (st5_2 t) fullShare (iblk5 V c 2 t)
        ∗ owns (c : Thread nD τ) (st5_3 t) fullShare (out5_3 (iblk5 V c 0 t) (iblk5 V c 1 t) (iblk5 V c 2 t)))) := by
  unfold bodyAt5
  simp only [before5_0, before5_1, before5_2]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩, ⟨%d3, H3⟩⟩
  iapply (sound_kernel5 c Set.univ (grid5.coords t) (st5_0 t) _ (st5_1 t) _ (st5_2 t) _ (st5_3 t) _
    (iblk5 V c 0 t) (iblk5 V c 1 t) (iblk5 V c 2 t) ((dat5 V c).before 3 t d3) _)
  iframe H0 H1 H2 H3
  iintro ⟨H0, H1, H2, H3⟩
  iframe

theorem body_obligation5 (c : Dev nD) : BodyObligation (dat5 (F := F) V c) (defs₀ (F := F)) Variants.none () Set.univ := fun t => by
  rw [bigSep_W5, bigSep_W5]
  exact sound_body5 V c t

end Cert.Kernel.Net

end
-- ==== Proof.NetB.Run.lean ====
import proofs.«133004_j26104811225511_1_alg».proof.Proof.NetB.Reg0
import proofs.«133004_j26104811225511_1_alg».proof.Proof.NetB.Reg1
import proofs.«133004_j26104811225511_1_alg».proof.Proof.NetB.Reg2
import proofs.«133004_j26104811225511_1_alg».proof.Proof.NetB.Reg3
import proofs.«133004_j26104811225511_1_alg».proof.Proof.NetB.Reg4
import proofs.«133004_j26104811225511_1_alg».proof.Proof.NetB.Reg5
import proofs.«133004_j26104811225511_1_alg».proof.Proof.Gen.Kernel.Regions

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- An input window's array is never written, so a region's exit contents differ from its entry contents only at its output array.
theorem keepOf {cfg : Cfg sig Λ₀} (hinj : Function.Injective (Pipeline.arrRef cfg.spec)) (c : Dev nD) (V : Valuation τ sig (Elt F))
    (dat : Dat τ (Elt F) Unit ℕ (UR sig nD τ) ℕ cfg c) (hA : ∀ w, dat.A w = V (Proc.devRef .tc (Pipeline.arrRef cfg.spec w)))
    (o : Fin cfg.W) (ho : ∀ w, w ≠ o → (cfg.win w).isOut = false) (b : Ref sig .tc) (hb : b ≠ Pipeline.arrRef cfg.spec o) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr cfg.spec hinj]
    exact (dat.arrAt_in w (ho w fun e => hb (congrArg (Pipeline.arrRef cfg.spec) e)) _).trans (hA w)
  · exact Pipeline.withArrays_of_ne cfg.spec c _ _ b fun w e => h ⟨w, e⟩

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev at3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (at3 m ρ) c).arrAt w cfg0.N
theorem W4_arr (c : Dev nD) (w : Fin cfg0.W) :
    W4 m ρ c (Proc.devRef .tc (Pipeline.arrRef spec0 w)) = (dat0 (at3 m ρ) c).arrAt w cfg0.N :=
  Pipeline.withArrays_arr spec0 launch0.win.arr_inj c _ _ w
theorem W4_keep (c : Dev nD) (b : Ref sig .tc) (hb : b ≠ main_v8) :
    W4 m ρ c (Proc.devRef .tc b) = W3 m ρ c (Proc.devRef .tc b) :=
  keepOf (cfg := cfg0) launch0.win.arr_inj c _ _ (A_eq0 _ c) 3 (by decide) b hb
abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
abbrev at7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (at7 m ρ) c).arrAt w cfg1.N
theorem W8_arr (c : Dev nD) (w : Fin cfg1.W) :
    W8 m ρ c (Proc.devRef .tc (Pipeline.arrRef spec1 w)) = (dat1 (at7 m ρ) c).arrAt w cfg1.N :=
  Pipeline.withArrays_arr spec1 launch1.win.arr_inj c _ _ w
theorem W8_keep (c : Dev nD) (b : Ref sig .tc) (hb : b ≠ main_v17) :
    W8 m ρ c (Proc.devRef .tc b) = W7 m ρ c (Proc.devRef .tc b) :=
  keepOf (cfg := cfg1) launch1.win.arr_inj c _ _ (A_eq1 _ c) 3 (by decide) b hb
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev at11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (at11 m ρ) c).arrAt w cfg2.N
theorem W12_arr (c : Dev nD) (w : Fin cfg2.W) :
    W12 m ρ c (Proc.devRef .tc (Pipeline.arrRef spec2 w)) = (dat2 (at11 m ρ) c).arrAt w cfg2.N :=
  Pipeline.withArrays_arr spec2 launch2.win.arr_inj c _ _ w
theorem W12_keep (c : Dev nD) (b : Ref sig .tc) (hb : b ≠ main_v28) :
    W12 m ρ c (Proc.devRef .tc b) = W11 m ρ c (Proc.devRef .tc b) :=
  keepOf (cfg := cfg2) launch2.win.arr_inj c _ _ (A_eq2 _ c) 3 (by decide) b hb
abbrev W13 : Dev nD → Valuation τ sig (Elt F) := fun c => StableHlo.after hostOps3 (W12 m ρ c)
abbrev W14 : Dev nD → Valuation τ sig (Elt F) := fun c => StableHlo.after hostOps3_1 (W13 m ρ c)
abbrev W15 : Dev nD → Valuation τ sig (Elt F) := fun c => StableHlo.after hostOps3_2 (W14 m ρ c)
abbrev at15 : (c : Dev nD) → (b : Ref sig .tc) → Buf (Elt F) ((c : Thread nD τ).loc b) := fun c b => W15 m ρ c b
def W16 (c : Dev nD) : Valuation τ sig (Elt F) :=
  Pipeline.withArrays spec3 c (W15 m ρ c) fun w => (dat3 (at15 m ρ) c).arrAt w cfg3.N
theorem W16_arr (c : Dev nD) (w : Fin cfg3.W) :
    W16 m ρ c (Proc.devRef .tc (Pipeline.arrRef spec3 w)) = (dat3 (at15 m ρ) c).arrAt w cfg3.N :=
  Pipeline.withArrays_arr spec3 launch3.win.arr_inj c _ _ w
theorem W16_keep (c : Dev nD) (b : Ref sig .tc) (hb : b ≠ main_v37) :
    W16 m ρ c (Proc.devRef .tc b) = W15 m ρ c (Proc.devRef .tc b) :=
  keepOf (cfg := cfg3) launch3.win.arr_inj c _ _ (A_eq3 _ c) 3 (by decide) b hb
abbrev W17 : Dev nD → Valuation τ sig (Elt F) := fun c => StableHlo.after hostOps4 (W16 m ρ c)
abbrev at17 : (c : Dev nD) → (b : Ref sig .tc) → Buf (Elt F) ((c : Thread nD τ).loc b) := fun c b => W17 m ρ c b
def W18 (c : Dev nD) : Valuation τ sig (Elt F) :=
  Pipeline.withArrays spec4 c (W17 m ρ c) fun w => (dat4 (at17 m ρ) c).arrAt w cfg4.N
theorem W18_arr (c : Dev nD) (w : Fin cfg4.W) :
    W18 m ρ c (Proc.devRef .tc (Pipeline.arrRef spec4 w)) = (dat4 (at17 m ρ) c).arrAt w cfg4.N :=
  Pipeline.withArrays_arr spec4 launch4.win.arr_inj c _ _ w
theorem W18_keep (c : Dev nD) (b : Ref sig .tc) (hb : b ≠ main_v42) :
    W18 m ρ c (Proc.devRef .tc b) = W17 m ρ c (Proc.devRef .tc b) :=
  keepOf (cfg := cfg4) launch4.win.arr_inj c _ _ (A_eq4 _ c) 3 (by decide) b hb
abbrev W19 : Dev nD → Valuation τ sig (Elt F) := fun c => StableHlo.after hostOps5 (W18 m ρ c)
abbrev at19 : (c : Dev nD) → (b : Ref sig .tc) → Buf (Elt F) ((c : Thread nD τ).loc b) := fun c b => W19 m ρ c b
def W20 (c : Dev nD) : Valuation τ sig (Elt F) :=
  Pipeline.withArrays spec5 c (W19 m ρ c) fun w => (dat5 (at19 m ρ) c).arrAt w cfg5.N
theorem W20_arr (c : Dev nD) (w : Fin cfg5.W) :
    W20 m ρ c (Proc.devRef .tc (Pipeline.arrRef spec5 w)) = (dat5 (at19 m ρ) c).arrAt w cfg5.N :=
  Pipeline.withArrays_arr spec5 launch5.win.arr_inj c _ _ w
theorem W20_keep (c : Dev nD) (b : Ref sig .tc) (hb : b ≠ main_v44) :
    W20 m ρ c (Proc.devRef .tc b) = W19 m ρ c (Proc.devRef .tc b) :=
  keepOf (cfg := cfg5) launch5.win.arr_inj c _ _ (A_eq5 _ c) 3 (by decide) b hb

def pdats : (p : Fin 6) → (c : Dev nD) → Dat τ (Elt F) Unit ℕ (UR sig nD τ) ℕ (Pipeline.pin (pcfgs (F := F)) adm p) c
  | ⟨0, _⟩ => fun c => dat0 (at3 m ρ) c
  | ⟨1, _⟩ => fun c => dat1 (at7 m ρ) c
  | ⟨2, _⟩ => fun c => dat2 (at11 m ρ) c
  | ⟨3, _⟩ => fun c => dat3 (at15 m ρ) c
  | ⟨4, _⟩ => fun c => dat4 (at17 m ρ) c
  | ⟨5, _⟩ => fun c => dat5 (at19 m ρ) c
abbrev 𝒱₀ : Variants := Variants.none
abbrev L : GSem nD τ sig → Finset Unit := fun _ => ∅
abbrev lv : GSem nD τ sig → Unit → ℕ := fun _ _ => 0
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hinA {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  isplitl [Hr]; · iexact Hr
  iexact Hp
theorem houtA {gr W : Nat} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

-- The contents after region `p`: its windows' arrays at their final values, every other buffer as in `V`.
abbrev outOf (p : Fin 6) (V : Dev nD → Valuation τ sig (Elt F)) (c : Dev nD) : Valuation τ sig (Elt F) :=
  Pipeline.withArrays (cfgs p).spec c (V c) fun w => (pdats m ρ p c).arrAt w (cfgs p).N

set_option backward.isDefEq.respectTransparency.types false in
-- Region `p` as a segment from every buffer at `V` to every buffer at `outOf`: it owns exactly its windows' arrays, the rest is framed.
def regOf (p : Fin 6) (lf : Pipeline.LaunchFacts (nD := nD) (τ := τ) cfgs p) (V : Dev nD → Valuation τ sig (Elt F))
    (hd : ∀ c, (pdats m ρ p c).A = (fun w => V c (Proc.devRef .tc (Pipeline.arrRef (cfgs p).spec w))) ∧ (pdats m ρ p c).q = (fun _ => fullShare)
      ∧ (pdats m ρ p c).owed = (fun _ => 0) ∧ (pdats m ρ p c).recorded = fun _ => Set.univ)
    (hb : ∀ c, BodyObligation (pdats m ρ p c) (defs₀ (F := F)) 𝒱₀ () Set.univ)
    (hin : ∀ c, iprop((∃ r, prngReg c r) ∗ Pipeline.prefHeld (pcfgs (F := F) p).pre c (fun _ => fullShare) (adm p).1 ∗ Pipeline.scopedRest (cfgs p).spec c)
      ⊢ ((pdats m ρ p c).Φ 0 : sProp 𝕄))
    (hout : ∀ c, ((pdats m ρ p c).Φ (Fin.last (cfgs p).N) : sProp 𝕄)
      ⊢ iprop((∃ r, prngReg c r) ∗ Pipeline.ownSems0 (fun k : PEmpty => k.elim) c ∗ Pipeline.scopedRest (cfgs p).spec c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => congrFun (hd c).2.2.1
  pre c := iprop(StableHlo.held (c : Thread nD τ) (Pipeline.ucRefs τ sig) (V c) ∗ Rd c)
  post c := iprop(StableHlo.held (c : Thread nD τ) (Pipeline.ucRefs τ sig) (outOf m ρ p V c) ∗ Rd c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    obtain ⟨hA, hq, h0, hr⟩ := hd c
    rw [Pipeline.ownSems0_none]
    have hsplit := Pipeline.arrays_of_unscopedBufs (p := p) (pcfgs (F := F)) adm (pdats m ρ) lf.win lf.arr_whole c
      ((pdats m ρ p c).share_full (congrFun hq)) (fun b => V c b) (congrFun hA)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (congrFun (hd c).2.1)) (fun b => V c b)
      (fun b => outOf m ρ p V c b) ((pdats m ρ p c).arrAt · (cfgs p).N)
      (fun w => (Pipeline.withArrays_arr (cfgs p).spec lf.win.arr_inj c (V c) (fun w => (pdats m ρ p c).arrAt w (cfgs p).N) w).symm)
      (fun b hn => Pipeline.withArrays_of_ne (cfgs p).spec c (V c) _ b fun w e => hn (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.2.1]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (regOf m ρ 0 launch0 (W3 m ρ) (fun _ => ⟨rfl, rfl, rfl, rfl⟩) (body_obligation0 (at3 m ρ)) (fun c => hinA spec0 c _) (houtA spec0)),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (regOf m ρ 1 launch1 (W7 m ρ) (fun _ => ⟨rfl, rfl, rfl, rfl⟩) (body_obligation1 (at7 m ρ)) (fun c => hinA spec1 c _) (houtA spec1)),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (regOf m ρ 2 launch2 (W11 m ρ) (fun _ => ⟨rfl, rfl, rfl, rfl⟩) (body_obligation2 (at11 m ρ)) (fun c => hinA spec2 c _) (houtA spec2)),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .region (regOf m ρ 3 launch3 (W15 m ρ) (fun _ => ⟨rfl, rfl, rfl, rfl⟩) (body_obligation3 (at15 m ρ)) (fun c => hinA spec3 c _) (houtA spec3)),
    .host (hseg hostOps4 hostOps4_sub hostOps4_fresh (W16 m ρ)),
    .region (regOf m ρ 4 launch4 (W17 m ρ) (fun _ => ⟨rfl, rfl, rfl, rfl⟩) (body_obligation4 (at17 m ρ)) (hin4 (at17 m ρ)) (hout4 (at17 m ρ))),
    .host (hseg hostOps5 hostOps5_sub hostOps5_fresh (W18 m ρ)),
    .region (regOf m ρ 5 launch5 (W19 m ρ) (fun _ => ⟨rfl, rfl, rfl, rfl⟩) (body_obligation5 (at19 m ρ)) (fun c => hinA spec5 c _) (houtA spec5)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rd c))
    (Tₙ := fun c => iprop(StableHlo.held (c : Thread nD τ) (Pipeline.ucRefs τ sig) (W20 m ρ c) ∗ ∃ r, prngReg c r))
    (hch := by repeat' first | exact fun _ => sep_assoc' | refine ⟨fun _ => .rfl, ?_⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

end Cert.Kernel.Net

end
-- ==== Proof.NetB.Frame.lean ====
import proofs.«133004_j26104811225511_1_alg».proof.Proof.NetB.Run

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- No item changes `b`: it is unscoped, no host stretch writes it, and it is no region's output array.
abbrev Kept (b : Ref sig .tc) : Prop :=
  ¬ (Proc.devRef .tc b : DevRef τ sig).isScoped ∧ b ∉ hostOps0_W ∧ b ∉ hostOps0_1_W ∧ b ∉ hostOps0_2_W ∧ b ≠ main_v8
    ∧ b ∉ hostOps1_W ∧ b ∉ hostOps1_1_W ∧ b ∉ hostOps1_2_W ∧ b ≠ main_v17
    ∧ b ∉ hostOps2_W ∧ b ∉ hostOps2_1_W ∧ b ∉ hostOps2_2_W ∧ b ≠ main_v28
    ∧ b ∉ hostOps3_W ∧ b ∉ hostOps3_1_W ∧ b ∉ hostOps3_2_W ∧ b ≠ main_v37
    ∧ b ∉ hostOps4_W ∧ b ≠ main_v42 ∧ b ∉ hostOps5_W ∧ b ≠ main_v44

-- Such a buffer ends at its launch contents: walking back through the twenty items, each leaves it alone.
theorem W20_of (c : Dev nD) (b : Ref sig .tc) (h : Kept b) : W20 m ρ c (Proc.devRef .tc b) = m ((c : Thread nD τ).loc b) := by
  obtain ⟨-, h0, h1, h2, h3, h4, h5, h6, h7, h8, h9, h10, h11, h12, h13, h14, h15, h16, h17, h18, h19⟩ := h
  exact (W20_keep m ρ c b h19).trans <|
    (StableHlo.after_of_writes_sub hostOps5 _ hostOps5_writes h18).trans <|
    (W18_keep m ρ c b h17).trans <|
    (StableHlo.after_of_writes_sub hostOps4 _ hostOps4_writes h16).trans <|
    (W16_keep m ρ c b h15).trans <|
    (StableHlo.after_of_writes_sub hostOps3_2 _ hostOps3_2_writes h14).trans <|
    (StableHlo.after_of_writes_sub hostOps3_1 _ hostOps3_1_writes h13).trans <|
    (StableHlo.after_of_writes_sub hostOps3 _ hostOps3_writes h12).trans <|
    (W12_keep m ρ c b h11).trans <|
    (StableHlo.after_of_writes_sub hostOps2_2 _ hostOps2_2_writes h10).trans <|
    (StableHlo.after_of_writes_sub hostOps2_1 _ hostOps2_1_writes h9).trans <|
    (StableHlo.after_of_writes_sub hostOps2 _ hostOps2_writes h8).trans <|
    (W8_keep m ρ c b h7).trans <|
    (StableHlo.after_of_writes_sub hostOps1_2 _ hostOps1_2_writes h6).trans <|
    (StableHlo.after_of_writes_sub hostOps1_1 _ hostOps1_1_writes h5).trans <|
    (StableHlo.after_of_writes_sub hostOps1 _ hostOps1_writes h4).trans <|
    (W4_keep m ρ c b h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans <|
    rfl

theorem result_all : θ_run defs (onTc (τ := τ) (main (F := F))) ⟨m, fun _ => 0, ρ⟩ (fun r => ∀ c : Dev nD,
      r.2.mem ((c.tc : Thread nD τ).loc main_v44) = W20 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have K : ∀ b : Ref sig .tc, Kept b → r.2.mem ((c.tc : Thread nD τ).loc b) = m ((c.tc : Thread nD τ).loc b) :=
      fun b hb => (h c _ (mem_uc b hb.1)).trans (W20_of m ρ c b hb)
    ⟨h c _ (mem_uc main_v44 (by decide)), K main_arg0 (by decide), K main_arg1 (by decide), K main_arg2 (by decide), K main_arg3 (by decide), K main_arg4 (by decide), K main_arg5 (by decide), K main_arg6 (by decide), K main_arg7 (by decide), K main_arg8 (by decide), K main_arg9 (by decide), K main_arg10 (by decide), K main_arg11 (by decide), K main_arg12 (by decide)⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (result_all m ρ)

end Cert.Kernel.Net

end
-- ==== Proof.Net.Reg0.lean ====
import proofs.«133004_j26104811225511_1_alg».proof.Proof.Gen.KernelIdeal.Launch
import proofs.«133004_j26104811225511_1_alg».proof.Proof.Gen.KernelIdeal.Skeleton
import proofs.«133004_j26104811225511_1_alg».proof.Proof.Gen.KernelIdeal.Points
import Idealize.ShloMosaic.Lib.Pipeline.FrameBody
import Idealize.ShloMosaic.Lib.Tactic

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev tap0_00 : Rect S4x66x66x1 := Rect.unit ![0, 0, 0, 0] S4x64x64x1.size inb_S4x66x66x1_S4x64x64x1_0_0_0_0
abbrev tap0_01 : Rect S4x66x66x1 := Rect.unit ![0, 0, 1, 0] S4x64x64x1.size inb_S4x66x66x1_S4x64x64x1_0_0_1_0
abbrev tap0_02 : Rect S4x66x66x1 := Rect.unit ![0, 0, 2, 0] S4x64x64x1.size inb_S4x66x66x1_S4x64x64x1_0_0_2_0
abbrev tap0_10 : Rect S4x66x66x1 := Rect.unit ![0, 1, 0, 0] S4x64x64x1.size inb_S4x66x66x1_S4x64x64x1_0_1_0_0
abbrev tap0_11 : Rect S4x66x66x1 := Rect.unit ![0, 1, 1, 0] S4x64x64x1.size inb_S4x66x66x1_S4x64x64x1_0_1_1_0
abbrev tap0_12 : Rect S4x66x66x1 := Rect.unit ![0, 1, 2, 0] S4x64x64x1.size inb_S4x66x66x1_S4x64x64x1_0_1_2_0
abbrev tap0_20 : Rect S4x66x66x1 := Rect.unit ![0, 2, 0, 0] S4x64x64x1.size inb_S4x66x66x1_S4x64x64x1_0_2_0_0
abbrev tap0_21 : Rect S4x66x66x1 := Rect.unit ![0, 2, 1, 0] S4x64x64x1.size inb_S4x66x66x1_S4x64x64x1_0_2_1_0
abbrev tap0_22 : Rect S4x66x66x1 := Rect.unit ![0, 2, 2, 0] S4x64x64x1.size inb_S4x66x66x1_S4x64x64x1_0_2_2_0

abbrev wrow0_0 : Rect S9x64 := Rect.unit ![0, 0] S1x64.size inb_S9x64_S1x64_0_0
abbrev wrow0_1 : Rect S9x64 := Rect.unit ![1, 0] S1x64.size inb_S9x64_S1x64_1_0
abbrev wrow0_2 : Rect S9x64 := Rect.unit ![2, 0] S1x64.size inb_S9x64_S1x64_2_0
abbrev wrow0_3 : Rect S9x64 := Rect.unit ![3, 0] S1x64.size inb_S9x64_S1x64_3_0
abbrev wrow0_4 : Rect S9x64 := Rect.unit ![4, 0] S1x64.size inb_S9x64_S1x64_4_0
abbrev wrow0_5 : Rect S9x64 := Rect.unit ![5, 0] S1x64.size inb_S9x64_S1x64_5_0
abbrev wrow0_6 : Rect S9x64 := Rect.unit ![6, 0] S1x64.size inb_S9x64_S1x64_6_0
abbrev wrow0_7 : Rect S9x64 := Rect.unit ![7, 0] S1x64.size inb_S9x64_S1x64_7_0
abbrev wrow0_8 : Rect S9x64 := Rect.unit ![8, 0] S1x64.size inb_S9x64_S1x64_8_0

abbrev thr0 : Rect S64x64x64 := Rect.unit ![0, 0, 0] S64x64x64.size inb_S64x64x64_S64x64x64_0_0_0
abbrev oblk0 : Rect S4x64x64x64 := Rect.unit ![0, 0, 0, 0] S4x64x64x64.size inb_S4x64x64x64_S4x64x64x64_0_0_0_0

def acc0 (x0 : Vec F S4x66x66x1 .f32) (x1 : Vec F S9x64 .f32) : FVec F S4x64x64x64 .f32 :=
  k0_pay4
    (k0_pay3
      (k0_pay2 (View.ld x0 tap0_00) (View.ld x1 wrow0_0) (View.ld x0 tap0_01) (View.ld x1 wrow0_1) (View.ld x0 tap0_02) (View.ld x1 wrow0_2))
      (View.ld x0 tap0_10) (View.ld x1 wrow0_3) (View.ld x0 tap0_11) (View.ld x1 wrow0_4) (View.ld x0 tap0_12) (View.ld x1 wrow0_5))
    (View.ld x0 tap0_20) (View.ld x1 wrow0_6) (View.ld x0 tap0_21) (View.ld x1 wrow0_7) (View.ld x0 tap0_22) (View.ld x1 wrow0_8)

def out0_3 (x0 : Vec F S4x66x66x1 .f32) (x1 : Vec F S9x64 .f32) (x2 : Vec F S64x64x64 .f32) : Vec F S4x64x64x64 .f32 :=
  View.canon [⟨oblk0, k0_pay1 (acc0 x0 x1) (k0_pay5 (View.ld x2 thr0)) (Scalar.ofBits .f32 0x44BB8000#32)⟩]

set_option maxHeartbeats 4000000 in
-- The body reads its three inputs and stores `out0_3` of them over the whole output; `P` and `Q` pass through unread.
theorem sound_kernel0 {c : Dev nD} {E} {i} {arg1} {harg1} {arg2} {harg2} {arg3} {harg3} {arg4} {harg4} {x0} {x1} {x2} {α β γ δ : Type} {g : δ → _} {P Q : sProp 𝕄} :
    iprop(P ∗ Q ∗ (∃ _ : α, owns c arg1 fullShare x0) ∗ (∃ _ : β, owns c arg2 fullShare x1)
        ∗ (∃ _ : γ, owns c arg3 fullShare x2) ∗ ∃ d, owns c arg4 fullShare (g d))
      ⊢ wp frame (wpE (defs₀ (F := F)) Variants.none c none) E (cc0__conv_kernel_body i arg1 harg1 arg2 harg2 arg3 harg3 arg4 harg4) fun _ =>
        iprop(P ∗ Q ∗ owns c arg1 fullShare x0 ∗ owns c arg2 fullShare x1 ∗ owns c arg3 fullShare x2
          ∗ owns c arg4 fullShare (out0_3 x0 x1 x2)) := by
  simp only [cc0__conv_kernel_body_eq_skeleton]; unfold cc0__conv_kernel_body_skel
  simp only [k0_part1_eq_skeleton, k0_part2_eq_skeleton, k0_part3_eq_skeleton]; unfold k0_part1_skel k0_part2_skel k0_part3_skel
  unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4x64x64x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0 (c : Dev nD) (t : Fin cfg0.N) : (∀ d, (dat0 V c).before 0 t d = iblk0 V c 0 t) ∧ (∀ d, (dat0 V c).before 1 t d = iblk0 V c 1 t) ∧
    ∀ d, (dat0 V c).before 2 t d = iblk0 V c 2 t := by
  refine ⟨fun d => ?_, fun d => ?_, fun d => ?_⟩ <;>
  exact ((dat0 V c).before_in_eq_fetched _ rfl (fun _ => rfl) (fun _ _ _ => rfl) (fun _ => by dsimp only [dat0, Dat.blockOf, iblk0]; try rfl) t d).trans
    (by dsimp only [dat0, Dat.fetched, Dat.blockOf, iblk0]; try rfl)

theorem body_obligation0 (c : Dev nD) : BodyObligation (dat0 (F := F) V c) (defs₀ (F := F)) Variants.none () Set.univ := fun t => by
  rw [bigSep_W0, bigSep_W0]
  simp only [(before0 V c t).1, (before0 V c t).2.1, (before0 V c t).2.2]
  dsimp only [dat0]
  exact sound_kernel0

end Cert.KernelIdeal.Net

end
-- ==== Proof.Net.Reg1.lean ====
import proofs.«133004_j26104811225511_1_alg».proof.Proof.Gen.KernelIdeal.Launch
import proofs.«133004_j26104811225511_1_alg».proof.Proof.Gen.KernelIdeal.Skeleton
import proofs.«133004_j26104811225511_1_alg».proof.Proof.Gen.KernelIdeal.Points
import Idealize.ShloMosaic.Lib.Pipeline.FrameBody
import Idealize.ShloMosaic.Lib.Tactic

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev tap1_00 : Rect S4x66x66x64 := Rect.unit ![0, 0, 0, 0] S4x64x64x64.size inb_S4x66x66x64_S4x64x64x64_0_0_0_0
abbrev tap1_01 : Rect S4x66x66x64 := Rect.unit ![0, 0, 1, 0] S4x64x64x64.size inb_S4x66x66x64_S4x64x64x64_0_0_1_0
abbrev tap1_02 : Rect S4x66x66x64 := Rect.unit ![0, 0, 2, 0] S4x64x64x64.size inb_S4x66x66x64_S4x64x64x64_0_0_2_0
abbrev tap1_10 : Rect S4x66x66x64 := Rect.unit ![0, 1, 0, 0] S4x64x64x64.size inb_S4x66x66x64_S4x64x64x64_0_1_0_0
abbrev tap1_11 : Rect S4x66x66x64 := Rect.unit ![0, 1, 1, 0] S4x64x64x64.size inb_S4x66x66x64_S4x64x64x64_0_1_1_0
abbrev tap1_12 : Rect S4x66x66x64 := Rect.unit ![0, 1, 2, 0] S4x64x64x64.size inb_S4x66x66x64_S4x64x64x64_0_1_2_0
abbrev tap1_20 : Rect S4x66x66x64 := Rect.unit ![0, 2, 0, 0] S4x64x64x64.size inb_S4x66x66x64_S4x64x64x64_0_2_0_0
abbrev tap1_21 : Rect S4x66x66x64 := Rect.unit ![0, 2, 1, 0] S4x64x64x64.size inb_S4x66x66x64_S4x64x64x64_0_2_1_0
abbrev tap1_22 : Rect S4x66x66x64 := Rect.unit ![0, 2, 2, 0] S4x64x64x64.size inb_S4x66x66x64_S4x64x64x64_0_2_2_0

abbrev wrow1_0 : Rect S576x64 := Rect.unit ![0, 0] S64x64.size inb_S576x64_S64x64_0_0
abbrev wrow1_1 : Rect S576x64 := Rect.unit ![64, 0] S64x64.size inb_S576x64_S64x64_64_0
abbrev wrow1_2 : Rect S576x64 := Rect.unit ![128, 0] S64x64.size inb_S576x64_S64x64_128_0
abbrev wrow1_3 : Rect S576x64 := Rect.unit ![192, 0] S64x64.size inb_S576x64_S64x64_192_0
abbrev wrow1_4 : Rect S576x64 := Rect.unit ![256, 0] S64x64.size inb_S576x64_S64x64_256_0
abbrev wrow1_5 : Rect S576x64 := Rect.unit ![320, 0] S64x64.size inb_S576x64_S64x64_320_0
abbrev wrow1_6 : Rect S576x64 := Rect.unit ![384, 0] S64x64.size inb_S576x64_S64x64_384_0
abbrev wrow1_7 : Rect S576x64 := Rect.unit ![448, 0] S64x64.size inb_S576x64_S64x64_448_0
abbrev wrow1_8 : Rect S576x64 := Rect.unit ![512, 0] S64x64.size inb_S576x64_S64x64_512_0

abbrev thr1 : Rect S64x64x64 := Rect.unit ![0, 0, 0] S64x64x64.size inb_S64x64x64_S64x64x64_0_0_0
abbrev oblk1 : Rect S4x64x64x64 := Rect.unit ![0, 0, 0, 0] S4x64x64x64.size inb_S4x64x64x64_S4x64x64x64_0_0_0_0

def acc1 (x0 : Vec F S4x66x66x64 .f32) (x1 : Vec F S576x64 .f32) : FVec F S4x64x64x64 .f32 :=
  k1_pay4
    (k1_pay3
      (k1_pay2 (View.ld x0 tap1_00) (View.ld x1 wrow1_0) (View.ld x0 tap1_01) (View.ld x1 wrow1_1) (View.ld x0 tap1_02) (View.ld x1 wrow1_2))
      (View.ld x0 tap1_10) (View.ld x1 wrow1_3) (View.ld x0 tap1_11) (View.ld x1 wrow1_4) (View.ld x0 tap1_12) (View.ld x1 wrow1_5))
    (View.ld x0 tap1_20) (View.ld x1 wrow1_6) (View.ld x0 tap1_21) (View.ld x1 wrow1_7) (View.ld x0 tap1_22) (View.ld x1 wrow1_8)

def out1_3 (x0 : Vec F S4x66x66x64 .f32) (x1 : Vec F S576x64 .f32) (x2 : Vec F S64x64x64 .f32) : Vec F S4x64x64x64 .f32 :=
  View.canon [⟨oblk1, k1_pay1 (acc1 x0 x1) (k1_pay5 (View.ld x2 thr1)) (Scalar.ofBits .f32 0x453B8000#32)⟩]

set_option maxHeartbeats 4000000 in
-- The body reads its three inputs and stores `out1_3` of them over the whole output; `P` and `Q` pass through unread.
theorem sound_kernel1 {c : Dev nD} {E} {i} {arg1} {harg1} {arg2} {harg2} {arg3} {harg3} {arg4} {harg4} {x0} {x1} {x2} {α β γ δ : Type} {g : δ → _} {P Q : sProp 𝕄} :
    iprop(P ∗ Q ∗ (∃ _ : α, owns c arg1 fullShare x0) ∗ (∃ _ : β, owns c arg2 fullShare x1)
        ∗ (∃ _ : γ, owns c arg3 fullShare x2) ∗ ∃ d, owns c arg4 fullShare (g d))
      ⊢ wp frame (wpE (defs₀ (F := F)) Variants.none c none) E (cc1__conv_kernel_body i arg1 harg1 arg2 harg2 arg3 harg3 arg4 harg4) fun _ =>
        iprop(P ∗ Q ∗ owns c arg1 fullShare x0 ∗ owns c arg2 fullShare x1 ∗ owns c arg3 fullShare x2
          ∗ owns c arg4 fullShare (out1_3 x0 x1 x2)) := by
  simp only [cc1__conv_kernel_body_eq_skeleton]; unfold cc1__conv_kernel_body_skel
  simp only [k1_part1_eq_skeleton, k1_part2_eq_skeleton, k1_part3_eq_skeleton]; unfold k1_part1_skel k1_part2_skel k1_part3_skel
  unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4x64x64x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1 (c : Dev nD) (t : Fin cfg1.N) : (∀ d, (dat1 V c).before 0 t d = iblk1 V c 0 t) ∧ (∀ d, (dat1 V c).before 1 t d = iblk1 V c 1 t) ∧
    ∀ d, (dat1 V c).before 2 t d = iblk1 V c 2 t := by
  refine ⟨fun d => ?_, fun d => ?_, fun d => ?_⟩ <;>
  exact ((dat1 V c).before_in_eq_fetched _ rfl (fun _ => rfl) (fun _ _ _ => rfl) (fun _ => by dsimp only [dat1, Dat.blockOf, iblk1]; try rfl) t d).trans
    (by dsimp only [dat1, Dat.fetched, Dat.blockOf, iblk1]; try rfl)

theorem body_obligation1 (c : Dev nD) : BodyObligation (dat1 (F := F) V c) (defs₀ (F := F)) Variants.none () Set.univ := fun t => by
  rw [bigSep_W1, bigSep_W1]
  simp only [(before1 V c t).1, (before1 V c t).2.1, (before1 V c t).2.2]
  dsimp only [dat1]
  exact sound_kernel1

end Cert.KernelIdeal.Net

end
-- ==== Proof.Net.Reg2.lean ====
import proofs.«133004_j26104811225511_1_alg».proof.Proof.Gen.KernelIdeal.Launch
import proofs.«133004_j26104811225511_1_alg».proof.Proof.Gen.KernelIdeal.Skeleton
import proofs.«133004_j26104811225511_1_alg».proof.Proof.Gen.KernelIdeal.Points
import Idealize.ShloMosaic.Lib.Pipeline.FrameBody
import Idealize.ShloMosaic.Lib.Tactic

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev tap2_00 : Rect S4x34x34x64 := Rect.unit ![0, 0, 0, 0] S4x32x32x64.size inb_S4x34x34x64_S4x32x32x64_0_0_0_0
abbrev tap2_01 : Rect S4x34x34x64 := Rect.unit ![0, 0, 1, 0] S4x32x32x64.size inb_S4x34x34x64_S4x32x32x64_0_0_1_0
abbrev tap2_02 : Rect S4x34x34x64 := Rect.unit ![0, 0, 2, 0] S4x32x32x64.size inb_S4x34x34x64_S4x32x32x64_0_0_2_0
abbrev tap2_10 : Rect S4x34x34x64 := Rect.unit ![0, 1, 0, 0] S4x32x32x64.size inb_S4x34x34x64_S4x32x32x64_0_1_0_0
abbrev tap2_11 : Rect S4x34x34x64 := Rect.unit ![0, 1, 1, 0] S4x32x32x64.size inb_S4x34x34x64_S4x32x32x64_0_1_1_0
abbrev tap2_12 : Rect S4x34x34x64 := Rect.unit ![0, 1, 2, 0] S4x32x32x64.size inb_S4x34x34x64_S4x32x32x64_0_1_2_0
abbrev tap2_20 : Rect S4x34x34x64 := Rect.unit ![0, 2, 0, 0] S4x32x32x64.size inb_S4x34x34x64_S4x32x32x64_0_2_0_0
abbrev tap2_21 : Rect S4x34x34x64 := Rect.unit ![0, 2, 1, 0] S4x32x32x64.size inb_S4x34x34x64_S4x32x32x64_0_2_1_0
abbrev tap2_22 : Rect S4x34x34x64 := Rect.unit ![0, 2, 2, 0] S4x32x32x64.size inb_S4x34x34x64_S4x32x32x64_0_2_2_0

abbrev wrow2_0 : Rect S576x128 := Rect.unit ![0, 0] S64x128.size inb_S576x128_S64x128_0_0
abbrev wrow2_1 : Rect S576x128 := Rect.unit ![64, 0] S64x128.size inb_S576x128_S64x128_64_0
abbrev wrow2_2 : Rect S576x128 := Rect.unit ![128, 0] S64x128.size inb_S576x128_S64x128_128_0
abbrev wrow2_3 : Rect S576x128 := Rect.unit ![192, 0] S64x128.size inb_S576x128_S64x128_192_0
abbrev wrow2_4 : Rect S576x128 := Rect.unit ![256, 0] S64x128.size inb_S576x128_S64x128_256_0
abbrev wrow2_5 : Rect S576x128 := Rect.unit ![320, 0] S64x128.size inb_S576x128_S64x128_320_0
abbrev wrow2_6 : Rect S576x128 := Rect.unit ![384, 0] S64x128.size inb_S576x128_S64x128_384_0
abbrev wrow2_7 : Rect S576x128 := Rect.unit ![448, 0] S64x128.size inb_S576x128_S64x128_448_0
abbrev wrow2_8 : Rect S576x128 := Rect.unit ![512, 0] S64x128.size inb_S576x128_S64x128_512_0

abbrev thr2 : Rect S32x32x128 := Rect.unit ![0, 0, 0] S32x32x128.size inb_S32x32x128_S32x32x128_0_0_0
abbrev oblk2 : Rect S4x32x32x128 := Rect.unit ![0, 0, 0, 0] S4x32x32x128.size inb_S4x32x32x128_S4x32x32x128_0_0_0_0

def acc2 (x0 : Vec F S4x34x34x64 .f32) (x1 : Vec F S576x128 .f32) : FVec F S4x32x32x128 .f32 :=
  k2_pay4
    (k2_pay3
      (k2_pay2 (View.ld x0 tap2_00) (View.ld x1 wrow2_0) (View.ld x0 tap2_01) (View.ld x1 wrow2_1) (View.ld x0 tap2_02) (View.ld x1 wrow2_2))
      (View.ld x0 tap2_10) (View.ld x1 wrow2_3) (View.ld x0 tap2_11) (View.ld x1 wrow2_4) (View.ld x0 tap2_12) (View.ld x1 wrow2_5))
    (View.ld x0 tap2_20) (View.ld x1 wrow2_6) (View.ld x0 tap2_21) (View.ld x1 wrow2_7) (View.ld x0 tap2_22) (View.ld x1 wrow2_8)

def out2_3 (x0 : Vec F S4x34x34x64 .f32) (x1 : Vec F S576x128 .f32) (x2 : Vec F S32x32x128 .f32) : Vec F S4x32x32x128 .f32 :=
  View.canon [⟨oblk2, k2_pay1 (acc2 x0 x1) (k2_pay5 (View.ld x2 thr2)) (Scalar.ofBits .f32 0x458CA000#32)⟩]

set_option maxHeartbeats 4000000 in
-- The body reads its three inputs and stores `out2_3` of them over the whole output; `P` and `Q` pass through unread.
theorem sound_kernel2 {c : Dev nD} {E} {i} {arg1} {harg1} {arg2} {harg2} {arg3} {harg3} {arg4} {harg4} {x0} {x1} {x2} {α β γ δ : Type} {g : δ → _} {P Q : sProp 𝕄} :
    iprop(P ∗ Q ∗ (∃ _ : α, owns c arg1 fullShare x0) ∗ (∃ _ : β, owns c arg2 fullShare x1)
        ∗ (∃ _ : γ, owns c arg3 fullShare x2) ∗ ∃ d, owns c arg4 fullShare (g d))
      ⊢ wp frame (wpE (defs₀ (F := F)) Variants.none c none) E (cc2__conv_kernel_body i arg1 harg1 arg2 harg2 arg3 harg3 arg4 harg4) fun _ =>
        iprop(P ∗ Q ∗ owns c arg1 fullShare x0 ∗ owns c arg2 fullShare x1 ∗ owns c arg3 fullShare x2
          ∗ owns c arg4 fullShare (out2_3 x0 x1 x2)) := by
  simp only [cc2__conv_kernel_body_eq_skeleton]; unfold cc2__conv_kernel_body_skel
  simp only [k2_part1_eq_skeleton, k2_part2_eq_skeleton, k2_part3_eq_skeleton]; unfold k2_part1_skel k2_part2_skel k2_part3_skel
  unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4x32x32x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

theorem before2 (c : Dev nD) (t : Fin cfg2.N) : (∀ d, (dat2 V c).before 0 t d = iblk2 V c 0 t) ∧ (∀ d, (dat2 V c).before 1 t d = iblk2 V c 1 t) ∧
    ∀ d, (dat2 V c).before 2 t d = iblk2 V c 2 t := by
  refine ⟨fun d => ?_, fun d => ?_, fun d => ?_⟩ <;>
  exact ((dat2 V c).before_in_eq_fetched _ rfl (fun _ => rfl) (fun _ _ _ => rfl) (fun _ => by dsimp only [dat2, Dat.blockOf, iblk2]; try rfl) t d).trans
    (by dsimp only [dat2, Dat.fetched, Dat.blockOf, iblk2]; try rfl)

theorem body_obligation2 (c : Dev nD) : BodyObligation (dat2 (F := F) V c) (defs₀ (F := F)) Variants.none () Set.univ := fun t => by
  rw [bigSep_W2, bigSep_W2]
  simp only [(before2 V c t).1, (before2 V c t).2.1, (before2 V c t).2.2]
  dsimp only [dat2]
  exact sound_kernel2

end Cert.KernelIdeal.Net

end
-- ==== Proof.Net.Reg3.lean ====
import proofs.«133004_j26104811225511_1_alg».proof.Proof.Gen.KernelIdeal.Launch
import proofs.«133004_j26104811225511_1_alg».proof.Proof.Gen.KernelIdeal.Skeleton
import proofs.«133004_j26104811225511_1_alg».proof.Proof.Gen.KernelIdeal.Points
import Idealize.ShloMosaic.Lib.Pipeline.FrameBody
import Idealize.ShloMosaic.Lib.Tactic

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev tap3_00 : Rect S4x34x34x128 := Rect.unit ![0, 0, 0, 0] S4x32x32x128.size inb_S4x34x34x128_S4x32x32x128_0_0_0_0
abbrev tap3_01 : Rect S4x34x34x128 := Rect.unit ![0, 0, 1, 0] S4x32x32x128.size inb_S4x34x34x128_S4x32x32x128_0_0_1_0
abbrev tap3_02 : Rect S4x34x34x128 := Rect.unit ![0, 0, 2, 0] S4x32x32x128.size inb_S4x34x34x128_S4x32x32x128_0_0_2_0
abbrev tap3_10 : Rect S4x34x34x128 := Rect.unit ![0, 1, 0, 0] S4x32x32x128.size inb_S4x34x34x128_S4x32x32x128_0_1_0_0
abbrev tap3_11 : Rect S4x34x34x128 := Rect.unit ![0, 1, 1, 0] S4x32x32x128.size inb_S4x34x34x128_S4x32x32x128_0_1_1_0
abbrev tap3_12 : Rect S4x34x34x128 := Rect.unit ![0, 1, 2, 0] S4x32x32x128.size inb_S4x34x34x128_S4x32x32x128_0_1_2_0
abbrev tap3_20 : Rect S4x34x34x128 := Rect.unit ![0, 2, 0, 0] S4x32x32x128.size inb_S4x34x34x128_S4x32x32x128_0_2_0_0
abbrev tap3_21 : Rect S4x34x34x128 := Rect.unit ![0, 2, 1, 0] S4x32x32x128.size inb_S4x34x34x128_S4x32x32x128_0_2_1_0
abbrev tap3_22 : Rect S4x34x34x128 := Rect.unit ![0, 2, 2, 0] S4x32x32x128.size inb_S4x34x34x128_S4x32x32x128_0_2_2_0

abbrev wrow3_0 : Rect S1152x128 := Rect.unit ![0, 0] S128x128.size inb_S1152x128_S128x128_0_0
abbrev wrow3_1 : Rect S1152x128 := Rect.unit ![128, 0] S128x128.size inb_S1152x128_S128x128_128_0
abbrev wrow3_2 : Rect S1152x128 := Rect.unit ![256, 0] S128x128.size inb_S1152x128_S128x128_256_0
abbrev wrow3_3 : Rect S1152x128 := Rect.unit ![384, 0] S128x128.size inb_S1152x128_S128x128_384_0
abbrev wrow3_4 : Rect S1152x128 := Rect.unit ![512, 0] S128x128.size inb_S1152x128_S128x128_512_0
abbrev wrow3_5 : Rect S1152x128 := Rect.unit ![640, 0] S128x128.size inb_S1152x128_S128x128_640_0
abbrev wrow3_6 : Rect S1152x128 := Rect.unit ![768, 0] S128x128.size inb_S1152x128_S128x128_768_0
abbrev wrow3_7 : Rect S1152x128 := Rect.unit ![896, 0] S128x128.size inb_S1152x128_S128x128_896_0
abbrev wrow3_8 : Rect S1152x128 := Rect.unit ![1024, 0] S128x128.size inb_S1152x128_S128x128_1024_0

abbrev thr3 : Rect S32x32x128 := Rect.unit ![0, 0, 0] S32x32x128.size inb_S32x32x128_S32x32x128_0_0_0
abbrev oblk3 : Rect S4x32x32x128 := Rect.unit ![0, 0, 0, 0] S4x32x32x128.size inb_S4x32x32x128_S4x32x32x128_0_0_0_0

def acc3 (x0 : Vec F S4x34x34x128 .f32) (x1 : Vec F S1152x128 .f32) : FVec F S4x32x32x128 .f32 :=
  k3_pay4
    (k3_pay3
      (k3_pay2 (View.ld x0 tap3_00) (View.ld x1 wrow3_0) (View.ld x0 tap3_01) (View.ld x1 wrow3_1) (View.ld x0 tap3_02) (View.ld x1 wrow3_2))
      (View.ld x0 tap3_10) (View.ld x1 wrow3_3) (View.ld x0 tap3_11) (View.ld x1 wrow3_4) (View.ld x0 tap3_12) (View.ld x1 wrow3_5))
    (View.ld x0 tap3_20) (View.ld x1 wrow3_6) (View.ld x0 tap3_21) (View.ld x1 wrow3_7) (View.ld x0 tap3_22) (View.ld x1 wrow3_8)

def out3_3 (x0 : Vec F S4x34x34x128 .f32) (x1 : Vec F S1152x128 .f32) (x2 : Vec F S32x32x128 .f32) : Vec F S4x32x32x128 .f32 :=
  View.canon [⟨oblk3, k3_pay1 (acc3 x0 x1) (k3_pay5 (View.ld x2 thr3)) (Scalar.ofBits .f32 0x45BB8000#32)⟩]

set_option maxHeartbeats 4000000 in
-- The body reads its three inputs and stores `out3_3` of them over the whole output; `P` and `Q` pass through unread.
theorem sound_kernel3 {c : Dev nD} {E} {i} {arg1} {harg1} {arg2} {harg2} {arg3} {harg3} {arg4} {harg4} {x0} {x1} {x2} {α β γ δ : Type} {g : δ → _} {P Q : sProp 𝕄} :
    iprop(P ∗ Q ∗ (∃ _ : α, owns c arg1 fullShare x0) ∗ (∃ _ : β, owns c arg2 fullShare x1)
        ∗ (∃ _ : γ, owns c arg3 fullShare x2) ∗ ∃ d, owns c arg4 fullShare (g d))
      ⊢ wp frame (wpE (defs₀ (F := F)) Variants.none c none) E (cc3__conv_kernel_body i arg1 harg1 arg2 harg2 arg3 harg3 arg4 harg4) fun _ =>
        iprop(P ∗ Q ∗ owns c arg1 fullShare x0 ∗ owns c arg2 fullShare x1 ∗ owns c arg3 fullShare x2
          ∗ owns c arg4 fullShare (out3_3 x0 x1 x2)) := by
  simp only [cc3__conv_kernel_body_eq_skeleton]; unfold cc3__conv_kernel_body_skel
  simp only [k3_part1_eq_skeleton, k3_part2_eq_skeleton, k3_part3_eq_skeleton]; unfold k3_part1_skel k3_part2_skel k3_part3_skel
  unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4x32x32x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) :
    (dat3 V c).after 3 t = out3_3 (iblk3 V c 0 t) (iblk3 V c 1 t) (iblk3 V c 2 t) := by dsimp only [dat3]

theorem before3 (c : Dev nD) (t : Fin cfg3.N) : (∀ d, (dat3 V c).before 0 t d = iblk3 V c 0 t) ∧ (∀ d, (dat3 V c).before 1 t d = iblk3 V c 1 t) ∧
    ∀ d, (dat3 V c).before 2 t d = iblk3 V c 2 t := by
  refine ⟨fun d => ?_, fun d => ?_, fun d => ?_⟩ <;>
  exact ((dat3 V c).before_in_eq_fetched _ rfl (fun _ => rfl) (fun _ _ _ => rfl) (fun _ => by dsimp only [dat3, Dat.blockOf, iblk3]; try rfl) t d).trans
    (by dsimp only [dat3, Dat.fetched, Dat.blockOf, iblk3]; try rfl)

theorem body_obligation3 (c : Dev nD) : BodyObligation (dat3 (F := F) V c) (defs₀ (F := F)) Variants.none () Set.univ := fun t => by
  rw [bigSep_W3, bigSep_W3]
  simp only [(before3 V c t).1, (before3 V c t).2.1, (before3 V c t).2.2]
  dsimp only [dat3]
  exact sound_kernel3

end Cert.KernelIdeal.Net

end
-- ==== Proof.Net.Reg4.lean ====
import proofs.«133004_j26104811225511_1_alg».proof.Proof.Gen.KernelIdeal.Launch
import proofs.«133004_j26104811225511_1_alg».proof.Proof.Gen.KernelIdeal.Skeleton
import proofs.«133004_j26104811225511_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def pt4 (n : Nat) : Fin cfg4.N := ⟨n % 8, lt_of_lt_of_eq (Nat.mod_lt n (by decide)) N_4.symm⟩

-- the running sums: the first point's product added to zeros, every later point's added to what the point before left
def acc4 (c : Dev nD) : (n : Nat) → Vec F S32x256 .f32
  | 0 => k4_pay2 (iblk4 V c 0 (pt4 0)) (iblk4 V c 1 (pt4 0)) (k4_pay1 (F := F))
  | n + 1 => k4_pay2 (iblk4 V c 0 (pt4 (n + 1))) (iblk4 V c 1 (pt4 (n + 1))) (acc4 c n)

theorem acc4_zero (c : Dev nD) :
    acc4 V c 0 = k4_pay2 (iblk4 V c 0 (pt4 0)) (iblk4 V c 1 (pt4 0)) (k4_pay1 (F := F)) := rfl
theorem acc4_succ (c : Dev nD) (n : Nat) :
    acc4 V c (n + 1) = k4_pay2 (iblk4 V c 0 (pt4 (n + 1))) (iblk4 V c 1 (pt4 (n + 1))) (acc4 V c n) := rfl

abbrev r4_3 : Rect S32x256 := Rect.unit (s := S32x256) ![0, 0] S32x256.size inb_S32x256_S32x256_0_0

def out4_3 (c : Dev nD) : Vec F S32x256 .f32 :=
  View.canon [⟨r4_3, k4_pay3 (acc4 V c 7) (iblk4 V c 2 (pt4 7))⟩]

def scr4 (c : Dev nD) : Nat → sProp 𝕄
  | 0 => iprop(∃ X : Vec F S32x256 .f32, owns (c : Thread nD τ) (Memref.whole cc4_scratch0) fullShare X)
  | n + 1 => owns (c : Thread nD τ) (Memref.whole cc4_scratch0) fullShare (acc4 V c n)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 V c
  Φ t := iprop(scr4 V c t.val ∗ Pipeline.scopedRestBut (Ix := Unit) (Name := ℕ) (U := UR sig nD τ) (Lvl := ℕ) (Val := Elt F) spec4 c [cc4_scratch0] ∗ ∃ r, prngReg c r)
  q _ := fullShare
  owed _ := 0

theorem A_eq4 (c : Dev nD) (w : Fin cfg4.W) : (dat4 V c).A w = V c (Pipeline.arrRef spec4 w) := by
  dsimp only [dat4]
theorem after4_3 (c : Dev nD) (t : Fin cfg4.N) : (dat4 V c).after 3 t = out4_3 V c := by dsimp only [dat4]
theorem Φ4 (c : Dev nD) (t : Fin (cfg4.N + 1)) :
    (dat4 V c).Φ t = iprop(scr4 V c t.val ∗ Pipeline.scopedRestBut (Ix := Unit) (Name := ℕ) (U := UR sig nD τ) (Lvl := ℕ) (Val := Elt F) spec4 c [cc4_scratch0] ∗ ∃ r, prngReg c r) := by
  dsimp only [dat4]

theorem hin4 (c : Dev nD) : iprop((∃ r, prngReg c r) ∗ Pipeline.prefHeld (pcfgs (F := F) 4).pre c (fun _ => fullShare) ((cfgs 4).toPCfg_adm).1 ∗ Pipeline.scopedRest spec4 c) ⊢ ((dat4 V c).Φ 0 : sProp 𝕄) := by
  rw [Φ4, scopedRest4_split, show ((0 : Fin (cfg4.N + 1)).val) = 0 from rfl, scr4]
  iintro ⟨Hr, -, ⟨%f, Hs⟩, Hrest⟩
  isplitl [Hs]
  · iexists f; rw [owns_whole]; iexact Hs
  iframe

theorem hout4 (c : Dev nD) : ((dat4 V c).Φ (Fin.last cfg4.N) : sProp 𝕄) ⊢ iprop((∃ r, prngReg c r) ∗ Pipeline.ownSems0 (fun k : PEmpty => k.elim) c ∗ Pipeline.scopedRest spec4 c) := by
  rw [Φ4, Pipeline.ownSems0_none, scopedRest4_split, show (Fin.last cfg4.N).val = 7 + 1 from N_4, scr4, owns_whole]
  iintro ⟨Hs, Hrest, Hr⟩
  iframe Hr Hrest
  isplitr; · iempintro
  iexists _; iexact Hs

abbrev cond4_1 (i : grid4.Coords) : Prop :=
  (Scalar.cmpi .ne (Scalar.extui (Scalar.cmpi .eq (BitVec.ofNat 32 (i 0).val) 0#32)) 0#32) = 1#1
theorem hcond4_1 : ∀ t : Fin cfg4.N, cond4_1 (grid4.coords t) ↔ t.val % 8 = 0 :=
  (by decide +kernel : ∀ t : Fin grid4.N, cond4_1 (grid4.coords t) ↔ t.val % 8 = 0)

abbrev cond4_2 (i : grid4.Coords) : Prop := k4_cond2 i = 1#1
theorem hcond4_2 : ∀ t : Fin cfg4.N, cond4_2 (grid4.coords t) ↔ t.val % 8 = 7 :=
  (by decide +kernel : ∀ t : Fin grid4.N, cond4_2 (grid4.coords t) ↔ t.val % 8 = 7)

theorem idleAt4_3 : ∀ t : Fin cfg4.N, cfg4.idle 3 (grid4.coords t) = decide (¬t.val % 8 = 7) :=
  (by decide +kernel : ∀ t : Fin grid4.N, cfg4.idle 3 (grid4.coords t) = decide (¬t.val % 8 = 7))

theorem hz2 : (![0, 0] : Fin 2 → Nat) = fun _ => 0 := funext fun a => by fin_cases a <;> rfl

theorem cover4 (p : Vec F S32x256 .f32) (L : List (View.Piece (Elt F) S32x256 .f32)) (y : S32x256.Idx) :
    ∃ pc ∈ ((⟨r4_3, p⟩ : View.Piece (Elt F) S32x256 .f32) :: L), y ∈ pc.1.set :=
  ⟨_, List.mem_cons_self, View.mem_set_unit_zero (S := S32x256) hz2 inb_S32x256_S32x256_0_0 y⟩

-- one statement for all truth values of the two conditions: a' is zeros or a, and o is the thresholded sums or d
theorem sound_kernel4 (c : Dev nD) (E : Set ℕ) (i : grid4.Coords)
    (arg1 : Memref sig .tc .vmem S32x4096 .f32) (harg1 : arg1.IsWhole)
    (arg2 : Memref sig .tc .vmem S4096x256 .f32) (harg2 : arg2.IsWhole)
    (arg3 : Memref sig .tc .vmem S1x256 .f32) (harg3 : arg3.IsWhole)
    (arg4 : Memref sig .tc .vmem S32x256 .f32) (harg4 : arg4.IsWhole)
    (arg5 : Memref sig .tc .vmem S32x256 .f32) (harg5 : arg5.IsWhole)
    (x0 : Vec F S32x4096 .f32) (x1 : Vec F S4096x256 .f32) (x2 : Vec F S1x256 .f32) (d a a' o : Vec F S32x256 .f32)
    (ha : cond4_1 i ∧ a' = k4_pay1 ∨ ¬cond4_1 i ∧ a' = a)
    (ho : cond4_2 i ∧ o = View.canon [⟨r4_3, k4_pay3 (k4_pay2 x0 x1 a') x2⟩] ∨ ¬cond4_2 i ∧ o = d)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare d
        ∗ owns (c : Thread nD τ) arg5 fullShare a
        ∗ (iprop(owns (c : Thread nD τ) arg1 fullShare x0 ∗ owns (c : Thread nD τ) arg2 fullShare x1
            ∗ owns (c : Thread nD τ) arg3 fullShare x2 ∗ owns (c : Thread nD τ) arg4 fullShare o
            ∗ owns (c : Thread nD τ) arg5 fullShare (k4_pay2 x0 x1 a')) -∗ K ⟨⟩))
      ⊢ wp frame (wpE (defs₀ (F := F)) Variants.none c none) E (cc4__dense_kernel_body i arg1 harg1 arg2 harg2 arg3 harg3 arg4 harg4 arg5 harg5) K := by
  simp only [cc4__dense_kernel_body_eq_skeleton]; unfold cc4__dense_kernel_body_skel owns
  iintro ⟨⟨%f0, %hf0, H0⟩, ⟨%f1, %hf1, H1⟩, ⟨%f2, %hf2, H2⟩, ⟨%f4, %hf4, H4⟩, ⟨%f5, %hf5, H5⟩, Hk⟩
  subst hf0 hf1 hf2 hf4 hf5
  obtain ⟨hc1, rfl⟩ | ⟨hc1, rfl⟩ := ha <;> obtain ⟨hc2, rfl⟩ | ⟨hc2, rfl⟩ := ho
  all_goals
    sl_exec (disch := first | sl_exact hc1 | sl_exact hc2)
    sl_step
    iapply Hk
    isplitl [H0]; swap; isplitl [H1]; swap; isplitl [H2]; swap; isplitl [H4]
    all_goals
      iexists _; isplitr; swap; · first | iexact H0 | iexact H1 | iexact H2 | iexact H4 | iexact H5
      ipureintro; sl_unfold_run_names
      simp only [View.read_writes_eq_canon _ _ _ (cover4 _ _), View.readCov_eq_canon_ld _ _ _ (cover4 _ _),
      View.canon_cons_unit_zero (S := S32x256) hz2, View.readAt_eq_ld, View.ld_unit_zero (S := S32x4096) hz2,
      View.ld_unit_zero (S := S4096x256) hz2, View.ld_unit_zero (S := S32x256) hz2, View.ld_unit_zero (S := S1x256) hz2]

theorem acc4_next (c : Dev nD) (t : Fin cfg4.N) (h : t.val ≠ 0) :
    acc4 V c t.val = k4_pay2 (iblk4 V c 0 t) (iblk4 V c 1 t) (acc4 V c (t.val - 1)) := by
  obtain ⟨n, hn⟩ : ∃ n, t.val = n + 1 := ⟨t.val - 1, by omega⟩
  have hN : t.val < 8 := lt_of_lt_of_eq t.isLt N_4
  have e : pt4 (n + 1) = t := Fin.ext (by show (n + 1) % 8 = t.val; omega)
  rw [hn, acc4_succ, e, Nat.add_sub_cancel]

theorem scr4_later (c : Dev nD) (t : Fin cfg4.N) (h : t.val ≠ 0) :
    scr4 V c t.val = owns (c : Thread nD τ) (Memref.whole cc4_scratch0) fullShare (acc4 V c (t.val - 1)) := by
  obtain ⟨n, hn⟩ : ∃ n, t.val = n + 1 := ⟨t.val - 1, by omega⟩
  rw [hn, scr4, Nat.add_sub_cancel]

theorem out4_3_last (c : Dev nD) (t : Fin cfg4.N) (h : t.val = 7) :
    out4_3 V c = View.canon [⟨r4_3, k4_pay3 (k4_pay2 (iblk4 V c 0 t) (iblk4 V c 1 t) (acc4 V c (t.val - 1))) (iblk4 V c 2 t)⟩] := by
  have e : pt4 7 = t := Fin.ext (by show 7 % 8 = t.val; omega)
  unfold out4_3
  rw [e, ← acc4_next V c t (by omega), h]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem leaves4_3_idle (c : Dev nD) (t : Fin cfg4.N) (h : ¬t.val % 8 = 7) :
    (dat4 V c).leavesExact 3 t = iprop(∃ d, owns (c : Thread nD τ) (st4_3 t) fullShare ((dat4 V c).before 3 t d)) :=
  (dat4 V c).leavesExact_idle 3 t ((idleAt4_3 t).trans (decide_eq_true h))
    (Bool.eq_false_iff.mpr fun hf => h ((flush4_3 t).mp hf))

theorem leaves4_3_last (c : Dev nD) (t : Fin cfg4.N) (h : t.val % 8 = 7) :
    (dat4 V c).leavesExact 3 t = owns (c : Thread nD τ) (st4_3 t) fullShare (out4_3 V c) := by
  unfold Dat.leavesExact
  rw [show cfg4.idle 3 (cfg4.grid.coords t) = false from (idleAt4_3 t).trans (decide_eq_false (not_not.mpr h)), after4_3]

-- by cases on the point: first, last, or between; each fixes the truth values of the two conditions
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare (iblk4 V c 0 t) ∗ owns (c : Thread nD τ) (st4_1 t) fullShare (iblk4 V c 1 t)
        ∗ owns (c : Thread nD τ) (st4_2 t) fullShare (iblk4 V c 2 t) ∗ (dat4 V c).leavesExact 3 t)) := by
  unfold bodyAt4
  simp only [before4_0, before4_1, before4_2]
  rw [show (dat4 V c).owesAt () t.succ = (dat4 V c).owesAt () t.castSucc from rfl,
    Φ4, Φ4, show t.castSucc.val = t.val from rfl,
    show t.succ.val = t.val + 1 from rfl, scr4]
  have hN : t.val < 8 := lt_of_lt_of_eq t.isLt N_4
  by_cases h0 : t.val % 8 = 0
  · have h7 : ¬t.val % 8 = 7 := by omega
    have e : pt4 0 = t := Fin.ext (by show 0 % 8 = t.val; omega)
    rw [leaves4_3_idle V c t h7, show t.val = 0 by omega, acc4_zero, scr4, e]
    iintro ⟨⟨⟨%X, Hs⟩, Hrest, Hr⟩, Ho, ⟨%d0, H0⟩, ⟨%d1, H1⟩, ⟨%d2, H2⟩, ⟨%d3, H3⟩⟩
    iapply (sound_kernel4 c Set.univ (grid4.coords t) (st4_0 t) _ (st4_1 t) _ (st4_2 t) _ (st4_3 t) _ _ _
      (iblk4 V c 0 t) (iblk4 V c 1 t) (iblk4 V c 2 t) ((dat4 V c).before 3 t d3) X _ _ (.inl ⟨(hcond4_1 t).mpr h0, rfl⟩) (.inr ⟨fun h => h7 ((hcond4_2 t).mp h), rfl⟩) _)
    iframe H0 H1 H2 H3 Hs
    iintro ⟨H0, H1, H2, H3, Hs⟩
    iframe Hs Hrest Hr Ho H0 H1 H2
    iexists d3; iexact H3
  · rw [acc4_next V c t (by omega), scr4_later V c t (by omega)]
    by_cases h7 : t.val % 8 = 7
    · rw [leaves4_3_last V c t h7, out4_3_last V c t (by omega)]
      iintro ⟨⟨Hs, Hrest, Hr⟩, Ho, ⟨%d0, H0⟩, ⟨%d1, H1⟩, ⟨%d2, H2⟩, ⟨%d3, H3⟩⟩
      iapply (sound_kernel4 c Set.univ (grid4.coords t) (st4_0 t) _ (st4_1 t) _ (st4_2 t) _ (st4_3 t) _ _ _
        (iblk4 V c 0 t) (iblk4 V c 1 t) (iblk4 V c 2 t) ((dat4 V c).before 3 t d3) (acc4 V c (t.val - 1)) _ _ (.inr ⟨fun h => h0 ((hcond4_1 t).mp h), rfl⟩) (.inl ⟨(hcond4_2 t).mpr h7, rfl⟩) _)
      iframe H0 H1 H2 H3 Hs
      iintro ⟨H0, H1, H2, H3, Hs⟩
      iframe
    · rw [leaves4_3_idle V c t h7]
      iintro ⟨⟨Hs, Hrest, Hr⟩, Ho, ⟨%d0, H0⟩, ⟨%d1, H1⟩, ⟨%d2, H2⟩, ⟨%d3, H3⟩⟩
      iapply (sound_kernel4 c Set.univ (grid4.coords t) (st4_0 t) _ (st4_1 t) _ (st4_2 t) _ (st4_3 t) _ _ _
        (iblk4 V c 0 t) (iblk4 V c 1 t) (iblk4 V c 2 t) ((dat4 V c).before 3 t d3) (acc4 V c (t.val - 1)) _ _ (.inr ⟨fun h => h0 ((hcond4_1 t).mp h), rfl⟩) (.inr ⟨fun h => h7 ((hcond4_2 t).mp h), rfl⟩) _)
      iframe H0 H1 H2 H3 Hs
      iintro ⟨H0, H1, H2, H3, Hs⟩
      iframe Hs Hrest Hr Ho H0 H1 H2
      iexists d3; iexact H3

theorem body_obligation4 (c : Dev nD) : BodyObligation (dat4 (F := F) V c) (defs₀ (F := F)) Variants.none () Set.univ := fun t => by
  rw [bigSep_W4, bigSep_W4]
  exact sound_body4 V c t

end Cert.KernelIdeal.Net

end
-- ==== Proof.Net.Reg5.lean ====
import proofs.«133004_j26104811225511_1_alg».proof.Proof.Gen.KernelIdeal.Launch
import proofs.«133004_j26104811225511_1_alg».proof.Proof.Gen.KernelIdeal.Skeleton
import proofs.«133004_j26104811225511_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S32x256 := Rect.unit (s := S32x256) ![0, 0] S32x256.size inb_S32x256_S32x256_0_0
abbrev r5_1 : Rect S256x10 := Rect.unit (s := S256x10) ![0, 0] S256x10.size inb_S256x10_S256x10_0_0
abbrev r5_2 : Rect S1x10 := Rect.unit (s := S1x10) ![0, 0] S1x10.size inb_S1x10_S1x10_0_0
abbrev r5_3 : Rect S32x10 := Rect.unit (s := S32x10) ![0, 0] S32x10.size inb_S32x10_S32x10_0_0

def out5_3 (x0 : Vec F S32x256 .f32) (x1 : Vec F S256x10 .f32) (x2 : Vec F S1x10 .f32) : Vec F S32x10 .f32 :=
  View.canon [⟨r5_3, k5_pay1 (View.ld x0 r5_0) (View.ld x1 r5_1) (View.ld x2 r5_2)⟩]

theorem cover5_3 (p0 : Vec F S32x10 .f32) (y : S32x10.Idx) :
    ∃ pc ∈ ([⟨r5_3, p0⟩] : List (View.Piece (Elt F) S32x10 .f32)), y ∈ pc.1.set :=
  View.cover_of_tiled [⟨r5_3, p0⟩] S32x10.size (by rfl) y

theorem sound_kernel5 (c : Dev nD) (E : Set ℕ) (i : grid5.Coords)
    (arg1 : Memref sig .tc .vmem S32x256 .f32) (harg1 : arg1.IsWhole)
    (arg2 : Memref sig .tc .vmem S256x10 .f32) (harg2 : arg2.IsWhole)
    (arg3 : Memref sig .tc .vmem S1x10 .f32) (harg3 : arg3.IsWhole)
    (arg4 : Memref sig .tc .vmem S32x10 .f32) (harg4 : arg4.IsWhole)
    (x0 : Vec F S32x256 .f32) (x1 : Vec F S256x10 .f32) (x2 : Vec F S1x10 .f32) (d : Vec F S32x10 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare d
        ∗ (iprop(owns (c : Thread nD τ) arg1 fullShare x0 ∗ owns (c : Thread nD τ) arg2 fullShare x1
            ∗ owns (c : Thread nD τ) arg3 fullShare x2 ∗ owns (c : Thread nD τ) arg4 fullShare (out5_3 x0 x1 x2)) -∗ K ⟨⟩))
      ⊢ wp frame (wpE (defs₀ (F := F)) Variants.none c none) E (cc5__out_kernel_body i arg1 harg1 arg2 harg2 arg3 harg3 arg4 harg4) K := by
  simp only [cc5__out_kernel_body_eq_skeleton]; unfold cc5__out_kernel_body_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; swap; isplitl [H1]; swap; isplitl [H2]
  all_goals
    iexists _; isplitr; swap; · first | iexact H0 | iexact H1 | iexact H2 | iexact H3
    ipureintro
    first | with_reducible rfl | exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d)))
    ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare (iblk5 V c 0 t)
        ∗ owns (c : Thread nD τ) (st5_1 t) fullShare (iblk5 V c 1 t)
        ∗ owns (c : Thread nD τ) (st5_2 t) fullShare (iblk5 V c 2 t)
        ∗ owns (c : Thread nD τ) (st5_3 t) fullShare (out5_3 (iblk5 V c 0 t) (iblk5 V c 1 t) (iblk5 V c 2 t)))) := by
  unfold bodyAt5
  simp only [before5_0, before5_1, before5_2]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩, ⟨%d3, H3⟩⟩
  iapply (sound_kernel5 c Set.univ (grid5.coords t) (st5_0 t) _ (st5_1 t) _ (st5_2 t) _ (st5_3 t) _
    (iblk5 V c 0 t) (iblk5 V c 1 t) (iblk5 V c 2 t) ((dat5 V c).before 3 t d3) _)
  iframe H0 H1 H2 H3
  iintro ⟨H0, H1, H2, H3⟩
  iframe

theorem body_obligation5 (c : Dev nD) : BodyObligation (dat5 (F := F) V c) (defs₀ (F := F)) Variants.none () Set.univ := fun t => by
  rw [bigSep_W5, bigSep_W5]
  exact sound_body5 V c t

end Cert.KernelIdeal.Net

end
-- ==== Proof.Net.Run.lean ====
import proofs.«133004_j26104811225511_1_alg».proof.Proof.Net.Reg0
import proofs.«133004_j26104811225511_1_alg».proof.Proof.Net.Reg1
import proofs.«133004_j26104811225511_1_alg».proof.Proof.Net.Reg2
import proofs.«133004_j26104811225511_1_alg».proof.Proof.Net.Reg3
import proofs.«133004_j26104811225511_1_alg».proof.Proof.Net.Reg4
import proofs.«133004_j26104811225511_1_alg».proof.Proof.Net.Reg5
import proofs.«133004_j26104811225511_1_alg».proof.Proof.Gen.KernelIdeal.Regions

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- An input window's array is never written, so a region's exit contents differ from its entry contents only at its output array.
theorem keepOf {cfg : Cfg sig Λ₀} (hinj : Function.Injective (Pipeline.arrRef cfg.spec)) (c : Dev nD) (V : Valuation τ sig (Elt F))
    (dat : Dat τ (Elt F) Unit ℕ (UR sig nD τ) ℕ cfg c) (hA : ∀ w, dat.A w = V (Proc.devRef .tc (Pipeline.arrRef cfg.spec w)))
    (o : Fin cfg.W) (ho : ∀ w, w ≠ o → (cfg.win w).isOut = false) (b : Ref sig .tc) (hb : b ≠ Pipeline.arrRef cfg.spec o) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr cfg.spec hinj]
    exact (dat.arrAt_in w (ho w fun e => hb (congrArg (Pipeline.arrRef cfg.spec) e)) _).trans (hA w)
  · exact Pipeline.withArrays_of_ne cfg.spec c _ _ b fun w e => h ⟨w, e⟩

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev at3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (at3 m ρ) c).arrAt w cfg0.N
theorem W4_arr (c : Dev nD) (w : Fin cfg0.W) :
    W4 m ρ c (Proc.devRef .tc (Pipeline.arrRef spec0 w)) = (dat0 (at3 m ρ) c).arrAt w cfg0.N :=
  Pipeline.withArrays_arr spec0 launch0.win.arr_inj c _ _ w
theorem W4_keep (c : Dev nD) (b : Ref sig .tc) (hb : b ≠ main_v8) :
    W4 m ρ c (Proc.devRef .tc b) = W3 m ρ c (Proc.devRef .tc b) :=
  keepOf (cfg := cfg0) launch0.win.arr_inj c _ _ (A_eq0 _ c) 3 (by decide) b hb
abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
abbrev at7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (at7 m ρ) c).arrAt w cfg1.N
theorem W8_arr (c : Dev nD) (w : Fin cfg1.W) :
    W8 m ρ c (Proc.devRef .tc (Pipeline.arrRef spec1 w)) = (dat1 (at7 m ρ) c).arrAt w cfg1.N :=
  Pipeline.withArrays_arr spec1 launch1.win.arr_inj c _ _ w
theorem W8_keep (c : Dev nD) (b : Ref sig .tc) (hb : b ≠ main_v17) :
    W8 m ρ c (Proc.devRef .tc b) = W7 m ρ c (Proc.devRef .tc b) :=
  keepOf (cfg := cfg1) launch1.win.arr_inj c _ _ (A_eq1 _ c) 3 (by decide) b hb
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev at11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (at11 m ρ) c).arrAt w cfg2.N
theorem W12_arr (c : Dev nD) (w : Fin cfg2.W) :
    W12 m ρ c (Proc.devRef .tc (Pipeline.arrRef spec2 w)) = (dat2 (at11 m ρ) c).arrAt w cfg2.N :=
  Pipeline.withArrays_arr spec2 launch2.win.arr_inj c _ _ w
theorem W12_keep (c : Dev nD) (b : Ref sig .tc) (hb : b ≠ main_v28) :
    W12 m ρ c (Proc.devRef .tc b) = W11 m ρ c (Proc.devRef .tc b) :=
  keepOf (cfg := cfg2) launch2.win.arr_inj c _ _ (A_eq2 _ c) 3 (by decide) b hb
abbrev W13 : Dev nD → Valuation τ sig (Elt F) := fun c => StableHlo.after hostOps3 (W12 m ρ c)
abbrev W14 : Dev nD → Valuation τ sig (Elt F) := fun c => StableHlo.after hostOps3_1 (W13 m ρ c)
abbrev W15 : Dev nD → Valuation τ sig (Elt F) := fun c => StableHlo.after hostOps3_2 (W14 m ρ c)
abbrev at15 : (c : Dev nD) → (b : Ref sig .tc) → Buf (Elt F) ((c : Thread nD τ).loc b) := fun c b => W15 m ρ c b
def W16 (c : Dev nD) : Valuation τ sig (Elt F) :=
  Pipeline.withArrays spec3 c (W15 m ρ c) fun w => (dat3 (at15 m ρ) c).arrAt w cfg3.N
theorem W16_arr (c : Dev nD) (w : Fin cfg3.W) :
    W16 m ρ c (Proc.devRef .tc (Pipeline.arrRef spec3 w)) = (dat3 (at15 m ρ) c).arrAt w cfg3.N :=
  Pipeline.withArrays_arr spec3 launch3.win.arr_inj c _ _ w
theorem W16_keep (c : Dev nD) (b : Ref sig .tc) (hb : b ≠ main_v37) :
    W16 m ρ c (Proc.devRef .tc b) = W15 m ρ c (Proc.devRef .tc b) :=
  keepOf (cfg := cfg3) launch3.win.arr_inj c _ _ (A_eq3 _ c) 3 (by decide) b hb
abbrev W17 : Dev nD → Valuation τ sig (Elt F) := fun c => StableHlo.after hostOps4 (W16 m ρ c)
abbrev at17 : (c : Dev nD) → (b : Ref sig .tc) → Buf (Elt F) ((c : Thread nD τ).loc b) := fun c b => W17 m ρ c b
def W18 (c : Dev nD) : Valuation τ sig (Elt F) :=
  Pipeline.withArrays spec4 c (W17 m ρ c) fun w => (dat4 (at17 m ρ) c).arrAt w cfg4.N
theorem W18_arr (c : Dev nD) (w : Fin cfg4.W) :
    W18 m ρ c (Proc.devRef .tc (Pipeline.arrRef spec4 w)) = (dat4 (at17 m ρ) c).arrAt w cfg4.N :=
  Pipeline.withArrays_arr spec4 launch4.win.arr_inj c _ _ w
theorem W18_keep (c : Dev nD) (b : Ref sig .tc) (hb : b ≠ main_v42) :
    W18 m ρ c (Proc.devRef .tc b) = W17 m ρ c (Proc.devRef .tc b) :=
  keepOf (cfg := cfg4) launch4.win.arr_inj c _ _ (A_eq4 _ c) 3 (by decide) b hb
abbrev W19 : Dev nD → Valuation τ sig (Elt F) := fun c => StableHlo.after hostOps5 (W18 m ρ c)
abbrev at19 : (c : Dev nD) → (b : Ref sig .tc) → Buf (Elt F) ((c : Thread nD τ).loc b) := fun c b => W19 m ρ c b
def W20 (c : Dev nD) : Valuation τ sig (Elt F) :=
  Pipeline.withArrays spec5 c (W19 m ρ c) fun w => (dat5 (at19 m ρ) c).arrAt w cfg5.N
theorem W20_arr (c : Dev nD) (w : Fin cfg5.W) :
    W20 m ρ c (Proc.devRef .tc (Pipeline.arrRef spec5 w)) = (dat5 (at19 m ρ) c).arrAt w cfg5.N :=
  Pipeline.withArrays_arr spec5 launch5.win.arr_inj c _ _ w
theorem W20_keep (c : Dev nD) (b : Ref sig .tc) (hb : b ≠ main_v44) :
    W20 m ρ c (Proc.devRef .tc b) = W19 m ρ c (Proc.devRef .tc b) :=
  keepOf (cfg := cfg5) launch5.win.arr_inj c _ _ (A_eq5 _ c) 3 (by decide) b hb

def pdats : (p : Fin 6) → (c : Dev nD) → Dat τ (Elt F) Unit ℕ (UR sig nD τ) ℕ (Pipeline.pin (pcfgs (F := F)) adm p) c
  | ⟨0, _⟩ => fun c => dat0 (at3 m ρ) c
  | ⟨1, _⟩ => fun c => dat1 (at7 m ρ) c
  | ⟨2, _⟩ => fun c => dat2 (at11 m ρ) c
  | ⟨3, _⟩ => fun c => dat3 (at15 m ρ) c
  | ⟨4, _⟩ => fun c => dat4 (at17 m ρ) c
  | ⟨5, _⟩ => fun c => dat5 (at19 m ρ) c
abbrev 𝒱₀ : Variants := Variants.none
abbrev L : GSem nD τ sig → Finset Unit := fun _ => ∅
abbrev lv : GSem nD τ sig → Unit → ℕ := fun _ _ => 0
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hinA {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  isplitl [Hr]; · iexact Hr
  iexact Hp
theorem houtA {gr W : Nat} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

-- The contents after region `p`: its windows' arrays at their final values, every other buffer as in `V`.
abbrev outOf (p : Fin 6) (V : Dev nD → Valuation τ sig (Elt F)) (c : Dev nD) : Valuation τ sig (Elt F) :=
  Pipeline.withArrays (cfgs p).spec c (V c) fun w => (pdats m ρ p c).arrAt w (cfgs p).N

set_option backward.isDefEq.respectTransparency.types false in
-- Region `p` as a segment from every buffer at `V` to every buffer at `outOf`: it owns exactly its windows' arrays, the rest is framed.
def regOf (p : Fin 6) (lf : Pipeline.LaunchFacts (nD := nD) (τ := τ) cfgs p) (V : Dev nD → Valuation τ sig (Elt F))
    (hd : ∀ c, (pdats m ρ p c).A = (fun w => V c (Proc.devRef .tc (Pipeline.arrRef (cfgs p).spec w))) ∧ (pdats m ρ p c).q = (fun _ => fullShare)
      ∧ (pdats m ρ p c).owed = (fun _ => 0) ∧ (pdats m ρ p c).recorded = fun _ => Set.univ)
    (hb : ∀ c, BodyObligation (pdats m ρ p c) (defs₀ (F := F)) 𝒱₀ () Set.univ)
    (hin : ∀ c, iprop((∃ r, prngReg c r) ∗ Pipeline.prefHeld (pcfgs (F := F) p).pre c (fun _ => fullShare) (adm p).1 ∗ Pipeline.scopedRest (cfgs p).spec c)
      ⊢ ((pdats m ρ p c).Φ 0 : sProp 𝕄))
    (hout : ∀ c, ((pdats m ρ p c).Φ (Fin.last (cfgs p).N) : sProp 𝕄)
      ⊢ iprop((∃ r, prngReg c r) ∗ Pipeline.ownSems0 (fun k : PEmpty => k.elim) c ∗ Pipeline.scopedRest (cfgs p).spec c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => congrFun (hd c).2.2.1
  pre c := iprop(StableHlo.held (c : Thread nD τ) (Pipeline.ucRefs τ sig) (V c) ∗ Rd c)
  post c := iprop(StableHlo.held (c : Thread nD τ) (Pipeline.ucRefs τ sig) (outOf m ρ p V c) ∗ Rd c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    obtain ⟨hA, hq, h0, hr⟩ := hd c
    rw [Pipeline.ownSems0_none]
    have hsplit := Pipeline.arrays_of_unscopedBufs (p := p) (pcfgs (F := F)) adm (pdats m ρ) lf.win lf.arr_whole c
      ((pdats m ρ p c).share_full (congrFun hq)) (fun b => V c b) (congrFun hA)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (congrFun (hd c).2.1)) (fun b => V c b)
      (fun b => outOf m ρ p V c b) ((pdats m ρ p c).arrAt · (cfgs p).N)
      (fun w => (Pipeline.withArrays_arr (cfgs p).spec lf.win.arr_inj c (V c) (fun w => (pdats m ρ p c).arrAt w (cfgs p).N) w).symm)
      (fun b hn => Pipeline.withArrays_of_ne (cfgs p).spec c (V c) _ b fun w e => hn (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.2.1]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (regOf m ρ 0 launch0 (W3 m ρ) (fun _ => ⟨rfl, rfl, rfl, rfl⟩) (body_obligation0 (at3 m ρ)) (fun c => hinA spec0 c _) (houtA spec0)),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (regOf m ρ 1 launch1 (W7 m ρ) (fun _ => ⟨rfl, rfl, rfl, rfl⟩) (body_obligation1 (at7 m ρ)) (fun c => hinA spec1 c _) (houtA spec1)),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (regOf m ρ 2 launch2 (W11 m ρ) (fun _ => ⟨rfl, rfl, rfl, rfl⟩) (body_obligation2 (at11 m ρ)) (fun c => hinA spec2 c _) (houtA spec2)),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .region (regOf m ρ 3 launch3 (W15 m ρ) (fun _ => ⟨rfl, rfl, rfl, rfl⟩) (body_obligation3 (at15 m ρ)) (fun c => hinA spec3 c _) (houtA spec3)),
    .host (hseg hostOps4 hostOps4_sub hostOps4_fresh (W16 m ρ)),
    .region (regOf m ρ 4 launch4 (W17 m ρ) (fun _ => ⟨rfl, rfl, rfl, rfl⟩) (body_obligation4 (at17 m ρ)) (hin4 (at17 m ρ)) (hout4 (at17 m ρ))),
    .host (hseg hostOps5 hostOps5_sub hostOps5_fresh (W18 m ρ)),
    .region (regOf m ρ 5 launch5 (W19 m ρ) (fun _ => ⟨rfl, rfl, rfl, rfl⟩) (body_obligation5 (at19 m ρ)) (fun c => hinA spec5 c _) (houtA spec5)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rd c))
    (Tₙ := fun c => iprop(StableHlo.held (c : Thread nD τ) (Pipeline.ucRefs τ sig) (W20 m ρ c) ∗ ∃ r, prngReg c r))
    (hch := by repeat' first | exact fun _ => sep_assoc' | refine ⟨fun _ => .rfl, ?_⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

end Cert.KernelIdeal.Net

end
-- ==== Proof.Net.Frame.lean ====
import proofs.«133004_j26104811225511_1_alg».proof.Proof.Net.Run

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- No item changes `b`: it is unscoped, no host stretch writes it, and it is no region's output array.
abbrev Kept (b : Ref sig .tc) : Prop :=
  ¬ (Proc.devRef .tc b : DevRef τ sig).isScoped ∧ b ∉ hostOps0_W ∧ b ∉ hostOps0_1_W ∧ b ∉ hostOps0_2_W ∧ b ≠ main_v8
    ∧ b ∉ hostOps1_W ∧ b ∉ hostOps1_1_W ∧ b ∉ hostOps1_2_W ∧ b ≠ main_v17
    ∧ b ∉ hostOps2_W ∧ b ∉ hostOps2_1_W ∧ b ∉ hostOps2_2_W ∧ b ≠ main_v28
    ∧ b ∉ hostOps3_W ∧ b ∉ hostOps3_1_W ∧ b ∉ hostOps3_2_W ∧ b ≠ main_v37
    ∧ b ∉ hostOps4_W ∧ b ≠ main_v42 ∧ b ∉ hostOps5_W ∧ b ≠ main_v44

-- Such a buffer ends at its launch contents: walking back through the twenty items, each leaves it alone.
theorem W20_of (c : Dev nD) (b : Ref sig .tc) (h : Kept b) : W20 m ρ c (Proc.devRef .tc b) = m ((c : Thread nD τ).loc b) := by
  obtain ⟨-, h0, h1, h2, h3, h4, h5, h6, h7, h8, h9, h10, h11, h12, h13, h14, h15, h16, h17, h18, h19⟩ := h
  exact (W20_keep m ρ c b h19).trans <|
    (StableHlo.after_of_writes_sub hostOps5 _ hostOps5_writes h18).trans <|
    (W18_keep m ρ c b h17).trans <|
    (StableHlo.after_of_writes_sub hostOps4 _ hostOps4_writes h16).trans <|
    (W16_keep m ρ c b h15).trans <|
    (StableHlo.after_of_writes_sub hostOps3_2 _ hostOps3_2_writes h14).trans <|
    (StableHlo.after_of_writes_sub hostOps3_1 _ hostOps3_1_writes h13).trans <|
    (StableHlo.after_of_writes_sub hostOps3 _ hostOps3_writes h12).trans <|
    (W12_keep m ρ c b h11).trans <|
    (StableHlo.after_of_writes_sub hostOps2_2 _ hostOps2_2_writes h10).trans <|
    (StableHlo.after_of_writes_sub hostOps2_1 _ hostOps2_1_writes h9).trans <|
    (StableHlo.after_of_writes_sub hostOps2 _ hostOps2_writes h8).trans <|
    (W8_keep m ρ c b h7).trans <|
    (StableHlo.after_of_writes_sub hostOps1_2 _ hostOps1_2_writes h6).trans <|
    (StableHlo.after_of_writes_sub hostOps1_1 _ hostOps1_1_writes h5).trans <|
    (StableHlo.after_of_writes_sub hostOps1 _ hostOps1_writes h4).trans <|
    (W4_keep m ρ c b h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans <|
    rfl

theorem result_all : θ_run defs (onTc (τ := τ) (main (F := F))) ⟨m, fun _ => 0, ρ⟩ (fun r => ∀ c : Dev nD,
      r.2.mem ((c.tc : Thread nD τ).loc main_v44) = W20 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have K : ∀ b : Ref sig .tc, Kept b → r.2.mem ((c.tc : Thread nD τ).loc b) = m ((c.tc : Thread nD τ).loc b) :=
      fun b hb => (h c _ (mem_uc b hb.1)).trans (W20_of m ρ c b hb)
    ⟨h c _ (mem_uc main_v44 (by decide)), K main_arg0 (by decide), K main_arg1 (by decide), K main_arg2 (by decide), K main_arg3 (by decide), K main_arg4 (by decide), K main_arg5 (by decide), K main_arg6 (by decide), K main_arg7 (by decide), K main_arg8 (by decide), K main_arg9 (by decide), K main_arg10 (by decide), K main_arg11 (by decide), K main_arg12 (by decide)⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (result_all m ρ)

end Cert.KernelIdeal.Net

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev tapRow {H : Nat} (h : Fin H) (q : Fin 9) : Fin (H + 2) := ⟨h.val + q.val / 3, by omega⟩
abbrev tapCol {W : Nat} (w : Fin W) (q : Fin 9) : Fin (W + 2) := ⟨w.val + q.val % 3, by omega⟩

abbrev tapW {C : Nat} (q : Fin 9) (ch : Fin C) : Fin (9 * C) := ⟨q.val * C + ch.val, by
  have := q.isLt; have := ch.isLt; nlinarith⟩

def convAt {B H W C Co : Nat} (lo hi : EReal)
    (xp : Fin B → Fin (H + 2) → Fin (W + 2) → Fin C → EReal)
    (wt : Fin (9 * C) → Fin Co → EReal) (dm : Fin H → Fin W → Fin Co → EReal)
    (b : Fin B) (h : Fin H) (w : Fin W) (f : Fin Co) : EReal :=
  min ((∑ q : Fin 9, ∑ ch : Fin C, (xp b (tapRow h q) (tapCol w q) ch - lo) * wt (tapW q ch) f)
      + (hi - dm h w f)) hi

def denseAt {B Co : Nat} (lo hi : EReal) (x : Fin B → Fin 32768 → EReal) (wt : Fin 32768 → Fin Co → EReal)
    (d : Fin Co → EReal) (b : Fin B) (f : Fin Co) : EReal :=
  min ((∑ t : Fin 8, ∑ k : Fin 4096,
        (x b ⟨t.val * 4096 + k.val, by have := t.isLt; have := k.isLt; omega⟩ - lo)
          * wt ⟨t.val * 4096 + k.val, by have := t.isLt; have := k.isLt; omega⟩ f)
      + (hi - d f)) hi

def outAt {B K Co : Nat} (lo : EReal) (x : Fin B → Fin K → EReal) (wt : Fin K → Fin Co → EReal)
    (d : Fin Co → EReal) (b : Fin B) (f : Fin Co) : EReal :=
  d f + ∑ k : Fin K, (lo - x b k) * wt k f

end Cert.Spec

end
-- ==== Proof.Net.Fn.lean ====
import proofs.«133004_j26104811225511_1_alg».proof.KernelIdeal
import proofs.«133004_j26104811225511_1_alg».proof.Proof.Spec

noncomputable section

namespace Cert.KernelIdeal.Net

open Idealize.ShloMosaic Idealize.ShloMosaic.ValueIdx Cert.KernelIdeal

abbrev thr (w : BitVec 32) : EReal := Ideal.ofBits .f32 w

def convFn0 (xp : Vec Ideal S32x66x66x1 .f32) (wt : Vec Ideal S9x64 .f32) (dm : Vec Ideal S64x64x64 .f32) : Vec Ideal S32x64x64x64 .f32 :=
  fun i => Cert.Spec.convAt (B := 32) (H := 64) (W := 64) (C := 1) (Co := 64) (thr 0x00000000#32) (thr 0x44BB8000#32)
    (fun b h w ch => xp (ix4 b h w ch)) (fun k f => wt (ix2 k f)) (fun h w f => dm (ix3 h w f)) (i 0) (i 1) (i 2) (i 3)

def convFn1 (xp : Vec Ideal S32x66x66x64 .f32) (wt : Vec Ideal S576x64 .f32) (dm : Vec Ideal S64x64x64 .f32) : Vec Ideal S32x64x64x64 .f32 :=
  fun i => Cert.Spec.convAt (B := 32) (H := 64) (W := 64) (C := 64) (Co := 64) (thr 0x44BB8000#32) (thr 0x453B8000#32)
    (fun b h w ch => xp (ix4 b h w ch)) (fun k f => wt (ix2 k f)) (fun h w f => dm (ix3 h w f)) (i 0) (i 1) (i 2) (i 3)

def convFn2 (xp : Vec Ideal S32x34x34x64 .f32) (wt : Vec Ideal S576x128 .f32) (dm : Vec Ideal S32x32x128 .f32) : Vec Ideal S32x32x32x128 .f32 :=
  fun i => Cert.Spec.convAt (B := 32) (H := 32) (W := 32) (C := 64) (Co := 128) (thr 0x453B8000#32) (thr 0x458CA000#32)
    (fun b h w ch => xp (ix4 b h w ch)) (fun k f => wt (ix2 k f)) (fun h w f => dm (ix3 h w f)) (i 0) (i 1) (i 2) (i 3)

def convFn3 (xp : Vec Ideal S32x34x34x128 .f32) (wt : Vec Ideal S1152x128 .f32) (dm : Vec Ideal S32x32x128 .f32) : Vec Ideal S32x32x32x128 .f32 :=
  fun i => Cert.Spec.convAt (B := 32) (H := 32) (W := 32) (C := 128) (Co := 128) (thr 0x458CA000#32) (thr 0x45BB8000#32)
    (fun b h w ch => xp (ix4 b h w ch)) (fun k f => wt (ix2 k f)) (fun h w f => dm (ix3 h w f)) (i 0) (i 1) (i 2) (i 3)

def denseFn4 (x : Vec Ideal S32x32768 .f32) (wt : Vec Ideal S32768x256 .f32) (d : Vec Ideal S1x256 .f32) : Vec Ideal S32x256 .f32 :=
  fun i => Cert.Spec.denseAt (B := 32) (Co := 256) (thr 0x45BB8000#32) (thr 0x45EA6000#32)
    (fun b k => x (ix2 b k)) (fun k f => wt (ix2 k f)) (fun f => d (ix2 (0 : Fin 1) f)) (i 0) (i 1)

def outFn5 (x : Vec Ideal S32x256 .f32) (wt : Vec Ideal S256x10 .f32) (d : Vec Ideal S1x10 .f32) : Vec Ideal S32x10 .f32 :=
  fun i => Cert.Spec.outAt (B := 32) (K := 256) (Co := 10) (thr 0x45EA6000#32)
    (fun b k => x (ix2 b k)) (fun k f => wt (ix2 k f)) (fun f => d (ix2 (0 : Fin 1) f)) (i 0) (i 1)

end Cert.KernelIdeal.Net

end
-- ==== Proof.Net.Val0.lean ====
import proofs.«133004_j26104811225511_1_alg».proof.Proof.Net.Reg0
import proofs.«133004_j26104811225511_1_alg».proof.Proof.Net.Fn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Net

open Idealize.ShloMosaic Idealize.ShloMosaic.TcCoe Idealize.ShloMosaic.ValueIdx
open Cert.KernelIdeal Cert.KernelIdeal.Gen
open scoped BigOperators

theorem mm0_apply (A : FVec Ideal S16384x1 .bf16) (B : FVec Ideal S1x64 .bf16) (r : Fin 16384) (f : Fin 64) :
    matmul dot_S16384x1_S1x64_S16384x64_1_0_0_1_n_n none A B (constant (F := Ideal) S16384x64 .f32 0x00000000#32) (ix2 r f)
      = ∑ ch : Fin 1, A (ix2 r ch) * B (ix2 ch f) := by
  unfold matmul
  rw [Ideal.matmul_constant_zero_apply, ← Equiv.sum_comp (contrEquiv1 dot_S16384x1_S1x64_S16384x64_1_0_0_1_n_n 1 rfl rfl).symm]
  refine Finset.sum_congr rfl fun ch _ => ?_
  have hk := contrEquiv1_symm_val dot_S16384x1_S1x64_S16384x64_1_0_0_1_n_n 1 rfl rfl ch
  refine congrArg₂ (· * ·) (congrArg A (funext fun ax => Fin.ext ?_)) (congrArg B (funext fun ax => Fin.ext ?_))
  · match ax with
    | ⟨0, _⟩ => simp [DotDims.lhsIdx, dot_S16384x1_S1x64_S16384x64_1_0_0_1_n_n] <;> rfl
    | ⟨1, _⟩ => exact (dot_S16384x1_S1x64_S16384x64_1_0_0_1_n_n.lhsIdx_val_of_single (cl := 1) rfl _ _).trans hk
  · match ax with
    | ⟨0, _⟩ => exact (dot_S16384x1_S1x64_S16384x64_1_0_0_1_n_n.rhsIdx_val_of_single (cr := 0) rfl _ _).trans hk
    | ⟨1, _⟩ => simp [DotDims.rhsIdx, dot_S16384x1_S1x64_S16384x64_1_0_0_1_n_n] <;> rfl

def tapTerm0 (a : Vec Ideal S4x64x64x1 .f32) (w : Vec Ideal S1x64 .f32) : FVec Ideal S4x64x64x64 .f32 :=
  shapeCast S4x64x64x64
    (matmul dot_S16384x1_S1x64_S16384x64_1_0_0_1_n_n none
      (truncf .bf16 (shapeCast S16384x1
        (subf (shapeCast S4x64x64x1 a shapeCasts_S4x64x64x1_S4x64x64x1)
          (broadcast S4x64x64x1 (Scalar.ofBits .f32 0x00000000#32)))
        shapeCasts_S4x64x64x1_S16384x1) bitsLt_bf16_f32)
      (truncf .bf16 w bitsLt_bf16_f32)
      (constant S16384x64 .f32 0x00000000#32))
    shapeCasts_S16384x64_S4x64x64x64

abbrev row0 (b : Fin 4) (h x : Fin 64) : Fin 16384 := ⟨(b.val * 64 + h.val) * 64 + x.val, by omega⟩

-- Tap q reads the activations shifted by (q / 3, q % 3) and the weights' rows from q·1; position (b, h, x) is row (b·64 + h)·64 + x of the matrix.
theorem tap0_apply {x0 : Vec Ideal S4x66x66x1 .f32} {x1 : Vec Ideal S9x64 .f32} (dy dx o : ℕ) (q : Fin 9)
    (ey : q.val / 3 = dy) (ex : q.val % 3 = dx) (eo : q.val * 1 = o) {i0} {i1} {b : Fin 4} {h x : Fin 64} {f : Fin 64} :
    tapTerm0 (View.ld x0 (Rect.unit (s := S4x66x66x1) ![0, dy, dx, 0] S4x64x64x1.size i0))
        (View.ld x1 (Rect.unit (s := S9x64) ![o, 0] S1x64.size i1)) (ix4 b h x f)
      = ∑ ch : Fin 1, (x0 (ix4 b (Cert.Spec.tapRow h q) (Cert.Spec.tapCol x q) ch) - thr 0x00000000#32)
          * x1 (ix2 (Cert.Spec.tapW q ch) f) := by
  subst ey ex eo
  unfold tapTerm0
  refine (shapeCast_apply _ _ (ix4 b h x f) (ix2 (row0 b h x) f) ?_).trans ?_
  · rw [Shape.rowMajor_val_two, Shape.rowMajor_val_four]; rfl
  rw [mm0_apply]
  refine Finset.sum_congr rfl fun ch _ => ?_
  rw [truncf_apply, truncf_apply]
  refine congrArg₂ (· * ·) ((shapeCast_apply _ _ (ix2 (row0 b h x) ch) (ix4 b h x ch) ?_).trans ?_)
    (congrArg x1 (funext fun a => Fin.ext ?_))
  · rw [Shape.rowMajor_val_two, Shape.rowMajor_val_four]; rfl
  · rw [subf_apply, shapeCast_self, broadcast_apply]
    refine congrArg (· - thr 0x00000000#32) (congrArg x0 (funext fun a => Fin.ext ?_))
    match a with
    | ⟨0, _⟩ => show 0 + 1 * b.val = b.val; omega
    | ⟨1, _⟩ => show q.val / 3 + 1 * h.val = h.val + q.val / 3; omega
    | ⟨2, _⟩ => show q.val % 3 + 1 * x.val = x.val + q.val % 3; omega
    | ⟨3, _⟩ => show 0 + 1 * ch.val = ch.val; omega
  · match a with
    | ⟨0, _⟩ => show q.val * 1 + 1 * ch.val = q.val * 1 + ch.val; omega
    | ⟨1, _⟩ => show 0 + 1 * f.val = f.val; omega

theorem sum_nine0 {M : Type*} [AddCommMonoid M] (z : M) (hz : z = 0) (t : Fin 9 → M) :
    ((((((((z + t 0) + t 1) + t 2) + t 3) + t 4) + t 5) + t 6) + t 7) + t 8 = ∑ q : Fin 9, t q := by
  subst hz
  simp only [Fin.sum_univ_succ, Fin.sum_univ_zero, zero_add, add_zero, add_assoc]; rfl

-- The nine taps are added in order onto zero.
theorem acc0_apply (x0 : Vec Ideal S4x66x66x1 .f32) (x1 : Vec Ideal S9x64 .f32) (b : Fin 4) (h x : Fin 64) (f : Fin 64) :
    acc0 (F := Ideal) x0 x1 (ix4 b h x f)
      = ∑ q : Fin 9, ∑ ch : Fin 1, (x0 (ix4 b (Cert.Spec.tapRow h q) (Cert.Spec.tapCol x q) ch) - thr 0x00000000#32)
          * x1 (ix2 (Cert.Spec.tapW q ch) f) := by
  rw [← sum_nine0 _ Ideal.ofBits_zero_f32]
  show Ideal.ofBits .f32 0x00000000#32
      + tapTerm0 (View.ld x0 tap0_00) (View.ld x1 wrow0_0) (ix4 b h x f)
      + tapTerm0 (View.ld x0 tap0_01) (View.ld x1 wrow0_1) (ix4 b h x f)
      + tapTerm0 (View.ld x0 tap0_02) (View.ld x1 wrow0_2) (ix4 b h x f)
      + tapTerm0 (View.ld x0 tap0_10) (View.ld x1 wrow0_3) (ix4 b h x f)
      + tapTerm0 (View.ld x0 tap0_11) (View.ld x1 wrow0_4) (ix4 b h x f)
      + tapTerm0 (View.ld x0 tap0_12) (View.ld x1 wrow0_5) (ix4 b h x f)
      + tapTerm0 (View.ld x0 tap0_20) (View.ld x1 wrow0_6) (ix4 b h x f)
      + tapTerm0 (View.ld x0 tap0_21) (View.ld x1 wrow0_7) (ix4 b h x f)
      + tapTerm0 (View.ld x0 tap0_22) (View.ld x1 wrow0_8) (ix4 b h x f) = _
  rw [tap0_apply 0 0 0 0 rfl rfl rfl,
    tap0_apply 0 1 1 1 rfl rfl rfl,
    tap0_apply 0 2 2 2 rfl rfl rfl,
    tap0_apply 1 0 3 3 rfl rfl rfl,
    tap0_apply 1 1 4 4 rfl rfl rfl,
    tap0_apply 1 2 5 5 rfl rfl rfl,
    tap0_apply 2 0 6 6 rfl rfl rfl,
    tap0_apply 2 1 7 7 rfl rfl rfl,
    tap0_apply 2 2 8 8 rfl rfl rfl]

-- The upper threshold less the position's threshold is added and the result is clamped above.
theorem pay1_apply0 (acc : FVec Ideal S4x64x64x64 .f32) (dmv : Vec Ideal S64x64x64 .f32) (b : Fin 4) (h x : Fin 64) (f : Fin 64) :
    k0_pay1 (F := Ideal) acc (k0_pay5 dmv) (Scalar.ofBits .f32 0x44BB8000#32) (ix4 b h x f)
      = min (acc (ix4 b h x f) + (thr 0x44BB8000#32 - dmv (ix3 h x f))) (thr 0x44BB8000#32) := by
  show min (acc (ix4 b h x f) + broadcastTo S4x64x64x64 (shapeCast S1x64x64x64
      (subf (broadcast S64x64x64 (Scalar.ofBits (F := Ideal) .f32 0x44BB8000#32)) (shapeCast S64x64x64 dmv shapeCasts_S64x64x64_S64x64x64))
      shapeCasts_S64x64x64_S1x64x64x64) broadcasts_S1x64x64x64_S4x64x64x64 (ix4 b h x f)) (thr 0x44BB8000#32) = _
  refine congrArg (fun s => min (acc (ix4 b h x f) + s) (thr 0x44BB8000#32)) ?_
  refine (broadcastTo_apply _ _ (ix4 b h x f) (ix4 (0 : Fin 1) h x f) fun a => by fin_cases a <;> rfl).trans ?_
  rw [shapeCast_abc_1abc_apply, subf_apply, shapeCast_self, broadcast_apply]; rfl

theorem hz4_0 : (![0, 0, 0, 0] : Fin 4 → ℕ) = fun _ => 0 := funext fun a => by fin_cases a <;> rfl
theorem hz3_0 : (![0, 0, 0] : Fin 3 → ℕ) = fun _ => 0 := funext fun a => by fin_cases a <;> rfl

-- The block's element at (b, h, x, f) is the layer's function at batch row 4n + b of the whole arrays.
theorem block0_eq (X : Vec Ideal S32x66x66x1 .f32) (Wt : Vec Ideal S9x64 .f32) (Dm : Vec Ideal S64x64x64 .f32)
    (x0 : Vec Ideal S4x66x66x1 .f32) (n : ℕ)
    (h0 : ∀ (b : Fin 4) (h x : Fin 66) (ch : Fin 1) (b' : Fin 32), b'.val = 4 * n + b.val → x0 (ix4 b h x ch) = X (ix4 b' h x ch))
    (y : S4x64x64x64.Idx) (i : S32x64x64x64.Idx)
    (e0 : (i 0).val = 4 * n + (y 0).val) (e1 : i 1 = y 1) (e2 : i 2 = y 2) (e3 : i 3 = y 3) :
    out0_3 (F := Ideal) x0 Wt Dm y = convFn0 X Wt Dm i := by
  obtain ⟨b, h, x, f, rfl⟩ : ∃ (b : Fin 4) (h x : Fin 64) (f : Fin 64), y = ix4 b h x f := ⟨_, _, _, _, eq_ix4 y⟩
  unfold out0_3 convFn0 Cert.Spec.convAt
  rw [View.canon_unit_zero hz4_0, pay1_apply0, acc0_apply, View.ld_unit_zero (S := S64x64x64) hz3_0, e1, e2, e3]
  refine congrArg (fun s => min (s + (thr 0x44BB8000#32 - Dm (ix3 h x f))) (thr 0x44BB8000#32))
    (Finset.sum_congr rfl fun q _ => Finset.sum_congr rfl fun ch _ => ?_)
  exact congrArg (fun u => (u - thr 0x00000000#32) * Wt (ix2 (Cert.Spec.tapW q ch) f)) (h0 b _ _ ch (i 0) e0)

section Array
variable (V : (c : Dev nD) → (b : Ref sig .tc) → Buf (Elt Ideal) ((c : Thread nD τ).loc b))

theorem emb00 {n s : ℕ} (v : ℕ) (e : n = 0) : n * s + 1 * v = v := by subst e; omega
theorem mem00 {n s : ℕ} (v : Fin s) (e : n = 0) : n * s ≤ v.val ∧ v.val < n * s + s := by subst e; omega

theorem idx0_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem iblk0_0_apply (c : Dev nD) (t : Fin cfg0.N) (b : Fin 4) (h x : Fin 66) (ch : Fin 1) (b' : Fin 32)
    (hb : b'.val = 4 * t.val + b.val) :
    (iblk0 V c 0 t : Vec Ideal S4x66x66x1 .f32) (ix4 b h x ch)
      = (V c (Pipeline.arrRef spec0 0) : Vec Ideal S32x66x66x1 .f32) (ix4 b' h x ch) := by
  obtain ⟨e0, e1, e2, e3, -⟩ := idx0_facts t
  refine congrArg (V c (Pipeline.arrRef spec0 0)) (funext fun a => Fin.ext ?_)
  match a with
  | ⟨0, _⟩ => show win0_0.index t (0 : Fin 4) * 4 + 1 * b.val = b'.val; omega
  | ⟨1, _⟩ => exact emb00 _ e1
  | ⟨2, _⟩ => exact emb00 _ e2
  | ⟨3, _⟩ => exact emb00 _ e3

theorem iblk0_1_eq (c : Dev nD) (t : Fin cfg0.N) :
    (iblk0 V c 1 t : Vec Ideal S9x64 .f32) = V c (Pipeline.arrRef spec0 1) :=
  funext fun j => congrArg (V c (Pipeline.arrRef spec0 1)) (funext fun a => Fin.ext (win0_1.rect_emb_val_of_index_zero t a
    ((by decide +kernel : ∀ t : Fin grid0.N, ∀ a, win0_1.index t a = 0) t a) j))
theorem iblk0_2_eq (c : Dev nD) (t : Fin cfg0.N) :
    (iblk0 V c 2 t : Vec Ideal S64x64x64 .f32) = V c (Pipeline.arrRef spec0 2) :=
  funext fun j => congrArg (V c (Pipeline.arrRef spec0 2)) (funext fun a => Fin.ext (win0_2.rect_emb_val_of_index_zero t a
    ((by decide +kernel : ∀ t : Fin grid0.N, ∀ a, win0_2.index t a = 0) t a) j))

theorem flushed0_eq (c : Dev nD) (t : Fin cfg0.N) :
    (dat0 (F := Ideal) V c).flushed 3 t
      = ((cfg0.win 3).blk t).view.read (Elt Ideal)
          (convFn0 (V c (Pipeline.arrRef spec0 0)) (V c (Pipeline.arrRef spec0 1)) (V c (Pipeline.arrRef spec0 2))) := by
  show (cfg0.win 3).cut (grid0.coords t) ((dat0 V c).after 3 t) = _
  rw [after0_3]
  obtain ⟨-, -, -, -, e0, e1, e2, e3⟩ := idx0_facts t
  funext j
  rw [View.read_apply]
  show out0_3 (F := Ideal) (iblk0 V c 0 t) (iblk0 V c 1 t) (iblk0 V c 2 t) j
    = convFn0 _ _ _ (((cfg0.win 3).blk t).view.emb j)
  rw [iblk0_1_eq, iblk0_2_eq]
  refine block0_eq _ _ _ _ t.val (iblk0_0_apply V c t) j _ ?_ (Fin.ext (emb00 _ e1)) (Fin.ext (emb00 _ e2)) (Fin.ext (emb00 _ e3))
  show win0_3.index t (0 : Fin 4) * 4 + 1 * (j 0).val = 4 * t.val + (j 0).val; omega

-- Grid point t covers rows 4t … 4t+3 of the result.
theorem cover0 (i : S32x64x64x64.Idx) :
    ∃ t : Fin cfg0.N, (cfg0.win 3).flush t = true ∧ i ∈ ((cfg0.win 3).blk t).view.set := by
  have hi0 : (i 0).val < 32 := (i 0).isLt
  have hN : cfg0.N = 8 := N_0
  obtain ⟨t, ht⟩ : ∃ t : Fin cfg0.N, t.val = (i 0).val / 4 := ⟨⟨(i 0).val / 4, by rw [hN]; omega⟩, rfl⟩
  obtain ⟨-, -, -, -, e0, e1, e2, e3⟩ := idx0_facts t
  refine ⟨t, flush0_3 t, ?_⟩
  show i ∈ ((View.whole main_v8).slice (win0_3.rect t)).set
  rw [View.set_slice_whole, Rect.mem_set_unit]
  intro a
  match a with
  | ⟨0, _⟩ => show win0_3.index t (0 : Fin 4) * 4 ≤ (i 0).val ∧ (i 0).val < win0_3.index t (0 : Fin 4) * 4 + 4; omega
  | ⟨1, _⟩ => exact mem00 (i 1) e1
  | ⟨2, _⟩ => exact mem00 (i 2) e2
  | ⟨3, _⟩ => exact mem00 (i 3) e3

theorem arrAt0 (c : Dev nD) :
    (dat0 (F := Ideal) V c).arrAt 3 cfg0.N
      = convFn0 (V c (Pipeline.arrRef spec0 0)) (V c (Pipeline.arrRef spec0 1)) (V c (Pipeline.arrRef spec0 2)) :=
  (dat0 V c).arrAt_eq_of_cover 3 _ (fun t _ => flushed0_eq V c t) cover0

end Array

end Cert.KernelIdeal.Net

end
-- ==== Proof.Net.Val1.lean ====
import proofs.«133004_j26104811225511_1_alg».proof.Proof.Net.Reg1
import proofs.«133004_j26104811225511_1_alg».proof.Proof.Net.Fn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Net

open Idealize.ShloMosaic Idealize.ShloMosaic.TcCoe Idealize.ShloMosaic.ValueIdx
open Cert.KernelIdeal Cert.KernelIdeal.Gen
open scoped BigOperators

theorem mm1_apply (A : FVec Ideal S16384x64 .bf16) (B : FVec Ideal S64x64 .bf16) (r : Fin 16384) (f : Fin 64) :
    matmul dot_S16384x64_S64x64_S16384x64_1_0_0_1_n_n none A B (constant (F := Ideal) S16384x64 .f32 0x00000000#32) (ix2 r f)
      = ∑ ch : Fin 64, A (ix2 r ch) * B (ix2 ch f) := by
  unfold matmul
  rw [Ideal.matmul_constant_zero_apply, ← Equiv.sum_comp (contrEquiv1 dot_S16384x64_S64x64_S16384x64_1_0_0_1_n_n 64 rfl rfl).symm]
  refine Finset.sum_congr rfl fun ch _ => ?_
  have hk := contrEquiv1_symm_val dot_S16384x64_S64x64_S16384x64_1_0_0_1_n_n 64 rfl rfl ch
  refine congrArg₂ (· * ·) (congrArg A (funext fun ax => Fin.ext ?_)) (congrArg B (funext fun ax => Fin.ext ?_))
  · match ax with
    | ⟨0, _⟩ => simp [DotDims.lhsIdx, dot_S16384x64_S64x64_S16384x64_1_0_0_1_n_n] <;> rfl
    | ⟨1, _⟩ => exact (dot_S16384x64_S64x64_S16384x64_1_0_0_1_n_n.lhsIdx_val_of_single (cl := 1) rfl _ _).trans hk
  · match ax with
    | ⟨0, _⟩ => exact (dot_S16384x64_S64x64_S16384x64_1_0_0_1_n_n.rhsIdx_val_of_single (cr := 0) rfl _ _).trans hk
    | ⟨1, _⟩ => simp [DotDims.rhsIdx, dot_S16384x64_S64x64_S16384x64_1_0_0_1_n_n] <;> rfl

def tapTerm1 (a : Vec Ideal S4x64x64x64 .f32) (w : Vec Ideal S64x64 .f32) : FVec Ideal S4x64x64x64 .f32 :=
  shapeCast S4x64x64x64
    (matmul dot_S16384x64_S64x64_S16384x64_1_0_0_1_n_n none
      (truncf .bf16 (shapeCast S16384x64
        (subf (shapeCast S4x64x64x64 a shapeCasts_S4x64x64x64_S4x64x64x64)
          (broadcast S4x64x64x64 (Scalar.ofBits .f32 0x44BB8000#32)))
        shapeCasts_S4x64x64x64_S16384x64) bitsLt_bf16_f32)
      (truncf .bf16 w bitsLt_bf16_f32)
      (constant S16384x64 .f32 0x00000000#32))
    shapeCasts_S16384x64_S4x64x64x64

abbrev row1 (b : Fin 4) (h x : Fin 64) : Fin 16384 := ⟨(b.val * 64 + h.val) * 64 + x.val, by omega⟩

-- Tap q reads the activations shifted by (q / 3, q % 3) and the weights' rows from q·64; position (b, h, x) is row (b·64 + h)·64 + x of the matrix.
theorem tap1_apply {x0 : Vec Ideal S4x66x66x64 .f32} {x1 : Vec Ideal S576x64 .f32} (dy dx o : ℕ) (q : Fin 9)
    (ey : q.val / 3 = dy) (ex : q.val % 3 = dx) (eo : q.val * 64 = o) {i0} {i1} {b : Fin 4} {h x : Fin 64} {f : Fin 64} :
    tapTerm1 (View.ld x0 (Rect.unit (s := S4x66x66x64) ![0, dy, dx, 0] S4x64x64x64.size i0))
        (View.ld x1 (Rect.unit (s := S576x64) ![o, 0] S64x64.size i1)) (ix4 b h x f)
      = ∑ ch : Fin 64, (x0 (ix4 b (Cert.Spec.tapRow h q) (Cert.Spec.tapCol x q) ch) - thr 0x44BB8000#32)
          * x1 (ix2 (Cert.Spec.tapW q ch) f) := by
  subst ey ex eo
  unfold tapTerm1
  refine (shapeCast_apply _ _ (ix4 b h x f) (ix2 (row1 b h x) f) ?_).trans ?_
  · rw [Shape.rowMajor_val_two, Shape.rowMajor_val_four]; rfl
  rw [mm1_apply]
  refine Finset.sum_congr rfl fun ch _ => ?_
  rw [truncf_apply, truncf_apply]
  refine congrArg₂ (· * ·) ((shapeCast_apply _ _ (ix2 (row1 b h x) ch) (ix4 b h x ch) ?_).trans ?_)
    (congrArg x1 (funext fun a => Fin.ext ?_))
  · rw [Shape.rowMajor_val_two, Shape.rowMajor_val_four]; rfl
  · rw [subf_apply, shapeCast_self, broadcast_apply]
    refine congrArg (· - thr 0x44BB8000#32) (congrArg x0 (funext fun a => Fin.ext ?_))
    match a with
    | ⟨0, _⟩ => show 0 + 1 * b.val = b.val; omega
    | ⟨1, _⟩ => show q.val / 3 + 1 * h.val = h.val + q.val / 3; omega
    | ⟨2, _⟩ => show q.val % 3 + 1 * x.val = x.val + q.val % 3; omega
    | ⟨3, _⟩ => show 0 + 1 * ch.val = ch.val; omega
  · match a with
    | ⟨0, _⟩ => show q.val * 64 + 1 * ch.val = q.val * 64 + ch.val; omega
    | ⟨1, _⟩ => show 0 + 1 * f.val = f.val; omega

theorem sum_nine1 {M : Type*} [AddCommMonoid M] (z : M) (hz : z = 0) (t : Fin 9 → M) :
    ((((((((z + t 0) + t 1) + t 2) + t 3) + t 4) + t 5) + t 6) + t 7) + t 8 = ∑ q : Fin 9, t q := by
  subst hz
  simp only [Fin.sum_univ_succ, Fin.sum_univ_zero, zero_add, add_zero, add_assoc]; rfl

-- The nine taps are added in order onto zero.
theorem acc1_apply (x0 : Vec Ideal S4x66x66x64 .f32) (x1 : Vec Ideal S576x64 .f32) (b : Fin 4) (h x : Fin 64) (f : Fin 64) :
    acc1 (F := Ideal) x0 x1 (ix4 b h x f)
      = ∑ q : Fin 9, ∑ ch : Fin 64, (x0 (ix4 b (Cert.Spec.tapRow h q) (Cert.Spec.tapCol x q) ch) - thr 0x44BB8000#32)
          * x1 (ix2 (Cert.Spec.tapW q ch) f) := by
  rw [← sum_nine1 _ Ideal.ofBits_zero_f32]
  show Ideal.ofBits .f32 0x00000000#32
      + tapTerm1 (View.ld x0 tap1_00) (View.ld x1 wrow1_0) (ix4 b h x f)
      + tapTerm1 (View.ld x0 tap1_01) (View.ld x1 wrow1_1) (ix4 b h x f)
      + tapTerm1 (View.ld x0 tap1_02) (View.ld x1 wrow1_2) (ix4 b h x f)
      + tapTerm1 (View.ld x0 tap1_10) (View.ld x1 wrow1_3) (ix4 b h x f)
      + tapTerm1 (View.ld x0 tap1_11) (View.ld x1 wrow1_4) (ix4 b h x f)
      + tapTerm1 (View.ld x0 tap1_12) (View.ld x1 wrow1_5) (ix4 b h x f)
      + tapTerm1 (View.ld x0 tap1_20) (View.ld x1 wrow1_6) (ix4 b h x f)
      + tapTerm1 (View.ld x0 tap1_21) (View.ld x1 wrow1_7) (ix4 b h x f)
      + tapTerm1 (View.ld x0 tap1_22) (View.ld x1 wrow1_8) (ix4 b h x f) = _
  rw [tap1_apply 0 0 0 0 rfl rfl rfl,
    tap1_apply 0 1 64 1 rfl rfl rfl,
    tap1_apply 0 2 128 2 rfl rfl rfl,
    tap1_apply 1 0 192 3 rfl rfl rfl,
    tap1_apply 1 1 256 4 rfl rfl rfl,
    tap1_apply 1 2 320 5 rfl rfl rfl,
    tap1_apply 2 0 384 6 rfl rfl rfl,
    tap1_apply 2 1 448 7 rfl rfl rfl,
    tap1_apply 2 2 512 8 rfl rfl rfl]

-- The upper threshold less the position's threshold is added and the result is clamped above.
theorem pay1_apply1 (acc : FVec Ideal S4x64x64x64 .f32) (dmv : Vec Ideal S64x64x64 .f32) (b : Fin 4) (h x : Fin 64) (f : Fin 64) :
    k1_pay1 (F := Ideal) acc (k1_pay5 dmv) (Scalar.ofBits .f32 0x453B8000#32) (ix4 b h x f)
      = min (acc (ix4 b h x f) + (thr 0x453B8000#32 - dmv (ix3 h x f))) (thr 0x453B8000#32) := by
  show min (acc (ix4 b h x f) + broadcastTo S4x64x64x64 (shapeCast S1x64x64x64
      (subf (broadcast S64x64x64 (Scalar.ofBits (F := Ideal) .f32 0x453B8000#32)) (shapeCast S64x64x64 dmv shapeCasts_S64x64x64_S64x64x64))
      shapeCasts_S64x64x64_S1x64x64x64) broadcasts_S1x64x64x64_S4x64x64x64 (ix4 b h x f)) (thr 0x453B8000#32) = _
  refine congrArg (fun s => min (acc (ix4 b h x f) + s) (thr 0x453B8000#32)) ?_
  refine (broadcastTo_apply _ _ (ix4 b h x f) (ix4 (0 : Fin 1) h x f) fun a => by fin_cases a <;> rfl).trans ?_
  rw [shapeCast_abc_1abc_apply, subf_apply, shapeCast_self, broadcast_apply]; rfl

theorem hz4_1 : (![0, 0, 0, 0] : Fin 4 → ℕ) = fun _ => 0 := funext fun a => by fin_cases a <;> rfl
theorem hz3_1 : (![0, 0, 0] : Fin 3 → ℕ) = fun _ => 0 := funext fun a => by fin_cases a <;> rfl

-- The block's element at (b, h, x, f) is the layer's function at batch row 4n + b of the whole arrays.
theorem block1_eq (X : Vec Ideal S32x66x66x64 .f32) (Wt : Vec Ideal S576x64 .f32) (Dm : Vec Ideal S64x64x64 .f32)
    (x0 : Vec Ideal S4x66x66x64 .f32) (n : ℕ)
    (h0 : ∀ (b : Fin 4) (h x : Fin 66) (ch : Fin 64) (b' : Fin 32), b'.val = 4 * n + b.val → x0 (ix4 b h x ch) = X (ix4 b' h x ch))
    (y : S4x64x64x64.Idx) (i : S32x64x64x64.Idx)
    (e0 : (i 0).val = 4 * n + (y 0).val) (e1 : i 1 = y 1) (e2 : i 2 = y 2) (e3 : i 3 = y 3) :
    out1_3 (F := Ideal) x0 Wt Dm y = convFn1 X Wt Dm i := by
  obtain ⟨b, h, x, f, rfl⟩ : ∃ (b : Fin 4) (h x : Fin 64) (f : Fin 64), y = ix4 b h x f := ⟨_, _, _, _, eq_ix4 y⟩
  unfold out1_3 convFn1 Cert.Spec.convAt
  rw [View.canon_unit_zero hz4_1, pay1_apply1, acc1_apply, View.ld_unit_zero (S := S64x64x64) hz3_1, e1, e2, e3]
  refine congrArg (fun s => min (s + (thr 0x453B8000#32 - Dm (ix3 h x f))) (thr 0x453B8000#32))
    (Finset.sum_congr rfl fun q _ => Finset.sum_congr rfl fun ch _ => ?_)
  exact congrArg (fun u => (u - thr 0x44BB8000#32) * Wt (ix2 (Cert.Spec.tapW q ch) f)) (h0 b _ _ ch (i 0) e0)

section Array
variable (V : (c : Dev nD) → (b : Ref sig .tc) → Buf (Elt Ideal) ((c : Thread nD τ).loc b))

theorem emb01 {n s : ℕ} (v : ℕ) (e : n = 0) : n * s + 1 * v = v := by subst e; omega
theorem mem01 {n s : ℕ} (v : Fin s) (e : n = 0) : n * s ≤ v.val ∧ v.val < n * s + s := by subst e; omega

theorem idx1_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

theorem iblk1_0_apply (c : Dev nD) (t : Fin cfg1.N) (b : Fin 4) (h x : Fin 66) (ch : Fin 64) (b' : Fin 32)
    (hb : b'.val = 4 * t.val + b.val) :
    (iblk1 V c 0 t : Vec Ideal S4x66x66x64 .f32) (ix4 b h x ch)
      = (V c (Pipeline.arrRef spec1 0) : Vec Ideal S32x66x66x64 .f32) (ix4 b' h x ch) := by
  obtain ⟨e0, e1, e2, e3, -⟩ := idx1_facts t
  refine congrArg (V c (Pipeline.arrRef spec1 0)) (funext fun a => Fin.ext ?_)
  match a with
  | ⟨0, _⟩ => show win1_0.index t (0 : Fin 4) * 4 + 1 * b.val = b'.val; omega
  | ⟨1, _⟩ => exact emb01 _ e1
  | ⟨2, _⟩ => exact emb01 _ e2
  | ⟨3, _⟩ => exact emb01 _ e3

theorem iblk1_1_eq (c : Dev nD) (t : Fin cfg1.N) :
    (iblk1 V c 1 t : Vec Ideal S576x64 .f32) = V c (Pipeline.arrRef spec1 1) :=
  funext fun j => congrArg (V c (Pipeline.arrRef spec1 1)) (funext fun a => Fin.ext (win1_1.rect_emb_val_of_index_zero t a
    ((by decide +kernel : ∀ t : Fin grid1.N, ∀ a, win1_1.index t a = 0) t a) j))
theorem iblk1_2_eq (c : Dev nD) (t : Fin cfg1.N) :
    (iblk1 V c 2 t : Vec Ideal S64x64x64 .f32) = V c (Pipeline.arrRef spec1 2) :=
  funext fun j => congrArg (V c (Pipeline.arrRef spec1 2)) (funext fun a => Fin.ext (win1_2.rect_emb_val_of_index_zero t a
    ((by decide +kernel : ∀ t : Fin grid1.N, ∀ a, win1_2.index t a = 0) t a) j))

theorem flushed1_eq (c : Dev nD) (t : Fin cfg1.N) :
    (dat1 (F := Ideal) V c).flushed 3 t
      = ((cfg1.win 3).blk t).view.read (Elt Ideal)
          (convFn1 (V c (Pipeline.arrRef spec1 0)) (V c (Pipeline.arrRef spec1 1)) (V c (Pipeline.arrRef spec1 2))) := by
  show (cfg1.win 3).cut (grid1.coords t) ((dat1 V c).after 3 t) = _
  rw [after1_3]
  obtain ⟨-, -, -, -, e0, e1, e2, e3⟩ := idx1_facts t
  funext j
  rw [View.read_apply]
  show out1_3 (F := Ideal) (iblk1 V c 0 t) (iblk1 V c 1 t) (iblk1 V c 2 t) j
    = convFn1 _ _ _ (((cfg1.win 3).blk t).view.emb j)
  rw [iblk1_1_eq, iblk1_2_eq]
  refine block1_eq _ _ _ _ t.val (iblk1_0_apply V c t) j _ ?_ (Fin.ext (emb01 _ e1)) (Fin.ext (emb01 _ e2)) (Fin.ext (emb01 _ e3))
  show win1_3.index t (0 : Fin 4) * 4 + 1 * (j 0).val = 4 * t.val + (j 0).val; omega

-- Grid point t covers rows 4t … 4t+3 of the result.
theorem cover1 (i : S32x64x64x64.Idx) :
    ∃ t : Fin cfg1.N, (cfg1.win 3).flush t = true ∧ i ∈ ((cfg1.win 3).blk t).view.set := by
  have hi0 : (i 0).val < 32 := (i 0).isLt
  have hN : cfg1.N = 8 := N_1
  obtain ⟨t, ht⟩ : ∃ t : Fin cfg1.N, t.val = (i 0).val / 4 := ⟨⟨(i 0).val / 4, by rw [hN]; omega⟩, rfl⟩
  obtain ⟨-, -, -, -, e0, e1, e2, e3⟩ := idx1_facts t
  refine ⟨t, flush1_3 t, ?_⟩
  show i ∈ ((View.whole main_v17).slice (win1_3.rect t)).set
  rw [View.set_slice_whole, Rect.mem_set_unit]
  intro a
  match a with
  | ⟨0, _⟩ => show win1_3.index t (0 : Fin 4) * 4 ≤ (i 0).val ∧ (i 0).val < win1_3.index t (0 : Fin 4) * 4 + 4; omega
  | ⟨1, _⟩ => exact mem01 (i 1) e1
  | ⟨2, _⟩ => exact mem01 (i 2) e2
  | ⟨3, _⟩ => exact mem01 (i 3) e3

theorem arrAt1 (c : Dev nD) :
    (dat1 (F := Ideal) V c).arrAt 3 cfg1.N
      = convFn1 (V c (Pipeline.arrRef spec1 0)) (V c (Pipeline.arrRef spec1 1)) (V c (Pipeline.arrRef spec1 2)) :=
  (dat1 V c).arrAt_eq_of_cover 3 _ (fun t _ => flushed1_eq V c t) cover1

end Array

end Cert.KernelIdeal.Net

end
-- ==== Proof.Net.Val2.lean ====
import proofs.«133004_j26104811225511_1_alg».proof.Proof.Net.Reg2
import proofs.«133004_j26104811225511_1_alg».proof.Proof.Net.Fn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Net

open Idealize.ShloMosaic Idealize.ShloMosaic.TcCoe Idealize.ShloMosaic.ValueIdx
open Cert.KernelIdeal Cert.KernelIdeal.Gen
open scoped BigOperators

theorem mm2_apply (A : FVec Ideal S4096x64 .bf16) (B : FVec Ideal S64x128 .bf16) (r : Fin 4096) (f : Fin 128) :
    matmul dot_S4096x64_S64x128_S4096x128_1_0_0_1_n_n none A B (constant (F := Ideal) S4096x128 .f32 0x00000000#32) (ix2 r f)
      = ∑ ch : Fin 64, A (ix2 r ch) * B (ix2 ch f) := by
  unfold matmul
  rw [Ideal.matmul_constant_zero_apply, ← Equiv.sum_comp (contrEquiv1 dot_S4096x64_S64x128_S4096x128_1_0_0_1_n_n 64 rfl rfl).symm]
  refine Finset.sum_congr rfl fun ch _ => ?_
  have hk := contrEquiv1_symm_val dot_S4096x64_S64x128_S4096x128_1_0_0_1_n_n 64 rfl rfl ch
  refine congrArg₂ (· * ·) (congrArg A (funext fun ax => Fin.ext ?_)) (congrArg B (funext fun ax => Fin.ext ?_))
  · match ax with
    | ⟨0, _⟩ => simp [DotDims.lhsIdx, dot_S4096x64_S64x128_S4096x128_1_0_0_1_n_n] <;> rfl
    | ⟨1, _⟩ => exact (dot_S4096x64_S64x128_S4096x128_1_0_0_1_n_n.lhsIdx_val_of_single (cl := 1) rfl _ _).trans hk
  · match ax with
    | ⟨0, _⟩ => exact (dot_S4096x64_S64x128_S4096x128_1_0_0_1_n_n.rhsIdx_val_of_single (cr := 0) rfl _ _).trans hk
    | ⟨1, _⟩ => simp [DotDims.rhsIdx, dot_S4096x64_S64x128_S4096x128_1_0_0_1_n_n] <;> rfl

def tapTerm2 (a : Vec Ideal S4x32x32x64 .f32) (w : Vec Ideal S64x128 .f32) : FVec Ideal S4x32x32x128 .f32 :=
  shapeCast S4x32x32x128
    (matmul dot_S4096x64_S64x128_S4096x128_1_0_0_1_n_n none
      (truncf .bf16 (shapeCast S4096x64
        (subf (shapeCast S4x32x32x64 a shapeCasts_S4x32x32x64_S4x32x32x64)
          (broadcast S4x32x32x64 (Scalar.ofBits .f32 0x453B8000#32)))
        shapeCasts_S4x32x32x64_S4096x64) bitsLt_bf16_f32)
      (truncf .bf16 w bitsLt_bf16_f32)
      (constant S4096x128 .f32 0x00000000#32))
    shapeCasts_S4096x128_S4x32x32x128

abbrev row2 (b : Fin 4) (h x : Fin 32) : Fin 4096 := ⟨(b.val * 32 + h.val) * 32 + x.val, by omega⟩

-- Tap q reads the activations shifted by (q / 3, q % 3) and the weights' rows from q·64; position (b, h, x) is row (b·32 + h)·32 + x of the matrix.
theorem tap2_apply {x0 : Vec Ideal S4x34x34x64 .f32} {x1 : Vec Ideal S576x128 .f32} (dy dx o : ℕ) (q : Fin 9)
    (ey : q.val / 3 = dy) (ex : q.val % 3 = dx) (eo : q.val * 64 = o) {i0} {i1} {b : Fin 4} {h x : Fin 32} {f : Fin 128} :
    tapTerm2 (View.ld x0 (Rect.unit (s := S4x34x34x64) ![0, dy, dx, 0] S4x32x32x64.size i0))
        (View.ld x1 (Rect.unit (s := S576x128) ![o, 0] S64x128.size i1)) (ix4 b h x f)
      = ∑ ch : Fin 64, (x0 (ix4 b (Cert.Spec.tapRow h q) (Cert.Spec.tapCol x q) ch) - thr 0x453B8000#32)
          * x1 (ix2 (Cert.Spec.tapW q ch) f) := by
  subst ey ex eo
  unfold tapTerm2
  refine (shapeCast_apply _ _ (ix4 b h x f) (ix2 (row2 b h x) f) ?_).trans ?_
  · rw [Shape.rowMajor_val_two, Shape.rowMajor_val_four]; rfl
  rw [mm2_apply]
  refine Finset.sum_congr rfl fun ch _ => ?_
  rw [truncf_apply, truncf_apply]
  refine congrArg₂ (· * ·) ((shapeCast_apply _ _ (ix2 (row2 b h x) ch) (ix4 b h x ch) ?_).trans ?_)
    (congrArg x1 (funext fun a => Fin.ext ?_))
  · rw [Shape.rowMajor_val_two, Shape.rowMajor_val_four]; rfl
  · rw [subf_apply, shapeCast_self, broadcast_apply]
    refine congrArg (· - thr 0x453B8000#32) (congrArg x0 (funext fun a => Fin.ext ?_))
    match a with
    | ⟨0, _⟩ => show 0 + 1 * b.val = b.val; omega
    | ⟨1, _⟩ => show q.val / 3 + 1 * h.val = h.val + q.val / 3; omega
    | ⟨2, _⟩ => show q.val % 3 + 1 * x.val = x.val + q.val % 3; omega
    | ⟨3, _⟩ => show 0 + 1 * ch.val = ch.val; omega
  · match a with
    | ⟨0, _⟩ => show q.val * 64 + 1 * ch.val = q.val * 64 + ch.val; omega
    | ⟨1, _⟩ => show 0 + 1 * f.val = f.val; omega

theorem sum_nine2 {M : Type*} [AddCommMonoid M] (z : M) (hz : z = 0) (t : Fin 9 → M) :
    ((((((((z + t 0) + t 1) + t 2) + t 3) + t 4) + t 5) + t 6) + t 7) + t 8 = ∑ q : Fin 9, t q := by
  subst hz
  simp only [Fin.sum_univ_succ, Fin.sum_univ_zero, zero_add, add_zero, add_assoc]; rfl

-- The nine taps are added in order onto zero.
theorem acc2_apply (x0 : Vec Ideal S4x34x34x64 .f32) (x1 : Vec Ideal S576x128 .f32) (b : Fin 4) (h x : Fin 32) (f : Fin 128) :
    acc2 (F := Ideal) x0 x1 (ix4 b h x f)
      = ∑ q : Fin 9, ∑ ch : Fin 64, (x0 (ix4 b (Cert.Spec.tapRow h q) (Cert.Spec.tapCol x q) ch) - thr 0x453B8000#32)
          * x1 (ix2 (Cert.Spec.tapW q ch) f) := by
  rw [← sum_nine2 _ Ideal.ofBits_zero_f32]
  show Ideal.ofBits .f32 0x00000000#32
      + tapTerm2 (View.ld x0 tap2_00) (View.ld x1 wrow2_0) (ix4 b h x f)
      + tapTerm2 (View.ld x0 tap2_01) (View.ld x1 wrow2_1) (ix4 b h x f)
      + tapTerm2 (View.ld x0 tap2_02) (View.ld x1 wrow2_2) (ix4 b h x f)
      + tapTerm2 (View.ld x0 tap2_10) (View.ld x1 wrow2_3) (ix4 b h x f)
      + tapTerm2 (View.ld x0 tap2_11) (View.ld x1 wrow2_4) (ix4 b h x f)
      + tapTerm2 (View.ld x0 tap2_12) (View.ld x1 wrow2_5) (ix4 b h x f)
      + tapTerm2 (View.ld x0 tap2_20) (View.ld x1 wrow2_6) (ix4 b h x f)
      + tapTerm2 (View.ld x0 tap2_21) (View.ld x1 wrow2_7) (ix4 b h x f)
      + tapTerm2 (View.ld x0 tap2_22) (View.ld x1 wrow2_8) (ix4 b h x f) = _
  rw [tap2_apply 0 0 0 0 rfl rfl rfl,
    tap2_apply 0 1 64 1 rfl rfl rfl,
    tap2_apply 0 2 128 2 rfl rfl rfl,
    tap2_apply 1 0 192 3 rfl rfl rfl,
    tap2_apply 1 1 256 4 rfl rfl rfl,
    tap2_apply 1 2 320 5 rfl rfl rfl,
    tap2_apply 2 0 384 6 rfl rfl rfl,
    tap2_apply 2 1 448 7 rfl rfl rfl,
    tap2_apply 2 2 512 8 rfl rfl rfl]

-- The upper threshold less the position's threshold is added and the result is clamped above.
theorem pay1_apply2 (acc : FVec Ideal S4x32x32x128 .f32) (dmv : Vec Ideal S32x32x128 .f32) (b : Fin 4) (h x : Fin 32) (f : Fin 128) :
    k2_pay1 (F := Ideal) acc (k2_pay5 dmv) (Scalar.ofBits .f32 0x458CA000#32) (ix4 b h x f)
      = min (acc (ix4 b h x f) + (thr 0x458CA000#32 - dmv (ix3 h x f))) (thr 0x458CA000#32) := by
  show min (acc (ix4 b h x f) + broadcastTo S4x32x32x128 (shapeCast S1x32x32x128
      (subf (broadcast S32x32x128 (Scalar.ofBits (F := Ideal) .f32 0x458CA000#32)) (shapeCast S32x32x128 dmv shapeCasts_S32x32x128_S32x32x128))
      shapeCasts_S32x32x128_S1x32x32x128) broadcasts_S1x32x32x128_S4x32x32x128 (ix4 b h x f)) (thr 0x458CA000#32) = _
  refine congrArg (fun s => min (acc (ix4 b h x f) + s) (thr 0x458CA000#32)) ?_
  refine (broadcastTo_apply _ _ (ix4 b h x f) (ix4 (0 : Fin 1) h x f) fun a => by fin_cases a <;> rfl).trans ?_
  rw [shapeCast_abc_1abc_apply, subf_apply, shapeCast_self, broadcast_apply]; rfl

theorem hz4_2 : (![0, 0, 0, 0] : Fin 4 → ℕ) = fun _ => 0 := funext fun a => by fin_cases a <;> rfl
theorem hz3_2 : (![0, 0, 0] : Fin 3 → ℕ) = fun _ => 0 := funext fun a => by fin_cases a <;> rfl

-- The block's element at (b, h, x, f) is the layer's function at batch row 4n + b of the whole arrays.
theorem block2_eq (X : Vec Ideal S32x34x34x64 .f32) (Wt : Vec Ideal S576x128 .f32) (Dm : Vec Ideal S32x32x128 .f32)
    (x0 : Vec Ideal S4x34x34x64 .f32) (n : ℕ)
    (h0 : ∀ (b : Fin 4) (h x : Fin 34) (ch : Fin 64) (b' : Fin 32), b'.val = 4 * n + b.val → x0 (ix4 b h x ch) = X (ix4 b' h x ch))
    (y : S4x32x32x128.Idx) (i : S32x32x32x128.Idx)
    (e0 : (i 0).val = 4 * n + (y 0).val) (e1 : i 1 = y 1) (e2 : i 2 = y 2) (e3 : i 3 = y 3) :
    out2_3 (F := Ideal) x0 Wt Dm y = convFn2 X Wt Dm i := by
  obtain ⟨b, h, x, f, rfl⟩ : ∃ (b : Fin 4) (h x : Fin 32) (f : Fin 128), y = ix4 b h x f := ⟨_, _, _, _, eq_ix4 y⟩
  unfold out2_3 convFn2 Cert.Spec.convAt
  rw [View.canon_unit_zero hz4_2, pay1_apply2, acc2_apply, View.ld_unit_zero (S := S32x32x128) hz3_2, e1, e2, e3]
  refine congrArg (fun s => min (s + (thr 0x458CA000#32 - Dm (ix3 h x f))) (thr 0x458CA000#32))
    (Finset.sum_congr rfl fun q _ => Finset.sum_congr rfl fun ch _ => ?_)
  exact congrArg (fun u => (u - thr 0x453B8000#32) * Wt (ix2 (Cert.Spec.tapW q ch) f)) (h0 b _ _ ch (i 0) e0)

section Array
variable (V : (c : Dev nD) → (b : Ref sig .tc) → Buf (Elt Ideal) ((c : Thread nD τ).loc b))

theorem emb02 {n s : ℕ} (v : ℕ) (e : n = 0) : n * s + 1 * v = v := by subst e; omega
theorem mem02 {n s : ℕ} (v : Fin s) (e : n = 0) : n * s ≤ v.val ∧ v.val < n * s + s := by subst e; omega

theorem idx2_facts : ∀ t : Fin cfg2.N,
    win2_0.index t (0 : Fin 4) = t.val ∧ win2_0.index t (1 : Fin 4) = 0 ∧ win2_0.index t (2 : Fin 4) = 0 ∧ win2_0.index t (3 : Fin 4) = 0
    ∧ win2_3.index t (0 : Fin 4) = t.val ∧ win2_3.index t (1 : Fin 4) = 0 ∧ win2_3.index t (2 : Fin 4) = 0 ∧ win2_3.index t (3 : Fin 4) = 0 :=
  (by decide +kernel : ∀ t : Fin grid2.N, _)

theorem iblk2_0_apply (c : Dev nD) (t : Fin cfg2.N) (b : Fin 4) (h x : Fin 34) (ch : Fin 64) (b' : Fin 32)
    (hb : b'.val = 4 * t.val + b.val) :
    (iblk2 V c 0 t : Vec Ideal S4x34x34x64 .f32) (ix4 b h x ch)
      = (V c (Pipeline.arrRef spec2 0) : Vec Ideal S32x34x34x64 .f32) (ix4 b' h x ch) := by
  obtain ⟨e0, e1, e2, e3, -⟩ := idx2_facts t
  refine congrArg (V c (Pipeline.arrRef spec2 0)) (funext fun a => Fin.ext ?_)
  match a with
  | ⟨0, _⟩ => show win2_0.index t (0 : Fin 4) * 4 + 1 * b.val = b'.val; omega
  | ⟨1, _⟩ => exact emb02 _ e1
  | ⟨2, _⟩ => exact emb02 _ e2
  | ⟨3, _⟩ => exact emb02 _ e3

theorem iblk2_1_eq (c : Dev nD) (t : Fin cfg2.N) :
    (iblk2 V c 1 t : Vec Ideal S576x128 .f32) = V c (Pipeline.arrRef spec2 1) :=
  funext fun j => congrArg (V c (Pipeline.arrRef spec2 1)) (funext fun a => Fin.ext (win2_1.rect_emb_val_of_index_zero t a
    ((by decide +kernel : ∀ t : Fin grid2.N, ∀ a, win2_1.index t a = 0) t a) j))
theorem iblk2_2_eq (c : Dev nD) (t : Fin cfg2.N) :
    (iblk2 V c 2 t : Vec Ideal S32x32x128 .f32) = V c (Pipeline.arrRef spec2 2) :=
  funext fun j => congrArg (V c (Pipeline.arrRef spec2 2)) (funext fun a => Fin.ext (win2_2.rect_emb_val_of_index_zero t a
    ((by decide +kernel : ∀ t : Fin grid2.N, ∀ a, win2_2.index t a = 0) t a) j))

theorem flushed2_eq (c : Dev nD) (t : Fin cfg2.N) :
    (dat2 (F := Ideal) V c).flushed 3 t
      = ((cfg2.win 3).blk t).view.read (Elt Ideal)
          (convFn2 (V c (Pipeline.arrRef spec2 0)) (V c (Pipeline.arrRef spec2 1)) (V c (Pipeline.arrRef spec2 2))) := by
  show (cfg2.win 3).cut (grid2.coords t) ((dat2 V c).after 3 t) = _
  rw [after2_3]
  obtain ⟨-, -, -, -, e0, e1, e2, e3⟩ := idx2_facts t
  funext j
  rw [View.read_apply]
  show out2_3 (F := Ideal) (iblk2 V c 0 t) (iblk2 V c 1 t) (iblk2 V c 2 t) j
    = convFn2 _ _ _ (((cfg2.win 3).blk t).view.emb j)
  rw [iblk2_1_eq, iblk2_2_eq]
  refine block2_eq _ _ _ _ t.val (iblk2_0_apply V c t) j _ ?_ (Fin.ext (emb02 _ e1)) (Fin.ext (emb02 _ e2)) (Fin.ext (emb02 _ e3))
  show win2_3.index t (0 : Fin 4) * 4 + 1 * (j 0).val = 4 * t.val + (j 0).val; omega

-- Grid point t covers rows 4t … 4t+3 of the result.
theorem cover2 (i : S32x32x32x128.Idx) :
    ∃ t : Fin cfg2.N, (cfg2.win 3).flush t = true ∧ i ∈ ((cfg2.win 3).blk t).view.set := by
  have hi0 : (i 0).val < 32 := (i 0).isLt
  have hN : cfg2.N = 8 := N_2
  obtain ⟨t, ht⟩ : ∃ t : Fin cfg2.N, t.val = (i 0).val / 4 := ⟨⟨(i 0).val / 4, by rw [hN]; omega⟩, rfl⟩
  obtain ⟨-, -, -, -, e0, e1, e2, e3⟩ := idx2_facts t
  refine ⟨t, flush2_3 t, ?_⟩
  show i ∈ ((View.whole main_v28).slice (win2_3.rect t)).set
  rw [View.set_slice_whole, Rect.mem_set_unit]
  intro a
  match a with
  | ⟨0, _⟩ => show win2_3.index t (0 : Fin 4) * 4 ≤ (i 0).val ∧ (i 0).val < win2_3.index t (0 : Fin 4) * 4 + 4; omega
  | ⟨1, _⟩ => exact mem02 (i 1) e1
  | ⟨2, _⟩ => exact mem02 (i 2) e2
  | ⟨3, _⟩ => exact mem02 (i 3) e3

theorem arrAt2 (c : Dev nD) :
    (dat2 (F := Ideal) V c).arrAt 3 cfg2.N
      = convFn2 (V c (Pipeline.arrRef spec2 0)) (V c (Pipeline.arrRef spec2 1)) (V c (Pipeline.arrRef spec2 2)) :=
  (dat2 V c).arrAt_eq_of_cover 3 _ (fun t _ => flushed2_eq V c t) cover2

end Array

end Cert.KernelIdeal.Net

end
-- ==== Proof.Net.Val3.lean ====
import proofs.«133004_j26104811225511_1_alg».proof.Proof.Net.Reg3
import proofs.«133004_j26104811225511_1_alg».proof.Proof.Net.Fn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Net

open Idealize.ShloMosaic Idealize.ShloMosaic.TcCoe Idealize.ShloMosaic.ValueIdx
open Cert.KernelIdeal Cert.KernelIdeal.Gen
open scoped BigOperators

theorem mm3_apply (A : FVec Ideal S4096x128 .bf16) (B : FVec Ideal S128x128 .bf16) (r : Fin 4096) (f : Fin 128) :
    matmul dot_S4096x128_S128x128_S4096x128_1_0_0_1_n_n none A B (constant (F := Ideal) S4096x128 .f32 0x00000000#32) (ix2 r f)
      = ∑ ch : Fin 128, A (ix2 r ch) * B (ix2 ch f) := by
  unfold matmul
  rw [Ideal.matmul_constant_zero_apply, ← Equiv.sum_comp (contrEquiv1 dot_S4096x128_S128x128_S4096x128_1_0_0_1_n_n 128 rfl rfl).symm]
  refine Finset.sum_congr rfl fun ch _ => ?_
  have hk := contrEquiv1_symm_val dot_S4096x128_S128x128_S4096x128_1_0_0_1_n_n 128 rfl rfl ch
  refine congrArg₂ (· * ·) (congrArg A (funext fun ax => Fin.ext ?_)) (congrArg B (funext fun ax => Fin.ext ?_))
  · match ax with
    | ⟨0, _⟩ => simp [DotDims.lhsIdx, dot_S4096x128_S128x128_S4096x128_1_0_0_1_n_n] <;> rfl
    | ⟨1, _⟩ => exact (dot_S4096x128_S128x128_S4096x128_1_0_0_1_n_n.lhsIdx_val_of_single (cl := 1) rfl _ _).trans hk
  · match ax with
    | ⟨0, _⟩ => exact (dot_S4096x128_S128x128_S4096x128_1_0_0_1_n_n.rhsIdx_val_of_single (cr := 0) rfl _ _).trans hk
    | ⟨1, _⟩ => simp [DotDims.rhsIdx, dot_S4096x128_S128x128_S4096x128_1_0_0_1_n_n] <;> rfl

def tapTerm3 (a : Vec Ideal S4x32x32x128 .f32) (w : Vec Ideal S128x128 .f32) : FVec Ideal S4x32x32x128 .f32 :=
  shapeCast S4x32x32x128
    (matmul dot_S4096x128_S128x128_S4096x128_1_0_0_1_n_n none
      (truncf .bf16 (shapeCast S4096x128
        (subf (shapeCast S4x32x32x128 a shapeCasts_S4x32x32x128_S4x32x32x128)
          (broadcast S4x32x32x128 (Scalar.ofBits .f32 0x458CA000#32)))
        shapeCasts_S4x32x32x128_S4096x128) bitsLt_bf16_f32)
      (truncf .bf16 w bitsLt_bf16_f32)
      (constant S4096x128 .f32 0x00000000#32))
    shapeCasts_S4096x128_S4x32x32x128

abbrev row3 (b : Fin 4) (h x : Fin 32) : Fin 4096 := ⟨(b.val * 32 + h.val) * 32 + x.val, by omega⟩

-- Tap q reads the activations shifted by (q / 3, q % 3) and the weights' rows from q·128; position (b, h, x) is row (b·32 + h)·32 + x of the matrix.
theorem tap3_apply {x0 : Vec Ideal S4x34x34x128 .f32} {x1 : Vec Ideal S1152x128 .f32} (dy dx o : ℕ) (q : Fin 9)
    (ey : q.val / 3 = dy) (ex : q.val % 3 = dx) (eo : q.val * 128 = o) {i0} {i1} {b : Fin 4} {h x : Fin 32} {f : Fin 128} :
    tapTerm3 (View.ld x0 (Rect.unit (s := S4x34x34x128) ![0, dy, dx, 0] S4x32x32x128.size i0))
        (View.ld x1 (Rect.unit (s := S1152x128) ![o, 0] S128x128.size i1)) (ix4 b h x f)
      = ∑ ch : Fin 128, (x0 (ix4 b (Cert.Spec.tapRow h q) (Cert.Spec.tapCol x q) ch) - thr 0x458CA000#32)
          * x1 (ix2 (Cert.Spec.tapW q ch) f) := by
  subst ey ex eo
  unfold tapTerm3
  refine (shapeCast_apply _ _ (ix4 b h x f) (ix2 (row3 b h x) f) ?_).trans ?_
  · rw [Shape.rowMajor_val_two, Shape.rowMajor_val_four]; rfl
  rw [mm3_apply]
  refine Finset.sum_congr rfl fun ch _ => ?_
  rw [truncf_apply, truncf_apply]
  refine congrArg₂ (· * ·) ((shapeCast_apply _ _ (ix2 (row3 b h x) ch) (ix4 b h x ch) ?_).trans ?_)
    (congrArg x1 (funext fun a => Fin.ext ?_))
  · rw [Shape.rowMajor_val_two, Shape.rowMajor_val_four]; rfl
  · rw [subf_apply, shapeCast_self, broadcast_apply]
    refine congrArg (· - thr 0x458CA000#32) (congrArg x0 (funext fun a => Fin.ext ?_))
    match a with
    | ⟨0, _⟩ => show 0 + 1 * b.val = b.val; omega
    | ⟨1, _⟩ => show q.val / 3 + 1 * h.val = h.val + q.val / 3; omega
    | ⟨2, _⟩ => show q.val % 3 + 1 * x.val = x.val + q.val % 3; omega
    | ⟨3, _⟩ => show 0 + 1 * ch.val = ch.val; omega
  · match a with
    | ⟨0, _⟩ => show q.val * 128 + 1 * ch.val = q.val * 128 + ch.val; omega
    | ⟨1, _⟩ => show 0 + 1 * f.val = f.val; omega

theorem sum_nine3 {M : Type*} [AddCommMonoid M] (z : M) (hz : z = 0) (t : Fin 9 → M) :
    ((((((((z + t 0) + t 1) + t 2) + t 3) + t 4) + t 5) + t 6) + t 7) + t 8 = ∑ q : Fin 9, t q := by
  subst hz
  simp only [Fin.sum_univ_succ, Fin.sum_univ_zero, zero_add, add_zero, add_assoc]; rfl

-- The nine taps are added in order onto zero.
theorem acc3_apply (x0 : Vec Ideal S4x34x34x128 .f32) (x1 : Vec Ideal S1152x128 .f32) (b : Fin 4) (h x : Fin 32) (f : Fin 128) :
    acc3 (F := Ideal) x0 x1 (ix4 b h x f)
      = ∑ q : Fin 9, ∑ ch : Fin 128, (x0 (ix4 b (Cert.Spec.tapRow h q) (Cert.Spec.tapCol x q) ch) - thr 0x458CA000#32)
          * x1 (ix2 (Cert.Spec.tapW q ch) f) := by
  rw [← sum_nine3 _ Ideal.ofBits_zero_f32]
  show Ideal.ofBits .f32 0x00000000#32
      + tapTerm3 (View.ld x0 tap3_00) (View.ld x1 wrow3_0) (ix4 b h x f)
      + tapTerm3 (View.ld x0 tap3_01) (View.ld x1 wrow3_1) (ix4 b h x f)
      + tapTerm3 (View.ld x0 tap3_02) (View.ld x1 wrow3_2) (ix4 b h x f)
      + tapTerm3 (View.ld x0 tap3_10) (View.ld x1 wrow3_3) (ix4 b h x f)
      + tapTerm3 (View.ld x0 tap3_11) (View.ld x1 wrow3_4) (ix4 b h x f)
      + tapTerm3 (View.ld x0 tap3_12) (View.ld x1 wrow3_5) (ix4 b h x f)
      + tapTerm3 (View.ld x0 tap3_20) (View.ld x1 wrow3_6) (ix4 b h x f)
      + tapTerm3 (View.ld x0 tap3_21) (View.ld x1 wrow3_7) (ix4 b h x f)
      + tapTerm3 (View.ld x0 tap3_22) (View.ld x1 wrow3_8) (ix4 b h x f) = _
  rw [tap3_apply 0 0 0 0 rfl rfl rfl,
    tap3_apply 0 1 128 1 rfl rfl rfl,
    tap3_apply 0 2 256 2 rfl rfl rfl,
    tap3_apply 1 0 384 3 rfl rfl rfl,
    tap3_apply 1 1 512 4 rfl rfl rfl,
    tap3_apply 1 2 640 5 rfl rfl rfl,
    tap3_apply 2 0 768 6 rfl rfl rfl,
    tap3_apply 2 1 896 7 rfl rfl rfl,
    tap3_apply 2 2 1024 8 rfl rfl rfl]

-- The upper threshold less the position's threshold is added and the result is clamped above.
theorem pay1_apply3 (acc : FVec Ideal S4x32x32x128 .f32) (dmv : Vec Ideal S32x32x128 .f32) (b : Fin 4) (h x : Fin 32) (f : Fin 128) :
    k3_pay1 (F := Ideal) acc (k3_pay5 dmv) (Scalar.ofBits .f32 0x45BB8000#32) (ix4 b h x f)
      = min (acc (ix4 b h x f) + (thr 0x45BB8000#32 - dmv (ix3 h x f))) (thr 0x45BB8000#32) := by
  show min (acc (ix4 b h x f) + broadcastTo S4x32x32x128 (shapeCast S1x32x32x128
      (subf (broadcast S32x32x128 (Scalar.ofBits (F := Ideal) .f32 0x45BB8000#32)) (shapeCast S32x32x128 dmv shapeCasts_S32x32x128_S32x32x128))
      shapeCasts_S32x32x128_S1x32x32x128) broadcasts_S1x32x32x128_S4x32x32x128 (ix4 b h x f)) (thr 0x45BB8000#32) = _
  refine congrArg (fun s => min (acc (ix4 b h x f) + s) (thr 0x45BB8000#32)) ?_
  refine (broadcastTo_apply _ _ (ix4 b h x f) (ix4 (0 : Fin 1) h x f) fun a => by fin_cases a <;> rfl).trans ?_
  rw [shapeCast_abc_1abc_apply, subf_apply, shapeCast_self, broadcast_apply]; rfl

theorem hz4_3 : (![0, 0, 0, 0] : Fin 4 → ℕ) = fun _ => 0 := funext fun a => by fin_cases a <;> rfl
theorem hz3_3 : (![0, 0, 0] : Fin 3 → ℕ) = fun _ => 0 := funext fun a => by fin_cases a <;> rfl

-- The block's element at (b, h, x, f) is the layer's function at batch row 4n + b of the whole arrays.
theorem block3_eq (X : Vec Ideal S32x34x34x128 .f32) (Wt : Vec Ideal S1152x128 .f32) (Dm : Vec Ideal S32x32x128 .f32)
    (x0 : Vec Ideal S4x34x34x128 .f32) (n : ℕ)
    (h0 : ∀ (b : Fin 4) (h x : Fin 34) (ch : Fin 128) (b' : Fin 32), b'.val = 4 * n + b.val → x0 (ix4 b h x ch) = X (ix4 b' h x ch))
    (y : S4x32x32x128.Idx) (i : S32x32x32x128.Idx)
    (e0 : (i 0).val = 4 * n + (y 0).val) (e1 : i 1 = y 1) (e2 : i 2 = y 2) (e3 : i 3 = y 3) :
    out3_3 (F := Ideal) x0 Wt Dm y = convFn3 X Wt Dm i := by
  obtain ⟨b, h, x, f, rfl⟩ : ∃ (b : Fin 4) (h x : Fin 32) (f : Fin 128), y = ix4 b h x f := ⟨_, _, _, _, eq_ix4 y⟩
  unfold out3_3 convFn3 Cert.Spec.convAt
  rw [View.canon_unit_zero hz4_3, pay1_apply3, acc3_apply, View.ld_unit_zero (S := S32x32x128) hz3_3, e1, e2, e3]
  refine congrArg (fun s => min (s + (thr 0x45BB8000#32 - Dm (ix3 h x f))) (thr 0x45BB8000#32))
    (Finset.sum_congr rfl fun q _ => Finset.sum_congr rfl fun ch _ => ?_)
  exact congrArg (fun u => (u - thr 0x458CA000#32) * Wt (ix2 (Cert.Spec.tapW q ch) f)) (h0 b _ _ ch (i 0) e0)

section Array
variable (V : (c : Dev nD) → (b : Ref sig .tc) → Buf (Elt Ideal) ((c : Thread nD τ).loc b))

theorem emb03 {n s : ℕ} (v : ℕ) (e : n = 0) : n * s + 1 * v = v := by subst e; omega
theorem mem03 {n s : ℕ} (v : Fin s) (e : n = 0) : n * s ≤ v.val ∧ v.val < n * s + s := by subst e; omega

theorem idx3_facts : ∀ t : Fin cfg3.N,
    win3_0.index t (0 : Fin 4) = t.val ∧ win3_0.index t (1 : Fin 4) = 0 ∧ win3_0.index t (2 : Fin 4) = 0 ∧ win3_0.index t (3 : Fin 4) = 0
    ∧ win3_3.index t (0 : Fin 4) = t.val ∧ win3_3.index t (1 : Fin 4) = 0 ∧ win3_3.index t (2 : Fin 4) = 0 ∧ win3_3.index t (3 : Fin 4) = 0 :=
  (by decide +kernel : ∀ t : Fin grid3.N, _)

theorem iblk3_0_apply (c : Dev nD) (t : Fin cfg3.N) (b : Fin 4) (h x : Fin 34) (ch : Fin 128) (b' : Fin 32)
    (hb : b'.val = 4 * t.val + b.val) :
    (iblk3 V c 0 t : Vec Ideal S4x34x34x128 .f32) (ix4 b h x ch)
      = (V c (Pipeline.arrRef spec3 0) : Vec Ideal S32x34x34x128 .f32) (ix4 b' h x ch) := by
  obtain ⟨e0, e1, e2, e3, -⟩ := idx3_facts t
  refine congrArg (V c (Pipeline.arrRef spec3 0)) (funext fun a => Fin.ext ?_)
  match a with
  | ⟨0, _⟩ => show win3_0.index t (0 : Fin 4) * 4 + 1 * b.val = b'.val; omega
  | ⟨1, _⟩ => exact emb03 _ e1
  | ⟨2, _⟩ => exact emb03 _ e2
  | ⟨3, _⟩ => exact emb03 _ e3

theorem iblk3_1_eq (c : Dev nD) (t : Fin cfg3.N) :
    (iblk3 V c 1 t : Vec Ideal S1152x128 .f32) = V c (Pipeline.arrRef spec3 1) :=
  funext fun j => congrArg (V c (Pipeline.arrRef spec3 1)) (funext fun a => Fin.ext (win3_1.rect_emb_val_of_index_zero t a
    ((by decide +kernel : ∀ t : Fin grid3.N, ∀ a, win3_1.index t a = 0) t a) j))
theorem iblk3_2_eq (c : Dev nD) (t : Fin cfg3.N) :
    (iblk3 V c 2 t : Vec Ideal S32x32x128 .f32) = V c (Pipeline.arrRef spec3 2) :=
  funext fun j => congrArg (V c (Pipeline.arrRef spec3 2)) (funext fun a => Fin.ext (win3_2.rect_emb_val_of_index_zero t a
    ((by decide +kernel : ∀ t : Fin grid3.N, ∀ a, win3_2.index t a = 0) t a) j))

theorem flushed3_eq (c : Dev nD) (t : Fin cfg3.N) :
    (dat3 (F := Ideal) V c).flushed 3 t
      = ((cfg3.win 3).blk t).view.read (Elt Ideal)
          (convFn3 (V c (Pipeline.arrRef spec3 0)) (V c (Pipeline.arrRef spec3 1)) (V c (Pipeline.arrRef spec3 2))) := by
  show (cfg3.win 3).cut (grid3.coords t) ((dat3 V c).after 3 t) = _
  rw [after3_3]
  obtain ⟨-, -, -, -, e0, e1, e2, e3⟩ := idx3_facts t
  funext j
  rw [View.read_apply]
  show out3_3 (F := Ideal) (iblk3 V c 0 t) (iblk3 V c 1 t) (iblk3 V c 2 t) j
    = convFn3 _ _ _ (((cfg3.win 3).blk t).view.emb j)
  rw [iblk3_1_eq, iblk3_2_eq]
  refine block3_eq _ _ _ _ t.val (iblk3_0_apply V c t) j _ ?_ (Fin.ext (emb03 _ e1)) (Fin.ext (emb03 _ e2)) (Fin.ext (emb03 _ e3))
  show win3_3.index t (0 : Fin 4) * 4 + 1 * (j 0).val = 4 * t.val + (j 0).val; omega

-- Grid point t covers rows 4t … 4t+3 of the result.
theorem cover3 (i : S32x32x32x128.Idx) :
    ∃ t : Fin cfg3.N, (cfg3.win 3).flush t = true ∧ i ∈ ((cfg3.win 3).blk t).view.set := by
  have hi0 : (i 0).val < 32 := (i 0).isLt
  have hN : cfg3.N = 8 := N_3
  obtain ⟨t, ht⟩ : ∃ t : Fin cfg3.N, t.val = (i 0).val / 4 := ⟨⟨(i 0).val / 4, by rw [hN]; omega⟩, rfl⟩
  obtain ⟨-, -, -, -, e0, e1, e2, e3⟩ := idx3_facts t
  refine ⟨t, flush3_3 t, ?_⟩
  show i ∈ ((View.whole main_v37).slice (win3_3.rect t)).set
  rw [View.set_slice_whole, Rect.mem_set_unit]
  intro a
  match a with
  | ⟨0, _⟩ => show win3_3.index t (0 : Fin 4) * 4 ≤ (i 0).val ∧ (i 0).val < win3_3.index t (0 : Fin 4) * 4 + 4; omega
  | ⟨1, _⟩ => exact mem03 (i 1) e1
  | ⟨2, _⟩ => exact mem03 (i 2) e2
  | ⟨3, _⟩ => exact mem03 (i 3) e3

theorem arrAt3 (c : Dev nD) :
    (dat3 (F := Ideal) V c).arrAt 3 cfg3.N
      = convFn3 (V c (Pipeline.arrRef spec3 0)) (V c (Pipeline.arrRef spec3 1)) (V c (Pipeline.arrRef spec3 2)) :=
  (dat3 V c).arrAt_eq_of_cover 3 _ (fun t _ => flushed3_eq V c t) cover3

end Array

end Cert.KernelIdeal.Net

end
-- ==== Proof.Net.Val4.lean ====
import proofs.«133004_j26104811225511_1_alg».proof.Proof.Net.Reg4
import proofs.«133004_j26104811225511_1_alg».proof.Proof.Net.Fn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Net

open Idealize.ShloMosaic Idealize.ShloMosaic.TcCoe Idealize.SL.Sem Idealize.ShloMosaic.ValueIdx
open Idealize.ShloMosaic.Pipeline (Dat)
open Cert.KernelIdeal Cert.KernelIdeal.Gen

theorem lhs4_0 (i : S32x256.Idx) (q : dot_S32x4096_S4096x256_S32x256_1_0_0_1_n_n.contr.Idx) :
    (dot_S32x4096_S4096x256_S32x256_1_0_0_1_n_n.lhsIdx i q 0).val = (i 0).val := by
  simp [DotDims.lhsIdx, dot_S32x4096_S4096x256_S32x256_1_0_0_1_n_n]; rfl

theorem rhs4_1 (i : S32x256.Idx) (q : dot_S32x4096_S4096x256_S32x256_1_0_0_1_n_n.contr.Idx) :
    (dot_S32x4096_S4096x256_S32x256_1_0_0_1_n_n.rhsIdx i q 1).val = (i 1).val := by
  simp [DotDims.rhsIdx, dot_S32x4096_S4096x256_S32x256_1_0_0_1_n_n]; rfl

theorem k4_pay1_apply (i : S32x256.Idx) : (k4_pay1 (F := Ideal)) i = 0 := by
  unfold k4_pay1
  rw [shapeCast_self]
  show Ideal.ofBits .f32 0x00000000#32 = 0
  exact Ideal.ofBits_zero_f32

theorem k4_pay2_apply (v3 : Vec Ideal S32x4096 .f32) (v8 : Vec Ideal S4096x256 .f32) (v10 : Vec Ideal S32x256 .f32)
    (b : Fin 32) (f : Fin 256) :
    k4_pay2 v3 v8 v10 (ix2 b f)
      = v10 (ix2 b f) + ∑ k : Fin 4096, (v3 (ix2 b k) - thr 0x45BB8000#32) * v8 (ix2 k f) := by
  unfold k4_pay2
  rw [shapeCast_self, shapeCast_self]
  simp only [matmul]
  rw [addf_apply, Ideal.matmul_constant_zero_apply,
    ← Equiv.sum_comp (contrEquiv1 dot_S32x4096_S4096x256_S32x256_1_0_0_1_n_n 4096 rfl rfl).symm]
  refine congrArg (v10 (ix2 b f) + ·) (Finset.sum_congr rfl fun k _ => ?_)
  have hk := contrEquiv1_symm_val dot_S32x4096_S4096x256_S32x256_1_0_0_1_n_n 4096 rfl rfl k
  have el : dot_S32x4096_S4096x256_S32x256_1_0_0_1_n_n.lhsIdx (ix2 b f)
      ((contrEquiv1 dot_S32x4096_S4096x256_S32x256_1_0_0_1_n_n 4096 rfl rfl).symm k) = ix2 b k :=
    Shape.idx_ext₂ (lhs4_0 _ _) ((dot_S32x4096_S4096x256_S32x256_1_0_0_1_n_n.lhsIdx_val_of_single rfl _ _).trans hk)
  have er : dot_S32x4096_S4096x256_S32x256_1_0_0_1_n_n.rhsIdx (ix2 b f)
      ((contrEquiv1 dot_S32x4096_S4096x256_S32x256_1_0_0_1_n_n 4096 rfl rfl).symm k) = ix2 k f :=
    Shape.idx_ext₂ ((dot_S32x4096_S4096x256_S32x256_1_0_0_1_n_n.rhsIdx_val_of_single rfl _ _).trans hk) (rhs4_1 _ _)
  rw [el, er]
  rfl

theorem k4_pay3_apply (v19 : Vec Ideal S32x256 .f32) (v20 : Vec Ideal S1x256 .f32) (b : Fin 32) (f : Fin 256) :
    k4_pay3 v19 v20 (ix2 b f)
      = min (v19 (ix2 b f) + (thr 0x45EA6000#32 - v20 (ix2 (0 : Fin 1) f))) (thr 0x45EA6000#32) := by
  unfold k4_pay3
  rw [shapeCast_self, minimumf_apply, addf_apply]
  rw [show broadcastTo S32x256 (subf (broadcast S1x256 (Scalar.ofBits .f32 0x45EA6000#32)) v20) broadcasts_S1x256_S32x256 (ix2 b f)
      = (subf (broadcast S1x256 (Scalar.ofBits .f32 0x45EA6000#32)) v20 : FVec Ideal S1x256 .f32) (ix2 (0 : Fin 1) f) from
    broadcastTo_1b_ab_apply _ _ b f]
  rfl

theorem idx_facts4 : ∀ t : Fin cfg4.N,
    win4_0.index t (0 : Fin 2) = 0 ∧ win4_0.index t (1 : Fin 2) = t.val
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

abbrev col4 (t : Fin cfg4.N) (k : Fin 4096) : Fin 32768 :=
  ⟨t.val * 4096 + k.val, by have := lt_of_lt_of_eq t.isLt N_4; have := k.isLt; omega⟩

section
variable (V : (c : Dev nD) → (b : Ref sig .tc) → Buf (Elt Ideal) ((c : Thread nD τ).loc b)) (c : Dev nD)

abbrev xs4 : Vec Ideal S32x32768 .f32 := V c (Pipeline.arrRef spec4 0)
abbrev ws4 : Vec Ideal S32768x256 .f32 := V c (Pipeline.arrRef spec4 1)
abbrev ds4 : Vec Ideal S1x256 .f32 := V c (Pipeline.arrRef spec4 2)

abbrev xb4 (t : Fin cfg4.N) : Vec Ideal S32x4096 .f32 := iblk4 V c 0 t
abbrev wb4 (t : Fin cfg4.N) : Vec Ideal S4096x256 .f32 := iblk4 V c 1 t
abbrev db4 (t : Fin cfg4.N) : Vec Ideal S1x256 .f32 := iblk4 V c 2 t

theorem xb4_apply (t : Fin cfg4.N) (b : Fin 32) (k : Fin 4096) :
    xb4 V c t (ix2 b k) = xs4 V c (ix2 b (col4 t k)) := by
  obtain ⟨e0, e1, -⟩ := idx_facts4 t
  exact congrArg (xs4 V c) (Shape.idx_ext₂ (win4_0.rect_emb_val_of_index_zero t 0 e0 _) ((win4_0.rect_emb_val t _ 1).trans (by rw [e1]; rfl)))

theorem wb4_apply (t : Fin cfg4.N) (k : Fin 4096) (f : Fin 256) :
    wb4 V c t (ix2 k f) = ws4 V c (ix2 (col4 t k) f) := by
  obtain ⟨-, -, e2, e3, -⟩ := idx_facts4 t
  exact congrArg (ws4 V c) (Shape.idx_ext₂ ((win4_1.rect_emb_val t _ 0).trans (by rw [e2]; rfl)) (win4_1.rect_emb_val_of_index_zero t 1 e3 _))

theorem db4_apply (t : Fin cfg4.N) (f : Fin 256) :
    db4 V c t (ix2 (0 : Fin 1) f) = ds4 V c (ix2 (0 : Fin 1) f) := by
  obtain ⟨-, -, -, -, e4, e5, -⟩ := idx_facts4 t
  exact congrArg (ds4 V c) (Shape.idx_ext₂ (win4_2.rect_emb_val_of_index_zero t 0 e4 _) (win4_2.rect_emb_val_of_index_zero t 1 e5 _))

def term4 (b : Fin 32) (f : Fin 256) (t : Fin cfg4.N) : EReal :=
  ∑ k : Fin 4096, (xs4 V c (ix2 b (col4 t k)) - thr 0x45BB8000#32) * ws4 V c (ix2 (col4 t k) f)

theorem prod4_apply (t : Fin cfg4.N) (b : Fin 32) (f : Fin 256) :
    (∑ k : Fin 4096, (xb4 V c t (ix2 b k) - thr 0x45BB8000#32) * wb4 V c t (ix2 k f)) = term4 V c b f t :=
  Finset.sum_congr rfl fun k _ => by rw [xb4_apply, wb4_apply]

theorem acc4_apply (b : Fin 32) (f : Fin 256) (n : Nat) :
    acc4 V c n (ix2 b f) = ∑ t ∈ Finset.range (n + 1), term4 V c b f (pt4 t) := by
  induction n with
  | zero =>
    rw [acc4_zero]
    refine (k4_pay2_apply (xb4 V c (pt4 0)) (wb4 V c (pt4 0)) _ b f).trans ?_
    rw [k4_pay1_apply, zero_add, prod4_apply, Finset.sum_range_one]
  | succ n ih =>
    rw [acc4_succ]
    refine (k4_pay2_apply (xb4 V c (pt4 (n + 1))) (wb4 V c (pt4 (n + 1))) _ b f).trans ?_
    rw [ih, prod4_apply]
    exact (Finset.sum_range_succ _ _).symm

theorem total4 (b : Fin 32) (f : Fin 256) :
    ∑ t ∈ Finset.range 8, term4 V c b f (pt4 t)
      = ∑ t : Fin 8, ∑ k : Fin 4096,
          (xs4 V c (ix2 b ⟨t.val * 4096 + k.val, by have := t.isLt; have := k.isLt; omega⟩) - thr 0x45BB8000#32)
            * ws4 V c (ix2 ⟨t.val * 4096 + k.val, by have := t.isLt; have := k.isLt; omega⟩ f) := by
  rw [Finset.sum_range]
  refine Finset.sum_congr rfl fun t _ => ?_
  unfold term4
  refine Finset.sum_congr rfl fun k _ => ?_
  have e : col4 (pt4 t.val) k = ⟨t.val * 4096 + k.val, by have := t.isLt; have := k.isLt; omega⟩ :=
    Fin.ext (by show t.val % 8 * 4096 + k.val = t.val * 4096 + k.val; rw [Nat.mod_eq_of_lt t.isLt])
  rw [e]

theorem out4_3_apply (b : Fin 32) (f : Fin 256) :
    out4_3 V c (ix2 b f) = denseFn4 (xs4 V c) (ws4 V c) (ds4 V c) (ix2 b f) := by
  unfold out4_3
  rw [View.canon_unit_zero hz2]
  refine (k4_pay3_apply _ (db4 V c (pt4 7)) b f).trans ?_
  rw [db4_apply, acc4_apply]
  exact congrArg (fun s => min (s + (thr 0x45EA6000#32 - ds4 V c (ix2 (0 : Fin 1) f))) (thr 0x45EA6000#32)) (total4 V c b f)

theorem flushed4_3 (t : Fin cfg4.N) :
    (dat4 V c).flushed 3 t = ((cfg4.win 3).blk t).view.read (Elt Ideal) (denseFn4 (xs4 V c) (ws4 V c) (ds4 V c)) := by
  show (cfg4.win 3).cut (grid4.coords t) ((dat4 V c).after 3 t) = _
  rw [after4_3]
  obtain ⟨-, -, -, -, -, -, e6, e7⟩ := idx_facts4 t
  funext j
  obtain ⟨b, f, rfl⟩ : ∃ (b : Fin 32) (f : Fin 256), j = ix2 b f := ⟨j 0, j 1, eq_ix2 j⟩
  show out4_3 V c (ix2 b f) = denseFn4 (xs4 V c) (ws4 V c) (ds4 V c) (((cfg4.win 3).blk t).view.emb (ix2 b f))
  rw [out4_3_apply]
  exact congrArg _ (Shape.idx_ext₂ (win4_3.rect_emb_val_of_index_zero t 0 e6 _).symm (win4_3.rect_emb_val_of_index_zero t 1 e7 _).symm)

theorem cover4_3 (i : S32x256.Idx) :
    ∃ t : Fin cfg4.N, (cfg4.win 3).flush t = true ∧ i ∈ ((cfg4.win 3).blk t).view.set := by
  refine ⟨pt4 7, (flush4_3 (pt4 7)).mpr rfl, ?_⟩
  obtain ⟨-, -, -, -, -, -, e6, e7⟩ := idx_facts4 (pt4 7)
  show i ∈ ((View.whole main_v42).slice (win4_3.rect (pt4 7))).set
  rw [View.set_slice_whole, Rect.mem_set_unit]
  intro a
  match a with
  | ⟨0, _⟩ =>
    show win4_3.index (pt4 7) (0 : Fin 2) * 32 ≤ (i 0).val ∧ (i 0).val < win4_3.index (pt4 7) (0 : Fin 2) * 32 + 32
    have := idx2_lt0 i; omega
  | ⟨1, _⟩ =>
    show win4_3.index (pt4 7) (1 : Fin 2) * 256 ≤ (i 1).val ∧ (i 1).val < win4_3.index (pt4 7) (1 : Fin 2) * 256 + 256
    have := idx2_lt1 i; omega

end

theorem arrAt4 (V : (c : Dev nD) → (b : Ref sig .tc) → Buf (Elt Ideal) ((c : Thread nD τ).loc b)) (c : Dev nD) :
    (dat4 (F := Ideal) V c).arrAt 3 cfg4.N = denseFn4 (V c (Pipeline.arrRef spec4 0)) (V c (Pipeline.arrRef spec4 1)) (V c (Pipeline.arrRef spec4 2)) :=
  (dat4 V c).arrAt_eq_of_cover 3 (denseFn4 (xs4 V c) (ws4 V c) (ds4 V c)) (fun t _ => flushed4_3 V c t) (cover4_3)

end Cert.KernelIdeal.Net

end
-- ==== Proof.Net.Val5.lean ====
import proofs.«133004_j26104811225511_1_alg».proof.Proof.Net.Reg5
import proofs.«133004_j26104811225511_1_alg».proof.Proof.Net.Fn
import Idealize.ShloMosaic.Lib.Pipeline.Value
import Idealize.ShloMosaic.Lib.ValueIdx
import Idealize.ShloMosaic.PureOps.Ideal.Laws

noncomputable section

namespace Cert.KernelIdeal.Net

open Idealize.ShloMosaic Idealize.ShloMosaic.TcCoe Idealize.ShloMosaic.ValueIdx
open Idealize.ShloMosaic.Pipeline (Dat)
open Cert.KernelIdeal Cert.KernelIdeal.Gen
open scoped BigOperators

theorem lhs5_0 (j : S32x10.Idx) (k : dot_S32x256_S256x10_S32x10_1_0_0_1_n_n.contr.Idx) :
    (dot_S32x256_S256x10_S32x10_1_0_0_1_n_n.lhsIdx j k 0 : ℕ) = j 0 := by
  simp [DotDims.lhsIdx, dot_S32x256_S256x10_S32x10_1_0_0_1_n_n]; rfl

theorem rhs5_1 (j : S32x10.Idx) (k : dot_S32x256_S256x10_S32x10_1_0_0_1_n_n.contr.Idx) :
    (dot_S32x256_S256x10_S32x10_1_0_0_1_n_n.rhsIdx j k 1 : ℕ) = j 1 := by
  simp [DotDims.rhsIdx, dot_S32x256_S256x10_S32x10_1_0_0_1_n_n]; rfl

theorem pay5_apply (x0 : Vec Ideal S32x256 .f32) (x1 : Vec Ideal S256x10 .f32) (x2 : Vec Ideal S1x10 .f32) (b : Fin 32) (f : Fin 10) :
    k5_pay1 (F := Ideal) x0 x1 x2 (ix2 b f)
      = x2 (ix2 (0 : Fin 1) f) + ∑ k : Fin 256, (thr 0x45EA6000#32 - x0 (ix2 b k)) * x1 (ix2 k f) := by
  unfold k5_pay1
  refine (addf_apply _ _ _).trans ?_
  refine congrArg₂ (· + ·) ?_ ?_
  · refine (broadcastTo_apply _ _ (ix2 b f) (ix2 (0 : Fin 1) f) ?_).trans ?_
    · intro a
      match a with
      | ⟨0, _⟩ => rfl
      | ⟨1, _⟩ => rfl
    · rw [shapeCast_self]
  · refine (Ideal.matmul_constant_zero_apply dot_S32x256_S256x10_S32x10_1_0_0_1_n_n none _ _ (ix2 b f)).trans ?_
    refine (Equiv.sum_comp (contrEquiv1 dot_S32x256_S256x10_S32x10_1_0_0_1_n_n 256 rfl rfl).symm _).symm.trans ?_
    refine Finset.sum_congr rfl fun k _ => ?_
    have hl : dot_S32x256_S256x10_S32x10_1_0_0_1_n_n.lhsIdx (ix2 b f)
        ((contrEquiv1 dot_S32x256_S256x10_S32x10_1_0_0_1_n_n 256 rfl rfl).symm k) = ix2 b k :=
      Shape.idx_ext₂ (lhs5_0 _ _) ((dot_S32x256_S256x10_S32x10_1_0_0_1_n_n.lhsIdx_val_of_single rfl _ _).trans (contrEquiv1_symm_val _ 256 rfl rfl k))
    have hr : dot_S32x256_S256x10_S32x10_1_0_0_1_n_n.rhsIdx (ix2 b f)
        ((contrEquiv1 dot_S32x256_S256x10_S32x10_1_0_0_1_n_n 256 rfl rfl).symm k) = ix2 k f :=
      Shape.idx_ext₂ ((dot_S32x256_S256x10_S32x10_1_0_0_1_n_n.rhsIdx_val_of_single rfl _ _).trans (contrEquiv1_symm_val _ 256 rfl rfl k)) (rhs5_1 _ _)
    show (Ideal.ofBits .f32 0x45EA6000#32 - shapeCast S32x256 x0 shapeCasts_S32x256_S32x256 _) * x1 _ = _
    rw [shapeCast_self, hl, hr]

theorem pay5_eq (x0 : Vec Ideal S32x256 .f32) (x1 : Vec Ideal S256x10 .f32) (x2 : Vec Ideal S1x10 .f32) :
    k5_pay1 (F := Ideal) x0 x1 x2 = outFn5 x0 x1 x2 := by
  funext j
  obtain ⟨b, f, rfl⟩ : ∃ (b : Fin 32) (f : Fin 10), j = ix2 b f := ⟨j 0, j 1, eq_ix2 j⟩
  rw [pay5_apply]
  rfl

variable (V : (c : Dev nD) → (b : Ref sig .tc) → Buf (Elt Ideal) ((c : Thread nD τ).loc b))

theorem hz5 : (![0, 0] : Fin 2 → Nat) = fun _ => 0 := funext fun a => by fin_cases a <;> rfl

theorem idx_facts5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

theorem iblk5_0_eq (c : Dev nD) (t : Fin cfg5.N) :
    (iblk5 V c 0 t : Vec Ideal S32x256 .f32) = (V c (Pipeline.arrRef spec5 0) : S32x256.Idx → Elt Ideal .f32) := by
  obtain ⟨e0, e1, -⟩ := idx_facts5 t
  exact funext fun y => congrArg (V c (Pipeline.arrRef spec5 0) : S32x256.Idx → Elt Ideal .f32)
    (Shape.idx_ext₂ (win5_0.rect_emb_val_of_index_zero t 0 e0 y) (win5_0.rect_emb_val_of_index_zero t 1 e1 y))

theorem iblk5_1_eq (c : Dev nD) (t : Fin cfg5.N) :
    (iblk5 V c 1 t : Vec Ideal S256x10 .f32) = (V c (Pipeline.arrRef spec5 1) : S256x10.Idx → Elt Ideal .f32) := by
  obtain ⟨-, -, e0, e1, -⟩ := idx_facts5 t
  exact funext fun y => congrArg (V c (Pipeline.arrRef spec5 1) : S256x10.Idx → Elt Ideal .f32)
    (Shape.idx_ext₂ (win5_1.rect_emb_val_of_index_zero t 0 e0 y) (win5_1.rect_emb_val_of_index_zero t 1 e1 y))

theorem iblk5_2_eq (c : Dev nD) (t : Fin cfg5.N) :
    (iblk5 V c 2 t : Vec Ideal S1x10 .f32) = (V c (Pipeline.arrRef spec5 2) : S1x10.Idx → Elt Ideal .f32) := by
  obtain ⟨-, -, -, -, e0, e1, -⟩ := idx_facts5 t
  exact funext fun y => congrArg (V c (Pipeline.arrRef spec5 2) : S1x10.Idx → Elt Ideal .f32)
    (Shape.idx_ext₂ (win5_2.rect_emb_val_of_index_zero t 0 e0 y) (win5_2.rect_emb_val_of_index_zero t 1 e1 y))

theorem flushed5_eq (c : Dev nD) (t : Fin cfg5.N) :
    (dat5 (F := Ideal) V c).flushed 3 t = ((cfg5.win 3).blk t).view.read (Elt Ideal)
      (outFn5 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S32x256) hz5, View.ld_unit_zero (S := S256x10) hz5, View.ld_unit_zero (S := S1x10) hz5]
  rw [iblk5_0_eq, iblk5_1_eq, iblk5_2_eq, pay5_eq]
  obtain ⟨-, -, -, -, -, -, e0, e1⟩ := idx_facts5 t
  exact funext fun j => congrArg (outFn5 _ _ _)
    (Shape.idx_ext₂ (win5_3.rect_emb_val_of_index_zero t 0 e0 j).symm (win5_3.rect_emb_val_of_index_zero t 1 e1 j).symm)

theorem cover5 (i : S32x10.Idx) : ∃ t : Fin cfg5.N, (cfg5.win 3).flush t = true ∧ i ∈ ((cfg5.win 3).blk t).view.set := by
  refine ⟨t5_0, flush5_3 t5_0, ?_⟩
  obtain ⟨-, -, -, -, -, -, e0, e1⟩ := idx_facts5 t5_0
  show i ∈ ((View.whole main_v44).slice (win5_3.rect t5_0)).set
  rw [View.set_slice_whole, Rect.mem_set_unit]
  intro a
  match a with
  | ⟨0, _⟩ =>
    show win5_3.index t5_0 (0 : Fin 2) * 32 ≤ (i 0).val ∧ (i 0).val < win5_3.index t5_0 (0 : Fin 2) * 32 + 32
    have := idx2_lt0 i; omega
  | ⟨1, _⟩ =>
    show win5_3.index t5_0 (1 : Fin 2) * 10 ≤ (i 1).val ∧ (i 1).val < win5_3.index t5_0 (1 : Fin 2) * 10 + 10
    have := idx2_lt1 i; omega

theorem arrAt5 (c : Dev nD) :
    (dat5 (F := Ideal) V c).arrAt 3 cfg5.N
      = outFn5 (V c (Pipeline.arrRef spec5 0)) (V c (Pipeline.arrRef spec5 1)) (V c (Pipeline.arrRef spec5 2)) :=
  (dat5 (F := Ideal) V c).arrAt_eq_of_cover 3 _ (fun t _ => flushed5_eq V c t) cover5

end Cert.KernelIdeal.Net

end
-- ==== Proof.Net.Chain.lean ====
import proofs.«133004_j26104811225511_1_alg».proof.Proof.Net.Run
import proofs.«133004_j26104811225511_1_alg».proof.Proof.Net.Val0
import proofs.«133004_j26104811225511_1_alg».proof.Proof.Net.Val1
import proofs.«133004_j26104811225511_1_alg».proof.Proof.Net.Val2
import proofs.«133004_j26104811225511_1_alg».proof.Proof.Net.Val3
import proofs.«133004_j26104811225511_1_alg».proof.Proof.Net.Val4
import proofs.«133004_j26104811225511_1_alg».proof.Proof.Net.Val5
import Idealize.ShloMosaic.Lib.StableHlo.Run

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

def kpad0 (x : Vec Ideal S32x64x64x1 .f32) : Vec Ideal S32x66x66x1 .f32 :=
  pad S32x66x66x1 ![0, 1, 1, 0] ![0, 1, 1, 0] ![0, 0, 0, 0] x (id (constant (F := Ideal) S_ .f32 0x00000000#32)) pads_S32x64x64x1_S32x66x66x1_000_110_110_000 h_S_

def kpad1 (x : Vec Ideal S32x64x64x64 .f32) : Vec Ideal S32x66x66x64 .f32 :=
  pad S32x66x66x64 ![0, 1, 1, 0] ![0, 1, 1, 0] ![0, 0, 0, 0] x (id (constant (F := Ideal) S_ .f32 0x44BB8000#32)) pads_S32x64x64x64_S32x66x66x64_000_110_110_000 h_S_

def kpad2 (x : Vec Ideal S32x32x32x64 .f32) : Vec Ideal S32x34x34x64 .f32 :=
  pad S32x34x34x64 ![0, 1, 1, 0] ![0, 1, 1, 0] ![0, 0, 0, 0] x (id (constant (F := Ideal) S_ .f32 0x453B8000#32)) pads_S32x32x32x64_S32x34x34x64_000_110_110_000 h_S_

def kpad3 (x : Vec Ideal S32x32x32x128 .f32) : Vec Ideal S32x34x34x128 .f32 :=
  pad S32x34x34x128 ![0, 1, 1, 0] ![0, 1, 1, 0] ![0, 0, 0, 0] x (id (constant (F := Ideal) S_ .f32 0x458CA000#32)) pads_S32x32x32x128_S32x34x34x128_000_110_110_000 h_S_

def kix64 (c : Vec Ideal S64x64 .i32) : Vec Ideal S64x64x1 .i32 :=
  broadcastInDim S64x64x1 ![0, 1] bcast_S64x64_S64x64x1_0_1
    (select (cmpi .slt c (broadcastInDim S64x64 ![] bcast_S_S64x64 (constantI S_ 32 0#32 : Vec Ideal S_ .i32)))
      (addi c (broadcastInDim S64x64 ![] bcast_S_S64x64 (constantI S_ 32 9#32 : Vec Ideal S_ .i32))) c)

def kix32 (c : Vec Ideal S32x32 .i32) : Vec Ideal S32x32x1 .i32 :=
  broadcastInDim S32x32x1 ![0, 1] bcast_S32x32_S32x32x1_0_1
    (select (cmpi .slt c (broadcastInDim S32x32 ![] bcast_S_S32x32 (constantI S_ 32 0#32 : Vec Ideal S_ .i32)))
      (addi c (broadcastInDim S32x32 ![] bcast_S_S32x32 (constantI S_ 32 9#32 : Vec Ideal S_ .i32))) c)

def kdm0 (t : Vec Ideal S9x64 .f32) : Vec Ideal S64x64x64 .f32 :=
  Host.gather gather_S9x64_S64x64x1_S64x64x64_2_0_n_n_0_2_164 t (kix64 fun i => lit0 (S64x64.rowMajor i))

def kdm1 (t : Vec Ideal S9x64 .f32) : Vec Ideal S64x64x64 .f32 :=
  Host.gather gather_S9x64_S64x64x1_S64x64x64_2_0_n_n_0_2_164 t (kix64 fun i => lit1 (S64x64.rowMajor i))

def kdm2 (t : Vec Ideal S9x128 .f32) : Vec Ideal S32x32x128 .f32 :=
  Host.gather gather_S9x128_S32x32x1_S32x32x128_2_0_n_n_0_2_1128 t (kix32 fun i => lit2 (S32x32.rowMajor i))

def kdm3 (t : Vec Ideal S9x128 .f32) : Vec Ideal S32x32x128 .f32 :=
  Host.gather gather_S9x128_S32x32x1_S32x32x128_2_0_n_n_0_2_1128 t (kix32 fun i => lit3 (S32x32.rowMajor i))

def kpoolA (x : Vec Ideal S32x64x64x64 .f32) : Vec Ideal S32x32x32x64 .f32 :=
  Host.reduce (FloatOps.maximumf (F := Ideal) (φ := .f32)) (shapeCast S32x32x2x32x2x64 x shapeCasts_S32x64x64x64_S32x32x2x32x2x64)
    (constant (F := Ideal) S_ .f32 0xFF800000#32) reducesTo_S32x32x2x32x2x64_S32x32x32x64_d2_4 h_S_

def kpoolB (x : Vec Ideal S32x32x32x128 .f32) : Vec Ideal S32x16x16x128 .f32 :=
  Host.reduce (FloatOps.maximumf (F := Ideal) (φ := .f32)) (shapeCast S32x16x2x16x2x128 x shapeCasts_S32x32x32x128_S32x16x2x16x2x128)
    (constant (F := Ideal) S_ .f32 0xFF800000#32) reducesTo_S32x16x2x16x2x128_S32x16x16x128_d2_4 h_S_

def kflat (x : Vec Ideal S32x16x16x128 .f32) : Vec Ideal S32x32768 .f32 :=
  shapeCast S32x32768 x shapeCasts_S32x16x16x128_S32x32768

def krow256 (x : Vec Ideal S256 .f32) : Vec Ideal S1x256 .f32 := shapeCast S1x256 x shapeCasts_S256_S1x256

def krow10 (x : Vec Ideal S10 .f32) : Vec Ideal S1x10 .f32 := shapeCast S1x10 x shapeCasts_S10_S1x10

def kNet (a0 : Vec Ideal S32x64x64x1 .f32) (a1 : Vec Ideal S9x64 .f32) (a2 : Vec Ideal S9x64 .f32)
    (a3 : Vec Ideal S576x64 .f32) (a4 : Vec Ideal S9x64 .f32) (a5 : Vec Ideal S576x128 .f32) (a6 : Vec Ideal S9x128 .f32)
    (a7 : Vec Ideal S1152x128 .f32) (a8 : Vec Ideal S9x128 .f32) (a9 : Vec Ideal S32768x256 .f32) (a10 : Vec Ideal S256 .f32)
    (a11 : Vec Ideal S256x10 .f32) (a12 : Vec Ideal S10 .f32) : Vec Ideal S32x10 .f32 :=
  outFn5 (denseFn4 (kflat (kpoolB (convFn3 (kpad3 (convFn2 (kpad2 (kpoolA (convFn1 (kpad1 (convFn0 (kpad0 a0) a1 (kdm0 a2))) a3 (kdm1 a4)))) a5 (kdm2 a6))) a7 (kdm3 a8)))) a9 (krow256 a10)) a11 (krow10 a12)

section Host
variable (V : Valuation τ sig (Elt Ideal))

theorem h0_c : StableHlo.after (hostOps0 (F := Ideal)) V (Proc.devRef .tc main_c) = fun i => lit0 (S64x64.rowMajor i) := by
  after_results; rfl
theorem h0_c_0 : StableHlo.after (hostOps0 (F := Ideal)) V (Proc.devRef .tc main_c_0) = fun i => lit1 (S64x64.rowMajor i) := by
  after_results; rfl
theorem h0_c_1 : StableHlo.after (hostOps0 (F := Ideal)) V (Proc.devRef .tc main_c_1) = fun i => lit2 (S32x32.rowMajor i) := by
  after_results; rfl
theorem h0_c_2 : StableHlo.after (hostOps0 (F := Ideal)) V (Proc.devRef .tc main_c_2) = fun i => lit3 (S32x32.rowMajor i) := by
  after_results; rfl
theorem h0_cst : StableHlo.after (hostOps0 (F := Ideal)) V (Proc.devRef .tc main_cst) = constant (F := Ideal) S_ .f32 0x00000000#32 := by
  after_results

theorem h01_v0 : StableHlo.after (hostOps0_1 (F := Ideal)) V (Proc.devRef .tc main_v0)
    = pad S32x66x66x1 ![0, 1, 1, 0] ![0, 1, 1, 0] ![0, 0, 0, 0] (V (Proc.devRef .tc main_arg0)) (id (V (Proc.devRef .tc main_cst))) pads_S32x64x64x1_S32x66x66x1_000_110_110_000 h_S_ := by
  after_results; rfl

theorem h11_v9 : StableHlo.after (hostOps1_1 (F := Ideal)) V (Proc.devRef .tc main_v9)
    = pad S32x66x66x64 ![0, 1, 1, 0] ![0, 1, 1, 0] ![0, 0, 0, 0] (V (Proc.devRef .tc main_v8)) (id (V (Proc.devRef .tc main_cst_5))) pads_S32x64x64x64_S32x66x66x64_000_110_110_000 h_S_ := by
  after_results; rfl

theorem h21_v20 : StableHlo.after (hostOps2_1 (F := Ideal)) V (Proc.devRef .tc main_v20)
    = pad S32x34x34x64 ![0, 1, 1, 0] ![0, 1, 1, 0] ![0, 0, 0, 0] (V (Proc.devRef .tc main_v19)) (id (V (Proc.devRef .tc main_cst_9))) pads_S32x32x32x64_S32x34x34x64_000_110_110_000 h_S_ := by
  after_results; rfl

theorem h31_v29 : StableHlo.after (hostOps3_1 (F := Ideal)) V (Proc.devRef .tc main_v29)
    = pad S32x34x34x128 ![0, 1, 1, 0] ![0, 1, 1, 0] ![0, 0, 0, 0] (V (Proc.devRef .tc main_v28)) (id (V (Proc.devRef .tc main_cst_12))) pads_S32x32x32x128_S32x34x34x128_000_110_110_000 h_S_ := by
  after_results; rfl

theorem h1_cst5 : StableHlo.after (hostOps1 (F := Ideal)) V (Proc.devRef .tc main_cst_5) = constant (F := Ideal) S_ .f32 0x44BB8000#32 := by
  after_results

theorem h2_cst9 : StableHlo.after (hostOps2 (F := Ideal)) V (Proc.devRef .tc main_cst_9) = constant (F := Ideal) S_ .f32 0x453B8000#32 := by
  after_results

theorem h3_cst12 : StableHlo.after (hostOps3 (F := Ideal)) V (Proc.devRef .tc main_cst_12) = constant (F := Ideal) S_ .f32 0x458CA000#32 := by
  after_results

theorem h02_v7 : StableHlo.after (hostOps0_2 (F := Ideal)) V (Proc.devRef .tc main_v7)
    = Host.gather gather_S9x64_S64x64x1_S64x64x64_2_0_n_n_0_2_164 (V (Proc.devRef .tc main_arg2)) (kix64 (V (Proc.devRef .tc main_c))) := by
  after_results; rfl

theorem h12_v16 : StableHlo.after (hostOps1_2 (F := Ideal)) V (Proc.devRef .tc main_v16)
    = Host.gather gather_S9x64_S64x64x1_S64x64x64_2_0_n_n_0_2_164 (V (Proc.devRef .tc main_arg4)) (kix64 (V (Proc.devRef .tc main_c_0))) := by
  after_results; rfl

theorem h22_v27 : StableHlo.after (hostOps2_2 (F := Ideal)) V (Proc.devRef .tc main_v27)
    = Host.gather gather_S9x128_S32x32x1_S32x32x128_2_0_n_n_0_2_1128 (V (Proc.devRef .tc main_arg6)) (kix32 (V (Proc.devRef .tc main_c_1))) := by
  after_results; rfl

theorem h32_v36 : StableHlo.after (hostOps3_2 (F := Ideal)) V (Proc.devRef .tc main_v36)
    = Host.gather gather_S9x128_S32x32x1_S32x32x128_2_0_n_n_0_2_1128 (V (Proc.devRef .tc main_arg8)) (kix32 (V (Proc.devRef .tc main_c_2))) := by
  after_results; rfl

theorem h2_v19 : StableHlo.after (hostOps2 (F := Ideal)) V (Proc.devRef .tc main_v19) = kpoolA (V (Proc.devRef .tc main_v17)) := by
  after_results; rfl
theorem h4_v40 : StableHlo.after (hostOps4 (F := Ideal)) V (Proc.devRef .tc main_v40) = kflat (kpoolB (V (Proc.devRef .tc main_v37))) := by
  after_results; rfl
theorem h4_v41 : StableHlo.after (hostOps4 (F := Ideal)) V (Proc.devRef .tc main_v41) = krow256 (V (Proc.devRef .tc main_arg10)) := by
  after_results; rfl
theorem h5_v43 : StableHlo.after (hostOps5 (F := Ideal)) V (Proc.devRef .tc main_v43) = krow10 (V (Proc.devRef .tc main_arg12)) := by
  after_results; rfl

end Host

section Run
variable (m : (ℓ : Loc nD τ sig) → Buf (Elt Ideal) ℓ) (ρ : Dev nD → PrngReg) (c : Dev nD)

theorem step1 (r : Ref sig .tc) (h : r ∉ hostOps0_W) : W1 m ρ c (Proc.devRef .tc r) = W0 m ρ c (Proc.devRef .tc r) :=
  StableHlo.after_of_writes_sub hostOps0 _ hostOps0_writes h
theorem step2 (r : Ref sig .tc) (h : r ∉ hostOps0_1_W) : W2 m ρ c (Proc.devRef .tc r) = W1 m ρ c (Proc.devRef .tc r) :=
  StableHlo.after_of_writes_sub hostOps0_1 _ hostOps0_1_writes h
theorem step3 (r : Ref sig .tc) (h : r ∉ hostOps0_2_W) : W3 m ρ c (Proc.devRef .tc r) = W2 m ρ c (Proc.devRef .tc r) :=
  StableHlo.after_of_writes_sub hostOps0_2 _ hostOps0_2_writes h
theorem step4 (r : Ref sig .tc) (h : r ≠ main_v8) : W4 m ρ c (Proc.devRef .tc r) = W3 m ρ c (Proc.devRef .tc r) :=
  W4_keep m ρ c r h
theorem step5 (r : Ref sig .tc) (h : r ∉ hostOps1_W) : W5 m ρ c (Proc.devRef .tc r) = W4 m ρ c (Proc.devRef .tc r) :=
  StableHlo.after_of_writes_sub hostOps1 _ hostOps1_writes h
theorem step6 (r : Ref sig .tc) (h : r ∉ hostOps1_1_W) : W6 m ρ c (Proc.devRef .tc r) = W5 m ρ c (Proc.devRef .tc r) :=
  StableHlo.after_of_writes_sub hostOps1_1 _ hostOps1_1_writes h
theorem step7 (r : Ref sig .tc) (h : r ∉ hostOps1_2_W) : W7 m ρ c (Proc.devRef .tc r) = W6 m ρ c (Proc.devRef .tc r) :=
  StableHlo.after_of_writes_sub hostOps1_2 _ hostOps1_2_writes h
theorem step8 (r : Ref sig .tc) (h : r ≠ main_v17) : W8 m ρ c (Proc.devRef .tc r) = W7 m ρ c (Proc.devRef .tc r) :=
  W8_keep m ρ c r h
theorem step9 (r : Ref sig .tc) (h : r ∉ hostOps2_W) : W9 m ρ c (Proc.devRef .tc r) = W8 m ρ c (Proc.devRef .tc r) :=
  StableHlo.after_of_writes_sub hostOps2 _ hostOps2_writes h
theorem step10 (r : Ref sig .tc) (h : r ∉ hostOps2_1_W) : W10 m ρ c (Proc.devRef .tc r) = W9 m ρ c (Proc.devRef .tc r) :=
  StableHlo.after_of_writes_sub hostOps2_1 _ hostOps2_1_writes h
theorem step11 (r : Ref sig .tc) (h : r ∉ hostOps2_2_W) : W11 m ρ c (Proc.devRef .tc r) = W10 m ρ c (Proc.devRef .tc r) :=
  StableHlo.after_of_writes_sub hostOps2_2 _ hostOps2_2_writes h
theorem step12 (r : Ref sig .tc) (h : r ≠ main_v28) : W12 m ρ c (Proc.devRef .tc r) = W11 m ρ c (Proc.devRef .tc r) :=
  W12_keep m ρ c r h
theorem step13 (r : Ref sig .tc) (h : r ∉ hostOps3_W) : W13 m ρ c (Proc.devRef .tc r) = W12 m ρ c (Proc.devRef .tc r) :=
  StableHlo.after_of_writes_sub hostOps3 _ hostOps3_writes h
theorem step14 (r : Ref sig .tc) (h : r ∉ hostOps3_1_W) : W14 m ρ c (Proc.devRef .tc r) = W13 m ρ c (Proc.devRef .tc r) :=
  StableHlo.after_of_writes_sub hostOps3_1 _ hostOps3_1_writes h
theorem step15 (r : Ref sig .tc) (h : r ∉ hostOps3_2_W) : W15 m ρ c (Proc.devRef .tc r) = W14 m ρ c (Proc.devRef .tc r) :=
  StableHlo.after_of_writes_sub hostOps3_2 _ hostOps3_2_writes h
theorem step16 (r : Ref sig .tc) (h : r ≠ main_v37) : W16 m ρ c (Proc.devRef .tc r) = W15 m ρ c (Proc.devRef .tc r) :=
  W16_keep m ρ c r h
theorem step17 (r : Ref sig .tc) (h : r ∉ hostOps4_W) : W17 m ρ c (Proc.devRef .tc r) = W16 m ρ c (Proc.devRef .tc r) :=
  StableHlo.after_of_writes_sub hostOps4 _ hostOps4_writes h
theorem step18 (r : Ref sig .tc) (h : r ≠ main_v42) : W18 m ρ c (Proc.devRef .tc r) = W17 m ρ c (Proc.devRef .tc r) :=
  W18_keep m ρ c r h
theorem step19 (r : Ref sig .tc) (h : r ∉ hostOps5_W) : W19 m ρ c (Proc.devRef .tc r) = W18 m ρ c (Proc.devRef .tc r) :=
  StableHlo.after_of_writes_sub hostOps5 _ hostOps5_writes h
theorem step20 (r : Ref sig .tc) (h : r ≠ main_v44) : W20 m ρ c (Proc.devRef .tc r) = W19 m ρ c (Proc.devRef .tc r) :=
  W20_keep m ρ c r h

theorem W2_v0 : W2 m ρ c (Proc.devRef .tc main_v0) = kpad0 (W0 m ρ c (Proc.devRef .tc main_arg0)) := by
  refine (h01_v0 (W1 m ρ c)).trans ?_
  have e1 : W1 m ρ c (Proc.devRef .tc main_cst) = constant (F := Ideal) S_ .f32 0x00000000#32 := h0_cst (W0 m ρ c)
  have e2 : W1 m ρ c (Proc.devRef .tc main_arg0) = W0 m ρ c (Proc.devRef .tc main_arg0) := (step1 m ρ c main_arg0 (by decide))
  rw [e1, e2]; rfl
theorem W3_v7 : W3 m ρ c (Proc.devRef .tc main_v7) = kdm0 (W0 m ρ c (Proc.devRef .tc main_arg2)) := by
  refine (h02_v7 (W2 m ρ c)).trans ?_
  have e1 : W2 m ρ c (Proc.devRef .tc main_arg2) = W0 m ρ c (Proc.devRef .tc main_arg2) := (step2 m ρ c main_arg2 (by decide)).trans (step1 m ρ c main_arg2 (by decide))
  have e2 : W2 m ρ c (Proc.devRef .tc main_c) = fun i => lit0 (S64x64.rowMajor i) := ((step2 m ρ c main_c (by decide))).trans (h0_c (W0 m ρ c))
  rw [e1, e2]; rfl

theorem W4_v8 : W4 m ρ c (Proc.devRef .tc main_v8) = convFn0 (kpad0 (W0 m ρ c (Proc.devRef .tc main_arg0))) (W0 m ρ c (Proc.devRef .tc main_arg1)) (kdm0 (W0 m ρ c (Proc.devRef .tc main_arg2))) := by
  refine (W4_arr m ρ c 3).trans ((arrAt0 (at3 m ρ) c).trans ?_)
  show convFn0 (W3 m ρ c (Proc.devRef .tc main_v0)) (W3 m ρ c (Proc.devRef .tc main_arg1)) (W3 m ρ c (Proc.devRef .tc main_v7)) = _
  have e0 : W3 m ρ c (Proc.devRef .tc main_v0) = kpad0 (W0 m ρ c (Proc.devRef .tc main_arg0)) := ((step3 m ρ c main_v0 (by decide))).trans (W2_v0 m ρ c)
  have e1 : W3 m ρ c (Proc.devRef .tc main_arg1) = W0 m ρ c (Proc.devRef .tc main_arg1) := (step3 m ρ c main_arg1 (by decide)).trans ((step2 m ρ c main_arg1 (by decide)).trans (step1 m ρ c main_arg1 (by decide)))
  rw [e0, e1, W3_v7 m ρ c]

theorem W6_v9 : W6 m ρ c (Proc.devRef .tc main_v9) = kpad1 (W4 m ρ c (Proc.devRef .tc main_v8)) := by
  refine (h11_v9 (W5 m ρ c)).trans ?_
  have e1 : W5 m ρ c (Proc.devRef .tc main_cst_5) = constant (F := Ideal) S_ .f32 0x44BB8000#32 := h1_cst5 (W4 m ρ c)
  have e2 : W5 m ρ c (Proc.devRef .tc main_v8) = W4 m ρ c (Proc.devRef .tc main_v8) := (step5 m ρ c main_v8 (by decide))
  rw [e1, e2]; rfl
theorem W7_v16 : W7 m ρ c (Proc.devRef .tc main_v16) = kdm1 (W0 m ρ c (Proc.devRef .tc main_arg4)) := by
  refine (h12_v16 (W6 m ρ c)).trans ?_
  have e1 : W6 m ρ c (Proc.devRef .tc main_arg4) = W0 m ρ c (Proc.devRef .tc main_arg4) := (step6 m ρ c main_arg4 (by decide)).trans ((step5 m ρ c main_arg4 (by decide)).trans ((step4 m ρ c main_arg4 (by decide)).trans ((step3 m ρ c main_arg4 (by decide)).trans ((step2 m ρ c main_arg4 (by decide)).trans (step1 m ρ c main_arg4 (by decide))))))
  have e2 : W6 m ρ c (Proc.devRef .tc main_c_0) = fun i => lit1 (S64x64.rowMajor i) := ((step6 m ρ c main_c_0 (by decide)).trans ((step5 m ρ c main_c_0 (by decide)).trans ((step4 m ρ c main_c_0 (by decide)).trans ((step3 m ρ c main_c_0 (by decide)).trans (step2 m ρ c main_c_0 (by decide)))))).trans (h0_c_0 (W0 m ρ c))
  rw [e1, e2]; rfl

theorem W8_v17 : W8 m ρ c (Proc.devRef .tc main_v17) = convFn1 (kpad1 (W4 m ρ c (Proc.devRef .tc main_v8))) (W0 m ρ c (Proc.devRef .tc main_arg3)) (kdm1 (W0 m ρ c (Proc.devRef .tc main_arg4))) := by
  refine (W8_arr m ρ c 3).trans ((arrAt1 (at7 m ρ) c).trans ?_)
  show convFn1 (W7 m ρ c (Proc.devRef .tc main_v9)) (W7 m ρ c (Proc.devRef .tc main_arg3)) (W7 m ρ c (Proc.devRef .tc main_v16)) = _
  have e0 : W7 m ρ c (Proc.devRef .tc main_v9) = kpad1 (W4 m ρ c (Proc.devRef .tc main_v8)) := ((step7 m ρ c main_v9 (by decide))).trans (W6_v9 m ρ c)
  have e1 : W7 m ρ c (Proc.devRef .tc main_arg3) = W0 m ρ c (Proc.devRef .tc main_arg3) := (step7 m ρ c main_arg3 (by decide)).trans ((step6 m ρ c main_arg3 (by decide)).trans ((step5 m ρ c main_arg3 (by decide)).trans ((step4 m ρ c main_arg3 (by decide)).trans ((step3 m ρ c main_arg3 (by decide)).trans ((step2 m ρ c main_arg3 (by decide)).trans (step1 m ρ c main_arg3 (by decide)))))))
  rw [e0, e1, W7_v16 m ρ c]

theorem W10_v20 : W10 m ρ c (Proc.devRef .tc main_v20) = kpad2 (kpoolA (W8 m ρ c (Proc.devRef .tc main_v17))) := by
  refine (h21_v20 (W9 m ρ c)).trans ?_
  have e1 : W9 m ρ c (Proc.devRef .tc main_cst_9) = constant (F := Ideal) S_ .f32 0x453B8000#32 := h2_cst9 (W8 m ρ c)
  have e2 : W9 m ρ c (Proc.devRef .tc main_v19) = kpoolA (W8 m ρ c (Proc.devRef .tc main_v17)) := h2_v19 (W8 m ρ c)
  rw [e1, e2]; rfl
theorem W11_v27 : W11 m ρ c (Proc.devRef .tc main_v27) = kdm2 (W0 m ρ c (Proc.devRef .tc main_arg6)) := by
  refine (h22_v27 (W10 m ρ c)).trans ?_
  have e1 : W10 m ρ c (Proc.devRef .tc main_arg6) = W0 m ρ c (Proc.devRef .tc main_arg6) := (step10 m ρ c main_arg6 (by decide)).trans ((step9 m ρ c main_arg6 (by decide)).trans ((step8 m ρ c main_arg6 (by decide)).trans ((step7 m ρ c main_arg6 (by decide)).trans ((step6 m ρ c main_arg6 (by decide)).trans ((step5 m ρ c main_arg6 (by decide)).trans ((step4 m ρ c main_arg6 (by decide)).trans ((step3 m ρ c main_arg6 (by decide)).trans ((step2 m ρ c main_arg6 (by decide)).trans (step1 m ρ c main_arg6 (by decide))))))))))
  have e2 : W10 m ρ c (Proc.devRef .tc main_c_1) = fun i => lit2 (S32x32.rowMajor i) := ((step10 m ρ c main_c_1 (by decide)).trans ((step9 m ρ c main_c_1 (by decide)).trans ((step8 m ρ c main_c_1 (by decide)).trans ((step7 m ρ c main_c_1 (by decide)).trans ((step6 m ρ c main_c_1 (by decide)).trans ((step5 m ρ c main_c_1 (by decide)).trans ((step4 m ρ c main_c_1 (by decide)).trans ((step3 m ρ c main_c_1 (by decide)).trans (step2 m ρ c main_c_1 (by decide)))))))))).trans (h0_c_1 (W0 m ρ c))
  rw [e1, e2]; rfl

theorem W12_v28 : W12 m ρ c (Proc.devRef .tc main_v28) = convFn2 (kpad2 (kpoolA (W8 m ρ c (Proc.devRef .tc main_v17)))) (W0 m ρ c (Proc.devRef .tc main_arg5)) (kdm2 (W0 m ρ c (Proc.devRef .tc main_arg6))) := by
  refine (W12_arr m ρ c 3).trans ((arrAt2 (at11 m ρ) c).trans ?_)
  show convFn2 (W11 m ρ c (Proc.devRef .tc main_v20)) (W11 m ρ c (Proc.devRef .tc main_arg5)) (W11 m ρ c (Proc.devRef .tc main_v27)) = _
  have e0 : W11 m ρ c (Proc.devRef .tc main_v20) = kpad2 (kpoolA (W8 m ρ c (Proc.devRef .tc main_v17))) := ((step11 m ρ c main_v20 (by decide))).trans (W10_v20 m ρ c)
  have e1 : W11 m ρ c (Proc.devRef .tc main_arg5) = W0 m ρ c (Proc.devRef .tc main_arg5) := (step11 m ρ c main_arg5 (by decide)).trans ((step10 m ρ c main_arg5 (by decide)).trans ((step9 m ρ c main_arg5 (by decide)).trans ((step8 m ρ c main_arg5 (by decide)).trans ((step7 m ρ c main_arg5 (by decide)).trans ((step6 m ρ c main_arg5 (by decide)).trans ((step5 m ρ c main_arg5 (by decide)).trans ((step4 m ρ c main_arg5 (by decide)).trans ((step3 m ρ c main_arg5 (by decide)).trans ((step2 m ρ c main_arg5 (by decide)).trans (step1 m ρ c main_arg5 (by decide)))))))))))
  rw [e0, e1, W11_v27 m ρ c]

theorem W14_v29 : W14 m ρ c (Proc.devRef .tc main_v29) = kpad3 (W12 m ρ c (Proc.devRef .tc main_v28)) := by
  refine (h31_v29 (W13 m ρ c)).trans ?_
  have e1 : W13 m ρ c (Proc.devRef .tc main_cst_12) = constant (F := Ideal) S_ .f32 0x458CA000#32 := h3_cst12 (W12 m ρ c)
  have e2 : W13 m ρ c (Proc.devRef .tc main_v28) = W12 m ρ c (Proc.devRef .tc main_v28) := (step13 m ρ c main_v28 (by decide))
  rw [e1, e2]; rfl
theorem W15_v36 : W15 m ρ c (Proc.devRef .tc main_v36) = kdm3 (W0 m ρ c (Proc.devRef .tc main_arg8)) := by
  refine (h32_v36 (W14 m ρ c)).trans ?_
  have e1 : W14 m ρ c (Proc.devRef .tc main_arg8) = W0 m ρ c (Proc.devRef .tc main_arg8) := (step14 m ρ c main_arg8 (by decide)).trans ((step13 m ρ c main_arg8 (by decide)).trans ((step12 m ρ c main_arg8 (by decide)).trans ((step11 m ρ c main_arg8 (by decide)).trans ((step10 m ρ c main_arg8 (by decide)).trans ((step9 m ρ c main_arg8 (by decide)).trans ((step8 m ρ c main_arg8 (by decide)).trans ((step7 m ρ c main_arg8 (by decide)).trans ((step6 m ρ c main_arg8 (by decide)).trans ((step5 m ρ c main_arg8 (by decide)).trans ((step4 m ρ c main_arg8 (by decide)).trans ((step3 m ρ c main_arg8 (by decide)).trans ((step2 m ρ c main_arg8 (by decide)).trans (step1 m ρ c main_arg8 (by decide))))))))))))))
  have e2 : W14 m ρ c (Proc.devRef .tc main_c_2) = fun i => lit3 (S32x32.rowMajor i) := ((step14 m ρ c main_c_2 (by decide)).trans ((step13 m ρ c main_c_2 (by decide)).trans ((step12 m ρ c main_c_2 (by decide)).trans ((step11 m ρ c main_c_2 (by decide)).trans ((step10 m ρ c main_c_2 (by decide)).trans ((step9 m ρ c main_c_2 (by decide)).trans ((step8 m ρ c main_c_2 (by decide)).trans ((step7 m ρ c main_c_2 (by decide)).trans ((step6 m ρ c main_c_2 (by decide)).trans ((step5 m ρ c main_c_2 (by decide)).trans ((step4 m ρ c main_c_2 (by decide)).trans ((step3 m ρ c main_c_2 (by decide)).trans (step2 m ρ c main_c_2 (by decide)))))))))))))).trans (h0_c_2 (W0 m ρ c))
  rw [e1, e2]; rfl

theorem W16_v37 : W16 m ρ c (Proc.devRef .tc main_v37) = convFn3 (kpad3 (W12 m ρ c (Proc.devRef .tc main_v28))) (W0 m ρ c (Proc.devRef .tc main_arg7)) (kdm3 (W0 m ρ c (Proc.devRef .tc main_arg8))) := by
  refine (W16_arr m ρ c 3).trans ((arrAt3 (at15 m ρ) c).trans ?_)
  show convFn3 (W15 m ρ c (Proc.devRef .tc main_v29)) (W15 m ρ c (Proc.devRef .tc main_arg7)) (W15 m ρ c (Proc.devRef .tc main_v36)) = _
  have e0 : W15 m ρ c (Proc.devRef .tc main_v29) = kpad3 (W12 m ρ c (Proc.devRef .tc main_v28)) := ((step15 m ρ c main_v29 (by decide))).trans (W14_v29 m ρ c)
  have e1 : W15 m ρ c (Proc.devRef .tc main_arg7) = W0 m ρ c (Proc.devRef .tc main_arg7) := (step15 m ρ c main_arg7 (by decide)).trans ((step14 m ρ c main_arg7 (by decide)).trans ((step13 m ρ c main_arg7 (by decide)).trans ((step12 m ρ c main_arg7 (by decide)).trans ((step11 m ρ c main_arg7 (by decide)).trans ((step10 m ρ c main_arg7 (by decide)).trans ((step9 m ρ c main_arg7 (by decide)).trans ((step8 m ρ c main_arg7 (by decide)).trans ((step7 m ρ c main_arg7 (by decide)).trans ((step6 m ρ c main_arg7 (by decide)).trans ((step5 m ρ c main_arg7 (by decide)).trans ((step4 m ρ c main_arg7 (by decide)).trans ((step3 m ρ c main_arg7 (by decide)).trans ((step2 m ρ c main_arg7 (by decide)).trans (step1 m ρ c main_arg7 (by decide)))))))))))))))
  rw [e0, e1, W15_v36 m ρ c]

theorem W17_v40 : W17 m ρ c (Proc.devRef .tc main_v40) = kflat (kpoolB (W16 m ρ c (Proc.devRef .tc main_v37))) := h4_v40 (W16 m ρ c)
theorem W17_v41 : W17 m ρ c (Proc.devRef .tc main_v41) = krow256 (W0 m ρ c (Proc.devRef .tc main_arg10)) := by
  refine (h4_v41 (W16 m ρ c)).trans ?_
  have e1 : W16 m ρ c (Proc.devRef .tc main_arg10) = W0 m ρ c (Proc.devRef .tc main_arg10) := (step16 m ρ c main_arg10 (by decide)).trans ((step15 m ρ c main_arg10 (by decide)).trans ((step14 m ρ c main_arg10 (by decide)).trans ((step13 m ρ c main_arg10 (by decide)).trans ((step12 m ρ c main_arg10 (by decide)).trans ((step11 m ρ c main_arg10 (by decide)).trans ((step10 m ρ c main_arg10 (by decide)).trans ((step9 m ρ c main_arg10 (by decide)).trans ((step8 m ρ c main_arg10 (by decide)).trans ((step7 m ρ c main_arg10 (by decide)).trans ((step6 m ρ c main_arg10 (by decide)).trans ((step5 m ρ c main_arg10 (by decide)).trans ((step4 m ρ c main_arg10 (by decide)).trans ((step3 m ρ c main_arg10 (by decide)).trans ((step2 m ρ c main_arg10 (by decide)).trans (step1 m ρ c main_arg10 (by decide))))))))))))))))
  rw [e1]
theorem W18_v42 : W18 m ρ c (Proc.devRef .tc main_v42) = denseFn4 (kflat (kpoolB (W16 m ρ c (Proc.devRef .tc main_v37)))) (W0 m ρ c (Proc.devRef .tc main_arg9)) (krow256 (W0 m ρ c (Proc.devRef .tc main_arg10))) := by
  refine (W18_arr m ρ c 3).trans ((arrAt4 (at17 m ρ) c).trans ?_)
  show denseFn4 (W17 m ρ c (Proc.devRef .tc main_v40)) (W17 m ρ c (Proc.devRef .tc main_arg9)) (W17 m ρ c (Proc.devRef .tc main_v41)) = _
  have e1 : W17 m ρ c (Proc.devRef .tc main_arg9) = W0 m ρ c (Proc.devRef .tc main_arg9) := (step17 m ρ c main_arg9 (by decide)).trans ((step16 m ρ c main_arg9 (by decide)).trans ((step15 m ρ c main_arg9 (by decide)).trans ((step14 m ρ c main_arg9 (by decide)).trans ((step13 m ρ c main_arg9 (by decide)).trans ((step12 m ρ c main_arg9 (by decide)).trans ((step11 m ρ c main_arg9 (by decide)).trans ((step10 m ρ c main_arg9 (by decide)).trans ((step9 m ρ c main_arg9 (by decide)).trans ((step8 m ρ c main_arg9 (by decide)).trans ((step7 m ρ c main_arg9 (by decide)).trans ((step6 m ρ c main_arg9 (by decide)).trans ((step5 m ρ c main_arg9 (by decide)).trans ((step4 m ρ c main_arg9 (by decide)).trans ((step3 m ρ c main_arg9 (by decide)).trans ((step2 m ρ c main_arg9 (by decide)).trans (step1 m ρ c main_arg9 (by decide)))))))))))))))))
  rw [W17_v40 m ρ c, e1, W17_v41 m ρ c]

theorem W19_v43 : W19 m ρ c (Proc.devRef .tc main_v43) = krow10 (W0 m ρ c (Proc.devRef .tc main_arg12)) := by
  refine (h5_v43 (W18 m ρ c)).trans ?_
  have e1 : W18 m ρ c (Proc.devRef .tc main_arg12) = W0 m ρ c (Proc.devRef .tc main_arg12) := (step18 m ρ c main_arg12 (by decide)).trans ((step17 m ρ c main_arg12 (by decide)).trans ((step16 m ρ c main_arg12 (by decide)).trans ((step15 m ρ c main_arg12 (by decide)).trans ((step14 m ρ c main_arg12 (by decide)).trans ((step13 m ρ c main_arg12 (by decide)).trans ((step12 m ρ c main_arg12 (by decide)).trans ((step11 m ρ c main_arg12 (by decide)).trans ((step10 m ρ c main_arg12 (by decide)).trans ((step9 m ρ c main_arg12 (by decide)).trans ((step8 m ρ c main_arg12 (by decide)).trans ((step7 m ρ c main_arg12 (by decide)).trans ((step6 m ρ c main_arg12 (by decide)).trans ((step5 m ρ c main_arg12 (by decide)).trans ((step4 m ρ c main_arg12 (by decide)).trans ((step3 m ρ c main_arg12 (by decide)).trans ((step2 m ρ c main_arg12 (by decide)).trans (step1 m ρ c main_arg12 (by decide))))))))))))))))))
  rw [e1]
theorem W20_v44 : W20 m ρ c (Proc.devRef .tc main_v44) = outFn5 (W18 m ρ c (Proc.devRef .tc main_v42)) (W0 m ρ c (Proc.devRef .tc main_arg11)) (krow10 (W0 m ρ c (Proc.devRef .tc main_arg12))) := by
  refine (W20_arr m ρ c 3).trans ((arrAt5 (at19 m ρ) c).trans ?_)
  show outFn5 (W19 m ρ c (Proc.devRef .tc main_v42)) (W19 m ρ c (Proc.devRef .tc main_arg11)) (W19 m ρ c (Proc.devRef .tc main_v43)) = _
  have e0 : W19 m ρ c (Proc.devRef .tc main_v42) = W18 m ρ c (Proc.devRef .tc main_v42) := (step19 m ρ c main_v42 (by decide))
  have e1 : W19 m ρ c (Proc.devRef .tc main_arg11) = W0 m ρ c (Proc.devRef .tc main_arg11) := (step19 m ρ c main_arg11 (by decide)).trans ((step18 m ρ c main_arg11 (by decide)).trans ((step17 m ρ c main_arg11 (by decide)).trans ((step16 m ρ c main_arg11 (by decide)).trans ((step15 m ρ c main_arg11 (by decide)).trans ((step14 m ρ c main_arg11 (by decide)).trans ((step13 m ρ c main_arg11 (by decide)).trans ((step12 m ρ c main_arg11 (by decide)).trans ((step11 m ρ c main_arg11 (by decide)).trans ((step10 m ρ c main_arg11 (by decide)).trans ((step9 m ρ c main_arg11 (by decide)).trans ((step8 m ρ c main_arg11 (by decide)).trans ((step7 m ρ c main_arg11 (by decide)).trans ((step6 m ρ c main_arg11 (by decide)).trans ((step5 m ρ c main_arg11 (by decide)).trans ((step4 m ρ c main_arg11 (by decide)).trans ((step3 m ρ c main_arg11 (by decide)).trans ((step2 m ρ c main_arg11 (by decide)).trans (step1 m ρ c main_arg11 (by decide)))))))))))))))))))
  rw [e0, e1, W19_v43 m ρ c]

end Run

theorem W20_result (m : (ℓ : Loc nD τ sig) → Buf (Elt Ideal) ℓ) (ρ : Dev nD → PrngReg) (c : Dev nD) :
    W20 (F := Ideal) m ρ c (Proc.devRef .tc main_v44)
      = kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W20_v44, W18_v42, W16_v37, W12_v28, W8_v17, W4_v8]; rfl

end Cert.KernelIdeal.Net

end
-- ==== Proof.Ref.Ops.lean ====
import proofs.«133004_j26104811225511_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The four index tables and the first convolution layer. -/
abbrev opsA : List (HloOp τ sig (Elt F)) :=
  [ nullary main_c (fun i => lit0 (S64x64.rowMajor i)),
    nullary main_c_0 (fun i => lit1 (S64x64.rowMajor i)),
    nullary main_c_1 (fun i => lit2 (S32x32.rowMajor i)),
    nullary main_c_2 (fun i => lit3 (S32x32.rowMajor i)),
    nullary main_cst (constant S_ .f32 0x00000000#32),
    TRef.unary (.of main_cst : TRef sig ⟨S_, .f32⟩) main_call0.v0 id,
    TRef.binary (.of main_arg0 : TRef sig ⟨S32x64x64x1, .f32⟩) main_call0.v0 main_call0.v1 (fun x v => pad S32x66x66x1 ![0, 1, 1, 0] ![0, 1, 1, 0] ![0, 0, 0, 0] x v pads_S32x64x64x1_S32x66x66x1_000_110_110_000 h_S_),
    unary main_v0 main_v1 (extractStridedSlice S32x64x64x1 ![0, 0, 0, 0] · slices_S32x66x66x1_S32x64x64x1_0_0_0_0),
    unary main_v0 main_v2 (extractStridedSlice S32x64x64x1 ![0, 0, 1, 0] · slices_S32x66x66x1_S32x64x64x1_0_0_1_0),
    unary main_v0 main_v3 (extractStridedSlice S32x64x64x1 ![0, 0, 2, 0] · slices_S32x66x66x1_S32x64x64x1_0_0_2_0),
    unary main_v0 main_v4 (extractStridedSlice S32x64x64x1 ![0, 1, 0, 0] · slices_S32x66x66x1_S32x64x64x1_0_1_0_0),
    unary main_v0 main_v5 (extractStridedSlice S32x64x64x1 ![0, 1, 1, 0] · slices_S32x66x66x1_S32x64x64x1_0_1_1_0),
    unary main_v0 main_v6 (extractStridedSlice S32x64x64x1 ![0, 1, 2, 0] · slices_S32x66x66x1_S32x64x64x1_0_1_2_0),
    unary main_v0 main_v7 (extractStridedSlice S32x64x64x1 ![0, 2, 0, 0] · slices_S32x66x66x1_S32x64x64x1_0_2_0_0),
    unary main_v0 main_v8 (extractStridedSlice S32x64x64x1 ![0, 2, 1, 0] · slices_S32x66x66x1_S32x64x64x1_0_2_1_0),
    unary main_v0 main_v9 (extractStridedSlice S32x64x64x1 ![0, 2, 2, 0] · slices_S32x66x66x1_S32x64x64x1_0_2_2_0),
    nary ![main_v1, main_v2, main_v3, main_v4, main_v5, main_v6, main_v7, main_v8, main_v9] main_v10 (fun u => concatenate S32x64x64x9 3 [⟨S32x64x64x1, u 0⟩, ⟨S32x64x64x1, u 1⟩, ⟨S32x64x64x1, u 2⟩, ⟨S32x64x64x1, u 3⟩, ⟨S32x64x64x1, u 4⟩, ⟨S32x64x64x1, u 5⟩, ⟨S32x64x64x1, u 6⟩, ⟨S32x64x64x1, u 7⟩, ⟨S32x64x64x1, u 8⟩] concatenates_S32x64x64x1_S32x64x64x1_S32x64x64x1_S32x64x64x1_S32x64x64x1_S32x64x64x1_S32x64x64x1_S32x64x64x1_S32x64x64x1_S32x64x64x9_d3),
    nullary main_cst_3 (constant S_ .f32 0x00000000#32),
    unary main_cst_3 main_v11 (broadcastInDim S32x64x64x9 ![] bcast_S_S32x64x64x9),
    binary main_v10 main_v11 main_v12 subf,
    binary main_v12 main_arg1 main_v13 (fun l r => Host.dotGeneral dot_S32x64x64x9_S9x64_S32x64x64x64_3_0_012_1_n_n none l r),
    nullary main_c_4 (constantI S_ 32 0#32),
    unary main_c_4 main_v14 (broadcastInDim S64x64 ![] bcast_S_S64x64),
    binary main_c main_v14 main_v15 (cmpi .slt),
    nullary main_c_5 (constantI S_ 32 9#32),
    unary main_c_5 main_v16 (broadcastInDim S64x64 ![] bcast_S_S64x64),
    binary main_c main_v16 main_v17 addi,
    ternary main_v15 main_v17 main_c main_v18 select,
    unary main_v18 main_v19 (broadcastInDim S64x64x1 ![0, 1] bcast_S64x64_S64x64x1_0_1),
    binary main_arg2 main_v19 main_v20 (fun x i => Host.gather gather_S9x64_S64x64x1_S64x64x64_2_0_n_n_0_2_164 x i),
    nullary main_cst_6 (constant S_ .f32 0x44BB8000#32),
    unary main_cst_6 main_v21 (broadcastInDim S64x64x64 ![] bcast_S_S64x64x64),
    binary main_v21 main_v20 main_v22 subf,
    unary main_v22 main_v23 (broadcastInDim S1x64x64x64 ![1, 2, 3] bcast_S64x64x64_S1x64x64x64_1_2_3),
    unary main_v23 main_v24 (broadcastInDim S32x64x64x64 ![0, 1, 2, 3] bcast_S1x64x64x64_S32x64x64x64_0_1_2_3),
    binary main_v13 main_v24 main_v25 addf,
    nullary main_cst_7 (constant S_ .f32 0x44BB8000#32),
    unary main_cst_7 main_v26 (broadcastInDim S32x64x64x64 ![] bcast_S_S32x64x64x64),
    binary main_v25 main_v26 main_v27 minimumf ]

abbrev opsA_W : List (Ref sig .tc) := [main_c, main_c_0, main_c_1, main_c_2, main_cst, main_call0_v0, main_v0, main_v1, main_v2, main_v3, main_v4, main_v5, main_v6, main_v7, main_v8, main_v9, main_v10, main_cst_3, main_v11, main_v12, main_v13, main_c_4, main_v14, main_v15, main_c_5, main_v16, main_v17, main_v18, main_v19, main_v20, main_cst_6, main_v21, main_v22, main_v23, main_v24, main_v25, main_cst_7, main_v26, main_v27]

theorem opsA_sub : (opsA : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The second convolution layer, first part. -/
abbrev opsB1 : List (HloOp τ sig (Elt F)) :=
  [ nullary main_cst_8 (constant S_ .f32 0x44BB8000#32),
    TRef.unary (.of main_cst_8 : TRef sig ⟨S_, .f32⟩) main_call1.v0 id,
    TRef.binary (.of main_v27 : TRef sig ⟨S32x64x64x64, .f32⟩) main_call1.v0 main_call1.v1 (fun x v => pad S32x66x66x64 ![0, 1, 1, 0] ![0, 1, 1, 0] ![0, 0, 0, 0] x v pads_S32x64x64x64_S32x66x66x64_000_110_110_000 h_S_),
    unary main_v28 main_v29 (extractStridedSlice S32x64x64x64 ![0, 0, 0, 0] · slices_S32x66x66x64_S32x64x64x64_0_0_0_0),
    unary main_v28 main_v30 (extractStridedSlice S32x64x64x64 ![0, 0, 1, 0] · slices_S32x66x66x64_S32x64x64x64_0_0_1_0),
    unary main_v28 main_v31 (extractStridedSlice S32x64x64x64 ![0, 0, 2, 0] · slices_S32x66x66x64_S32x64x64x64_0_0_2_0),
    unary main_v28 main_v32 (extractStridedSlice S32x64x64x64 ![0, 1, 0, 0] · slices_S32x66x66x64_S32x64x64x64_0_1_0_0),
    unary main_v28 main_v33 (extractStridedSlice S32x64x64x64 ![0, 1, 1, 0] · slices_S32x66x66x64_S32x64x64x64_0_1_1_0),
    unary main_v28 main_v34 (extractStridedSlice S32x64x64x64 ![0, 1, 2, 0] · slices_S32x66x66x64_S32x64x64x64_0_1_2_0),
    unary main_v28 main_v35 (extractStridedSlice S32x64x64x64 ![0, 2, 0, 0] · slices_S32x66x66x64_S32x64x64x64_0_2_0_0),
    unary main_v28 main_v36 (extractStridedSlice S32x64x64x64 ![0, 2, 1, 0] · slices_S32x66x66x64_S32x64x64x64_0_2_1_0),
    unary main_v28 main_v37 (extractStridedSlice S32x64x64x64 ![0, 2, 2, 0] · slices_S32x66x66x64_S32x64x64x64_0_2_2_0),
    nary ![main_v29, main_v30, main_v31, main_v32, main_v33, main_v34, main_v35, main_v36, main_v37] main_v38 (fun u => concatenate S32x64x64x576 3 [⟨S32x64x64x64, u 0⟩, ⟨S32x64x64x64, u 1⟩, ⟨S32x64x64x64, u 2⟩, ⟨S32x64x64x64, u 3⟩, ⟨S32x64x64x64, u 4⟩, ⟨S32x64x64x64, u 5⟩, ⟨S32x64x64x64, u 6⟩, ⟨S32x64x64x64, u 7⟩, ⟨S32x64x64x64, u 8⟩] concatenates_S32x64x64x64_S32x64x64x64_S32x64x64x64_S32x64x64x64_S32x64x64x64_S32x64x64x64_S32x64x64x64_S32x64x64x64_S32x64x64x64_S32x64x64x576_d3),
    nullary main_cst_9 (constant S_ .f32 0x44BB8000#32),
    unary main_cst_9 main_v39 (broadcastInDim S32x64x64x576 ![] bcast_S_S32x64x64x576),
    binary main_v38 main_v39 main_v40 subf,
    binary main_v40 main_arg3 main_v41 (fun l r => Host.dotGeneral dot_S32x64x64x576_S576x64_S32x64x64x64_3_0_012_1_n_n none l r),
    nullary main_c_10 (constantI S_ 32 0#32),
    unary main_c_10 main_v42 (broadcastInDim S64x64 ![] bcast_S_S64x64),
    binary main_c_0 main_v42 main_v43 (cmpi .slt),
    nullary main_c_11 (constantI S_ 32 9#32),
    unary main_c_11 main_v44 (broadcastInDim S64x64 ![] bcast_S_S64x64),
    binary main_c_0 main_v44 main_v45 addi ]

abbrev opsB1_W : List (Ref sig .tc) := [main_cst_8, main_call1_v0, main_v28, main_v29, main_v30, main_v31, main_v32, main_v33, main_v34, main_v35, main_v36, main_v37, main_v38, main_cst_9, main_v39, main_v40, main_v41, main_c_10, main_v42, main_v43, main_c_11, main_v44, main_v45]

theorem opsB1_sub : (opsB1 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩

theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The second convolution layer, second part, and its 2×2 maximum pooling. -/
abbrev opsB2 : List (HloOp τ sig (Elt F)) :=
  [ ternary main_v43 main_v45 main_c_0 main_v46 select,
    unary main_v46 main_v47 (broadcastInDim S64x64x1 ![0, 1] bcast_S64x64_S64x64x1_0_1),
    binary main_arg4 main_v47 main_v48 (fun x i => Host.gather gather_S9x64_S64x64x1_S64x64x64_2_0_n_n_0_2_164 x i),
    nullary main_cst_12 (constant S_ .f32 0x453B8000#32),
    unary main_cst_12 main_v49 (broadcastInDim S64x64x64 ![] bcast_S_S64x64x64),
    binary main_v49 main_v48 main_v50 subf,
    unary main_v50 main_v51 (broadcastInDim S1x64x64x64 ![1, 2, 3] bcast_S64x64x64_S1x64x64x64_1_2_3),
    unary main_v51 main_v52 (broadcastInDim S32x64x64x64 ![0, 1, 2, 3] bcast_S1x64x64x64_S32x64x64x64_0_1_2_3),
    binary main_v41 main_v52 main_v53 addf,
    nullary main_cst_13 (constant S_ .f32 0x453B8000#32),
    unary main_cst_13 main_v54 (broadcastInDim S32x64x64x64 ![] bcast_S_S32x64x64x64),
    binary main_v53 main_v54 main_v55 minimumf,
    reshape main_v55 main_v56 rfl shapeCasts_S32x64x64x64_S32x32x2x32x2x64,
    nullary main_cst_14 (constant S_ .f32 0xFF800000#32),
    binary main_v56 main_cst_14 main_v57 (fun x v => Host.reduce FloatOps.maximumf x v reducesTo_S32x32x2x32x2x64_S32x32x32x64_d2_4 h_S_) ]

abbrev opsB2_W : List (Ref sig .tc) := [main_v46, main_v47, main_v48, main_cst_12, main_v49, main_v50, main_v51, main_v52, main_v53, main_cst_13, main_v54, main_v55, main_v56, main_cst_14, main_v57]

theorem opsB2_sub : (opsB2 : List (HloOp τ sig (Elt F))).Forall fun op => op.bufs ⊆ tcRefs τ sig :=
  ⟨ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., reshape_bufs_sub .., nullary_bufs_sub .., binary_bufs_sub ..⟩

theorem opsB2_fresh : (opsB2 : List (HloOp τ sig (Elt F))).Forall fun op => op.fresh = ∅ :=
  ⟨rfl, rfl, rfl, rfl, rfl, rfl, rfl, rfl, rfl, rfl, rfl, rfl, rfl, rfl, rfl⟩

/-- The third convolution layer. -/
abbrev opsC : List (HloOp τ sig (Elt F)) :=
  [ nullary main_cst_15 (constant S_ .f32 0x453B8000#32),
    TRef.unary (.of main_cst_15 : TRef sig ⟨S_, .f32⟩) main_call2.v0 id,
    TRef.binary (.of main_v57 : TRef sig ⟨S32x32x32x64, .f32⟩) main_call2.v0 main_call2.v1 (fun x v => pad S32x34x34x64 ![0, 1, 1, 0] ![0, 1, 1, 0] ![0, 0, 0, 0] x v pads_S32x32x32x64_S32x34x34x64_000_110_110_000 h_S_),
    unary main_v58 main_v59 (extractStridedSlice S32x32x32x64 ![0, 0, 0, 0] · slices_S32x34x34x64_S32x32x32x64_0_0_0_0),
    unary main_v58 main_v60 (extractStridedSlice S32x32x32x64 ![0, 0, 1, 0] · slices_S32x34x34x64_S32x32x32x64_0_0_1_0),
    unary main_v58 main_v61 (extractStridedSlice S32x32x32x64 ![0, 0, 2, 0] · slices_S32x34x34x64_S32x32x32x64_0_0_2_0),
    unary main_v58 main_v62 (extractStridedSlice S32x32x32x64 ![0, 1, 0, 0] · slices_S32x34x34x64_S32x32x32x64_0_1_0_0),
    unary main_v58 main_v63 (extractStridedSlice S32x32x32x64 ![0, 1, 1, 0] · slices_S32x34x34x64_S32x32x32x64_0_1_1_0),
    unary main_v58 main_v64 (extractStridedSlice S32x32x32x64 ![0, 1, 2, 0] · slices_S32x34x34x64_S32x32x32x64_0_1_2_0),
    unary main_v58 main_v65 (extractStridedSlice S32x32x32x64 ![0, 2, 0, 0] · slices_S32x34x34x64_S32x32x32x64_0_2_0_0),
    unary main_v58 main_v66 (extractStridedSlice S32x32x32x64 ![0, 2, 1, 0] · slices_S32x34x34x64_S32x32x32x64_0_2_1_0),
    unary main_v58 main_v67 (extractStridedSlice S32x32x32x64 ![0, 2, 2, 0] · slices_S32x34x34x64_S32x32x32x64_0_2_2_0),
    nary ![main_v59, main_v60, main_v61, main_v62, main_v63, main_v64, main_v65, main_v66, main_v67] main_v68 (fun u => concatenate S32x32x32x576 3 [⟨S32x32x32x64, u 0⟩, ⟨S32x32x32x64, u 1⟩, ⟨S32x32x32x64, u 2⟩, ⟨S32x32x32x64, u 3⟩, ⟨S32x32x32x64, u 4⟩, ⟨S32x32x32x64, u 5⟩, ⟨S32x32x32x64, u 6⟩, ⟨S32x32x32x64, u 7⟩, ⟨S32x32x32x64, u 8⟩] concatenates_S32x32x32x64_S32x32x32x64_S32x32x32x64_S32x32x32x64_S32x32x32x64_S32x32x32x64_S32x32x32x64_S32x32x32x64_S32x32x32x64_S32x32x32x576_d3),
    nullary main_cst_16 (constant S_ .f32 0x453B8000#32),
    unary main_cst_16 main_v69 (broadcastInDim S32x32x32x576 ![] bcast_S_S32x32x32x576),
    binary main_v68 main_v69 main_v70 subf,
    binary main_v70 main_arg5 main_v71 (fun l r => Host.dotGeneral dot_S32x32x32x576_S576x128_S32x32x32x128_3_0_012_1_n_n none l r),
    nullary main_c_17 (constantI S_ 32 0#32),
    unary main_c_17 main_v72 (broadcastInDim S32x32 ![] bcast_S_S32x32),
    binary main_c_1 main_v72 main_v73 (cmpi .slt),
    nullary main_c_18 (constantI S_ 32 9#32),
    unary main_c_18 main_v74 (broadcastInDim S32x32 ![] bcast_S_S32x32),
    binary main_c_1 main_v74 main_v75 addi,
    ternary main_v73 main_v75 main_c_1 main_v76 select,
    unary main_v76 main_v77 (broadcastInDim S32x32x1 ![0, 1] bcast_S32x32_S32x32x1_0_1),
    binary main_arg6 main_v77 main_v78 (fun x i => Host.gather gather_S9x128_S32x32x1_S32x32x128_2_0_n_n_0_2_1128 x i),
    nullary main_cst_19 (constant S_ .f32 0x458CA000#32),
    unary main_cst_19 main_v79 (broadcastInDim S32x32x128 ![] bcast_S_S32x32x128),
    binary main_v79 main_v78 main_v80 subf,
    unary main_v80 main_v81 (broadcastInDim S1x32x32x128 ![1, 2, 3] bcast_S32x32x128_S1x32x32x128_1_2_3),
    unary main_v81 main_v82 (broadcastInDim S32x32x32x128 ![0, 1, 2, 3] bcast_S1x32x32x128_S32x32x32x128_0_1_2_3),
    binary main_v71 main_v82 main_v83 addf,
    nullary main_cst_20 (constant S_ .f32 0x458CA000#32),
    unary main_cst_20 main_v84 (broadcastInDim S32x32x32x128 ![] bcast_S_S32x32x32x128),
    binary main_v83 main_v84 main_v85 minimumf ]

abbrev opsC_W : List (Ref sig .tc) := [main_cst_15, main_call2_v0, main_v58, main_v59, main_v60, main_v61, main_v62, main_v63, main_v64, main_v65, main_v66, main_v67, main_v68, main_cst_16, main_v69, main_v70, main_v71, main_c_17, main_v72, main_v73, main_c_18, main_v74, main_v75, main_v76, main_v77, main_v78, main_cst_19, main_v79, main_v80, main_v81, main_v82, main_v83, main_cst_20, main_v84, main_v85]

theorem opsC_sub : (opsC : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The fourth convolution layer, first part. -/
abbrev opsD1 : List (HloOp τ sig (Elt F)) :=
  [ nullary main_cst_21 (constant S_ .f32 0x458CA000#32),
    TRef.unary (.of main_cst_21 : TRef sig ⟨S_, .f32⟩) main_call3.v0 id,
    TRef.binary (.of main_v85 : TRef sig ⟨S32x32x32x128, .f32⟩) main_call3.v0 main_call3.v1 (fun x v => pad S32x34x34x128 ![0, 1, 1, 0] ![0, 1, 1, 0] ![0, 0, 0, 0] x v pads_S32x32x32x128_S32x34x34x128_000_110_110_000 h_S_),
    unary main_v86 main_v87 (extractStridedSlice S32x32x32x128 ![0, 0, 0, 0] · slices_S32x34x34x128_S32x32x32x128_0_0_0_0),
    unary main_v86 main_v88 (extractStridedSlice S32x32x32x128 ![0, 0, 1, 0] · slices_S32x34x34x128_S32x32x32x128_0_0_1_0),
    unary main_v86 main_v89 (extractStridedSlice S32x32x32x128 ![0, 0, 2, 0] · slices_S32x34x34x128_S32x32x32x128_0_0_2_0),
    unary main_v86 main_v90 (extractStridedSlice S32x32x32x128 ![0, 1, 0, 0] · slices_S32x34x34x128_S32x32x32x128_0_1_0_0),
    unary main_v86 main_v91 (extractStridedSlice S32x32x32x128 ![0, 1, 1, 0] · slices_S32x34x34x128_S32x32x32x128_0_1_1_0),
    unary main_v86 main_v92 (extractStridedSlice S32x32x32x128 ![0, 1, 2, 0] · slices_S32x34x34x128_S32x32x32x128_0_1_2_0),
    unary main_v86 main_v93 (extractStridedSlice S32x32x32x128 ![0, 2, 0, 0] · slices_S32x34x34x128_S32x32x32x128_0_2_0_0),
    unary main_v86 main_v94 (extractStridedSlice S32x32x32x128 ![0, 2, 1, 0] · slices_S32x34x34x128_S32x32x32x128_0_2_1_0),
    unary main_v86 main_v95 (extractStridedSlice S32x32x32x128 ![0, 2, 2, 0] · slices_S32x34x34x128_S32x32x32x128_0_2_2_0) ]

abbrev opsD1_W : List (Ref sig .tc) := [main_cst_21, main_call3_v0, main_v86, main_v87, main_v88, main_v89, main_v90, main_v91, main_v92, main_v93, main_v94, main_v95]

theorem opsD1_sub : (opsD1 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub ..⟩

theorem opsD1_fresh : (opsD1 : List (HloOp τ sig (Elt F))).Forall fun op => op.fresh = ∅ :=
  ⟨rfl, rfl, rfl, rfl, rfl, rfl, rfl, rfl, rfl, rfl, rfl, rfl⟩

/-- The fourth convolution layer, second part, its 2×2 maximum pooling and the flattening. -/
abbrev opsD2 : List (HloOp τ sig (Elt F)) :=
  [ nary ![main_v87, main_v88, main_v89, main_v90, main_v91, main_v92, main_v93, main_v94, main_v95] main_v96 (fun u => concatenate S32x32x32x1152 3 [⟨S32x32x32x128, u 0⟩, ⟨S32x32x32x128, u 1⟩, ⟨S32x32x32x128, u 2⟩, ⟨S32x32x32x128, u 3⟩, ⟨S32x32x32x128, u 4⟩, ⟨S32x32x32x128, u 5⟩, ⟨S32x32x32x128, u 6⟩, ⟨S32x32x32x128, u 7⟩, ⟨S32x32x32x128, u 8⟩] concatenates_S32x32x32x128_S32x32x32x128_S32x32x32x128_S32x32x32x128_S32x32x32x128_S32x32x32x128_S32x32x32x128_S32x32x32x128_S32x32x32x128_S32x32x32x1152_d3),
    nullary main_cst_22 (constant S_ .f32 0x458CA000#32),
    unary main_cst_22 main_v97 (broadcastInDim S32x32x32x1152 ![] bcast_S_S32x32x32x1152),
    binary main_v96 main_v97 main_v98 subf,
    binary main_v98 main_arg7 main_v99 (fun l r => Host.dotGeneral dot_S32x32x32x1152_S1152x128_S32x32x32x128_3_0_012_1_n_n none l r),
    nullary main_c_23 (constantI S_ 32 0#32),
    unary main_c_23 main_v100 (broadcastInDim S32x32 ![] bcast_S_S32x32),
    binary main_c_2 main_v100 main_v101 (cmpi .slt),
    nullary main_c_24 (constantI S_ 32 9#32),
    unary main_c_24 main_v102 (broadcastInDim S32x32 ![] bcast_S_S32x32),
    binary main_c_2 main_v102 main_v103 addi,
    ternary main_v101 main_v103 main_c_2 main_v104 select,
    unary main_v104 main_v105 (broadcastInDim S32x32x1 ![0, 1] bcast_S32x32_S32x32x1_0_1),
    binary main_arg8 main_v105 main_v106 (fun x i => Host.gather gather_S9x128_S32x32x1_S32x32x128_2_0_n_n_0_2_1128 x i),
    nullary main_cst_25 (constant S_ .f32 0x45BB8000#32),
    unary main_cst_25 main_v107 (broadcastInDim S32x32x128 ![] bcast_S_S32x32x128),
    binary main_v107 main_v106 main_v108 subf,
    unary main_v108 main_v109 (broadcastInDim S1x32x32x128 ![1, 2, 3] bcast_S32x32x128_S1x32x32x128_1_2_3),
    unary main_v109 main_v110 (broadcastInDim S32x32x32x128 ![0, 1, 2, 3] bcast_S1x32x32x128_S32x32x32x128_0_1_2_3),
    binary main_v99 main_v110 main_v111 addf,
    nullary main_cst_26 (constant S_ .f32 0x45BB8000#32),
    unary main_cst_26 main_v112 (broadcastInDim S32x32x32x128 ![] bcast_S_S32x32x32x128),
    binary main_v111 main_v112 main_v113 minimumf,
    reshape main_v113 main_v114 rfl shapeCasts_S32x32x32x128_S32x16x2x16x2x128,
    nullary main_cst_27 (constant S_ .f32 0xFF800000#32),
    binary main_v114 main_cst_27 main_v115 (fun x v => Host.reduce FloatOps.maximumf x v reducesTo_S32x16x2x16x2x128_S32x16x16x128_d2_4 h_S_),
    reshape main_v115 main_v116 rfl shapeCasts_S32x16x16x128_S32x32768 ]

abbrev opsD2_W : List (Ref sig .tc) := [main_v96, main_cst_22, main_v97, main_v98, main_v99, main_c_23, main_v100, main_v101, main_c_24, main_v102, main_v103, main_v104, main_v105, main_v106, main_cst_25, main_v107, main_v108, main_v109, main_v110, main_v111, main_cst_26, main_v112, main_v113, main_v114, main_cst_27, main_v115, main_v116]

theorem opsD2_sub : (opsD2 : List (HloOp τ sig (Elt F))).Forall fun op => op.bufs ⊆ tcRefs τ sig :=
  ⟨nary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., reshape_bufs_sub .., nullary_bufs_sub .., binary_bufs_sub .., reshape_bufs_sub ..⟩

theorem opsD2_fresh : (opsD2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The dense layer. -/
abbrev opsE : List (HloOp τ sig (Elt F)) :=
  [ nullary main_cst_28 (constant S_ .f32 0x45BB8000#32),
    unary main_cst_28 main_v117 (broadcastInDim S32x32768 ![] bcast_S_S32x32768),
    binary main_v116 main_v117 main_v118 subf,
    binary main_v118 main_arg9 main_v119 (fun l r => Host.dotGeneral dot_S32x32768_S32768x256_S32x256_1_0_0_1_n_n none l r),
    nullary main_cst_29 (constant S_ .f32 0x45EA6000#32),
    unary main_cst_29 main_v120 (broadcastInDim S256 ![] bcast_S_S256),
    binary main_v120 main_arg10 main_v121 subf,
    unary main_v121 main_v122 (broadcastInDim S1x256 ![1] bcast_S256_S1x256_1),
    unary main_v122 main_v123 (broadcastInDim S32x256 ![0, 1] bcast_S1x256_S32x256_0_1),
    binary main_v119 main_v123 main_v124 addf,
    nullary main_cst_30 (constant S_ .f32 0x45EA6000#32),
    unary main_cst_30 main_v125 (broadcastInDim S32x256 ![] bcast_S_S32x256),
    binary main_v124 main_v125 main_v126 minimumf ]

abbrev opsE_W : List (Ref sig .tc) := [main_cst_28, main_v117, main_v118, main_v119, main_cst_29, main_v120, main_v121, main_v122, main_v123, main_v124, main_cst_30, main_v125, main_v126]

theorem opsE_sub : (opsE : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩

theorem opsE_fresh : (opsE : List (HloOp τ sig (Elt F))).Forall fun op => op.fresh = ∅ :=
  ⟨rfl, rfl, rfl, rfl, rfl, rfl, rfl, rfl, rfl, rfl, rfl, rfl, rfl⟩

/-- The output layer. -/
abbrev opsG : List (HloOp τ sig (Elt F)) :=
  [ nullary main_cst_31 (constant S_ .f32 0x45EA6000#32),
    unary main_cst_31 main_v127 (broadcastInDim S32x256 ![] bcast_S_S32x256),
    binary main_v127 main_v126 main_v128 subf,
    binary main_v128 main_arg11 main_v129 (fun l r => Host.dotGeneral dot_S32x256_S256x10_S32x10_1_0_0_1_n_n none l r),
    unary main_arg12 main_v130 (broadcastInDim S1x10 ![1] bcast_S10_S1x10_1),
    unary main_v130 main_v131 (broadcastInDim S32x10 ![0, 1] bcast_S1x10_S32x10_0_1),
    binary main_v131 main_v129 main_v132 addf ]

abbrev opsG_W : List (Ref sig .tc) := [main_cst_31, main_v127, main_v128, main_v129, main_v130, main_v131, main_v132]

theorem opsG_sub : (opsG : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..⟩

theorem opsG_fresh : (opsG : List (HloOp τ sig (Elt F))).Forall fun op => op.fresh = ∅ :=
  ⟨rfl, rfl, rfl, rfl, rfl, rfl, rfl⟩

end Cert.ReferenceIdeal.RefRun

end
-- ==== Proof.Ref.Main.lean ====
import proofs.«133004_j26104811225511_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := opsA ++ opsB1 ++ opsB2 ++ opsC ++ opsD1 ++ opsD2 ++ opsE ++ opsG

set_option maxRecDepth 8192 in
/-- With the padding functions unfolded at their calls, each window is one chain of operation steps. -/
theorem main_part0_eq (c : Dev nD) : main_part0 (F := F) c = seq (opsA ++ opsB1) := by
  simp only [main_part0, fn_pad.body, fn_pad_0.body, bind_assoc, pure_bind]
  rfl

set_option maxRecDepth 8192 in
theorem main_part1_eq (c : Dev nD) : main_part1 (F := F) c = seq (opsB2 ++ opsC ++ opsD1) := by
  simp only [main_part1, fn_pad_1.body, fn_pad_2.body, bind_assoc, pure_bind]
  rfl

set_option maxRecDepth 8192 in
theorem main_part2_eq (c : Dev nD) : main_part2 (F := F) c = seq (opsD2 ++ opsE ++ opsG) := rfl

theorem main_eq (c : Dev nD) : main (F := F) c = seq ops := by
  have h : (ops : List (HloOp τ sig (Elt F)))
      = (opsA ++ opsB1) ++ ((opsB2 ++ opsC ++ opsD1) ++ (opsD2 ++ opsE ++ opsG)) := by
    simp only [ops, List.append_assoc]
  rw [h, seq_append (opsA ++ opsB1), seq_append (opsB2 ++ opsC ++ opsD1) (opsD2 ++ opsE ++ opsG), ← main_part0_eq c, ← main_part1_eq c,
    ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨⟨⟨⟨⟨⟨opsA_sub, opsB1_sub⟩, opsB2_sub⟩, opsC_sub⟩, opsD1_sub⟩, opsD2_sub⟩, opsE_sub⟩, opsG_sub⟩

theorem ops_fresh : (ops : List (HloOp τ sig (Elt F))).Forall fun op => op.fresh = ∅ := by
  simp only [ops, List.forall_append]
  exact ⟨⟨⟨⟨⟨⟨⟨opsA_fresh, opsB1_fresh⟩, opsB2_fresh⟩, opsC_fresh⟩, opsD1_fresh⟩, opsD2_fresh⟩, opsE_fresh⟩, opsG_fresh⟩

/-- The program is the straight line `ops`, so it terminates with every buffer at the fold of the operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.Ref.Keep.lean ====
import proofs.«133004_j26104811225511_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one written reference is in `W` writes inside `W`. -/
theorem writes_of {op : HloOp τ sig (Elt F)} {W : List (Ref sig .tc)} (y : Ref sig .tc)
    (h : op.writes = {Proc.devRef (τ := τ) .tc y}) (hy : y ∈ W) :
    op.writes ⊆ (W.map (Proc.devRef (τ := τ) .tc)).toFinset := by
  rw [h, Finset.singleton_subset_iff, List.mem_toFinset]; exact List.mem_map_of_mem hy

theorem keep_opsA (W : Valuation τ sig (Elt F)) (r : Ref sig .tc) (h : r ∉ opsA_W) :
    after opsA W (Proc.devRef .tc r) = W (Proc.devRef .tc r) :=
  after_of_writes_sub opsA W (by (repeat' apply And.intro) <;> exact writes_of _ rfl (by decide)) h

theorem keep_opsB1 (W : Valuation τ sig (Elt F)) (r : Ref sig .tc) (h : r ∉ opsB1_W) :
    after opsB1 W (Proc.devRef .tc r) = W (Proc.devRef .tc r) :=
  after_of_writes_sub opsB1 W (by (repeat' apply And.intro) <;> exact writes_of _ rfl (by decide)) h

theorem keep_opsB2 (W : Valuation τ sig (Elt F)) (r : Ref sig .tc) (h : r ∉ opsB2_W) :
    after opsB2 W (Proc.devRef .tc r) = W (Proc.devRef .tc r) :=
  after_of_writes_sub opsB2 W (by (repeat' apply And.intro) <;> exact writes_of _ rfl (by decide)) h

theorem keep_opsC (W : Valuation τ sig (Elt F)) (r : Ref sig .tc) (h : r ∉ opsC_W) :
    after opsC W (Proc.devRef .tc r) = W (Proc.devRef .tc r) :=
  after_of_writes_sub opsC W (by (repeat' apply And.intro) <;> exact writes_of _ rfl (by decide)) h

theorem keep_opsD1 (W : Valuation τ sig (Elt F)) (r : Ref sig .tc) (h : r ∉ opsD1_W) :
    after opsD1 W (Proc.devRef .tc r) = W (Proc.devRef .tc r) :=
  after_of_writes_sub opsD1 W (by (repeat' apply And.intro) <;> exact writes_of _ rfl (by decide)) h

theorem keep_opsD2 (W : Valuation τ sig (Elt F)) (r : Ref sig .tc) (h : r ∉ opsD2_W) :
    after opsD2 W (Proc.devRef .tc r) = W (Proc.devRef .tc r) :=
  after_of_writes_sub opsD2 W (by (repeat' apply And.intro) <;> exact writes_of _ rfl (by decide)) h

theorem keep_opsE (W : Valuation τ sig (Elt F)) (r : Ref sig .tc) (h : r ∉ opsE_W) :
    after opsE W (Proc.devRef .tc r) = W (Proc.devRef .tc r) :=
  after_of_writes_sub opsE W (by (repeat' apply And.intro) <;> exact writes_of _ rfl (by decide)) h

theorem keep_opsG (W : Valuation τ sig (Elt F)) (r : Ref sig .tc) (h : r ∉ opsG_W) :
    after opsG W (Proc.devRef .tc r) = W (Proc.devRef .tc r) :=
  after_of_writes_sub opsG W (by (repeat' apply And.intro) <;> exact writes_of _ rfl (by decide)) h

end Cert.ReferenceIdeal.RefRun

end
-- ==== Proof.Bridge.ConvRef.lean ====
import proofs.«133004_j26104811225511_1_alg».proof.ReferenceIdeal
import proofs.«133004_j26104811225511_1_alg».proof.Proof.Net.Fn

noncomputable section

namespace Cert.ReferenceIdeal.Bridge

open Idealize.ShloMosaic Cert.ReferenceIdeal

variable [Facts]
open Facts₀ Facts

def convRef0 (xp : Vec Ideal S32x66x66x1 .f32) (wt : Vec Ideal S9x64 .f32) (dm : Vec Ideal S64x64x64 .f32) :
    Vec Ideal S32x64x64x64 .f32 :=
  minimumf
    (addf
      (Host.dotGeneral (F := Ideal) (φ₁ := .f32) (φ₂ := .f32) dot_S32x64x64x9_S9x64_S32x64x64x64_3_0_012_1_n_n none
        (subf
          (concatenate S32x64x64x9 3
            [⟨S32x64x64x1, extractStridedSlice S32x64x64x1 ![0, 0, 0, 0] xp slices_S32x66x66x1_S32x64x64x1_0_0_0_0⟩,
             ⟨S32x64x64x1, extractStridedSlice S32x64x64x1 ![0, 0, 1, 0] xp slices_S32x66x66x1_S32x64x64x1_0_0_1_0⟩,
             ⟨S32x64x64x1, extractStridedSlice S32x64x64x1 ![0, 0, 2, 0] xp slices_S32x66x66x1_S32x64x64x1_0_0_2_0⟩,
             ⟨S32x64x64x1, extractStridedSlice S32x64x64x1 ![0, 1, 0, 0] xp slices_S32x66x66x1_S32x64x64x1_0_1_0_0⟩,
             ⟨S32x64x64x1, extractStridedSlice S32x64x64x1 ![0, 1, 1, 0] xp slices_S32x66x66x1_S32x64x64x1_0_1_1_0⟩,
             ⟨S32x64x64x1, extractStridedSlice S32x64x64x1 ![0, 1, 2, 0] xp slices_S32x66x66x1_S32x64x64x1_0_1_2_0⟩,
             ⟨S32x64x64x1, extractStridedSlice S32x64x64x1 ![0, 2, 0, 0] xp slices_S32x66x66x1_S32x64x64x1_0_2_0_0⟩,
             ⟨S32x64x64x1, extractStridedSlice S32x64x64x1 ![0, 2, 1, 0] xp slices_S32x66x66x1_S32x64x64x1_0_2_1_0⟩,
             ⟨S32x64x64x1, extractStridedSlice S32x64x64x1 ![0, 2, 2, 0] xp slices_S32x66x66x1_S32x64x64x1_0_2_2_0⟩]
            concatenates_S32x64x64x1_S32x64x64x1_S32x64x64x1_S32x64x64x1_S32x64x64x1_S32x64x64x1_S32x64x64x1_S32x64x64x1_S32x64x64x1_S32x64x64x9_d3)
          (broadcastInDim S32x64x64x9 ![] bcast_S_S32x64x64x9 (constant (F := Ideal) S_ .f32 0x00000000#32)))
        wt)
      (broadcastInDim S32x64x64x64 ![0, 1, 2, 3] bcast_S1x64x64x64_S32x64x64x64_0_1_2_3
        (broadcastInDim S1x64x64x64 ![1, 2, 3] bcast_S64x64x64_S1x64x64x64_1_2_3
          (subf (broadcastInDim S64x64x64 ![] bcast_S_S64x64x64 (constant (F := Ideal) S_ .f32 0x44BB8000#32)) dm))))
    (broadcastInDim S32x64x64x64 ![] bcast_S_S32x64x64x64 (constant (F := Ideal) S_ .f32 0x44BB8000#32))

def convRef1 (xp : Vec Ideal S32x66x66x64 .f32) (wt : Vec Ideal S576x64 .f32) (dm : Vec Ideal S64x64x64 .f32) :
    Vec Ideal S32x64x64x64 .f32 :=
  minimumf
    (addf
      (Host.dotGeneral (F := Ideal) (φ₁ := .f32) (φ₂ := .f32) dot_S32x64x64x576_S576x64_S32x64x64x64_3_0_012_1_n_n none
        (subf
          (concatenate S32x64x64x576 3
            [⟨S32x64x64x64, extractStridedSlice S32x64x64x64 ![0, 0, 0, 0] xp slices_S32x66x66x64_S32x64x64x64_0_0_0_0⟩,
             ⟨S32x64x64x64, extractStridedSlice S32x64x64x64 ![0, 0, 1, 0] xp slices_S32x66x66x64_S32x64x64x64_0_0_1_0⟩,
             ⟨S32x64x64x64, extractStridedSlice S32x64x64x64 ![0, 0, 2, 0] xp slices_S32x66x66x64_S32x64x64x64_0_0_2_0⟩,
             ⟨S32x64x64x64, extractStridedSlice S32x64x64x64 ![0, 1, 0, 0] xp slices_S32x66x66x64_S32x64x64x64_0_1_0_0⟩,
             ⟨S32x64x64x64, extractStridedSlice S32x64x64x64 ![0, 1, 1, 0] xp slices_S32x66x66x64_S32x64x64x64_0_1_1_0⟩,
             ⟨S32x64x64x64, extractStridedSlice S32x64x64x64 ![0, 1, 2, 0] xp slices_S32x66x66x64_S32x64x64x64_0_1_2_0⟩,
             ⟨S32x64x64x64, extractStridedSlice S32x64x64x64 ![0, 2, 0, 0] xp slices_S32x66x66x64_S32x64x64x64_0_2_0_0⟩,
             ⟨S32x64x64x64, extractStridedSlice S32x64x64x64 ![0, 2, 1, 0] xp slices_S32x66x66x64_S32x64x64x64_0_2_1_0⟩,
             ⟨S32x64x64x64, extractStridedSlice S32x64x64x64 ![0, 2, 2, 0] xp slices_S32x66x66x64_S32x64x64x64_0_2_2_0⟩]
            concatenates_S32x64x64x64_S32x64x64x64_S32x64x64x64_S32x64x64x64_S32x64x64x64_S32x64x64x64_S32x64x64x64_S32x64x64x64_S32x64x64x64_S32x64x64x576_d3)
          (broadcastInDim S32x64x64x576 ![] bcast_S_S32x64x64x576 (constant (F := Ideal) S_ .f32 0x44BB8000#32)))
        wt)
      (broadcastInDim S32x64x64x64 ![0, 1, 2, 3] bcast_S1x64x64x64_S32x64x64x64_0_1_2_3
        (broadcastInDim S1x64x64x64 ![1, 2, 3] bcast_S64x64x64_S1x64x64x64_1_2_3
          (subf (broadcastInDim S64x64x64 ![] bcast_S_S64x64x64 (constant (F := Ideal) S_ .f32 0x453B8000#32)) dm))))
    (broadcastInDim S32x64x64x64 ![] bcast_S_S32x64x64x64 (constant (F := Ideal) S_ .f32 0x453B8000#32))

def convRef2 (xp : Vec Ideal S32x34x34x64 .f32) (wt : Vec Ideal S576x128 .f32) (dm : Vec Ideal S32x32x128 .f32) :
    Vec Ideal S32x32x32x128 .f32 :=
  minimumf
    (addf
      (Host.dotGeneral (F := Ideal) (φ₁ := .f32) (φ₂ := .f32) dot_S32x32x32x576_S576x128_S32x32x32x128_3_0_012_1_n_n none
        (subf
          (concatenate S32x32x32x576 3
            [⟨S32x32x32x64, extractStridedSlice S32x32x32x64 ![0, 0, 0, 0] xp slices_S32x34x34x64_S32x32x32x64_0_0_0_0⟩,
             ⟨S32x32x32x64, extractStridedSlice S32x32x32x64 ![0, 0, 1, 0] xp slices_S32x34x34x64_S32x32x32x64_0_0_1_0⟩,
             ⟨S32x32x32x64, extractStridedSlice S32x32x32x64 ![0, 0, 2, 0] xp slices_S32x34x34x64_S32x32x32x64_0_0_2_0⟩,
             ⟨S32x32x32x64, extractStridedSlice S32x32x32x64 ![0, 1, 0, 0] xp slices_S32x34x34x64_S32x32x32x64_0_1_0_0⟩,
             ⟨S32x32x32x64, extractStridedSlice S32x32x32x64 ![0, 1, 1, 0] xp slices_S32x34x34x64_S32x32x32x64_0_1_1_0⟩,
             ⟨S32x32x32x64, extractStridedSlice S32x32x32x64 ![0, 1, 2, 0] xp slices_S32x34x34x64_S32x32x32x64_0_1_2_0⟩,
             ⟨S32x32x32x64, extractStridedSlice S32x32x32x64 ![0, 2, 0, 0] xp slices_S32x34x34x64_S32x32x32x64_0_2_0_0⟩,
             ⟨S32x32x32x64, extractStridedSlice S32x32x32x64 ![0, 2, 1, 0] xp slices_S32x34x34x64_S32x32x32x64_0_2_1_0⟩,
             ⟨S32x32x32x64, extractStridedSlice S32x32x32x64 ![0, 2, 2, 0] xp slices_S32x34x34x64_S32x32x32x64_0_2_2_0⟩]
            concatenates_S32x32x32x64_S32x32x32x64_S32x32x32x64_S32x32x32x64_S32x32x32x64_S32x32x32x64_S32x32x32x64_S32x32x32x64_S32x32x32x64_S32x32x32x576_d3)
          (broadcastInDim S32x32x32x576 ![] bcast_S_S32x32x32x576 (constant (F := Ideal) S_ .f32 0x453B8000#32)))
        wt)
      (broadcastInDim S32x32x32x128 ![0, 1, 2, 3] bcast_S1x32x32x128_S32x32x32x128_0_1_2_3
        (broadcastInDim S1x32x32x128 ![1, 2, 3] bcast_S32x32x128_S1x32x32x128_1_2_3
          (subf (broadcastInDim S32x32x128 ![] bcast_S_S32x32x128 (constant (F := Ideal) S_ .f32 0x458CA000#32)) dm))))
    (broadcastInDim S32x32x32x128 ![] bcast_S_S32x32x32x128 (constant (F := Ideal) S_ .f32 0x458CA000#32))

def convRef3 (xp : Vec Ideal S32x34x34x128 .f32) (wt : Vec Ideal S1152x128 .f32) (dm : Vec Ideal S32x32x128 .f32) :
    Vec Ideal S32x32x32x128 .f32 :=
  minimumf
    (addf
      (Host.dotGeneral (F := Ideal) (φ₁ := .f32) (φ₂ := .f32) dot_S32x32x32x1152_S1152x128_S32x32x32x128_3_0_012_1_n_n none
        (subf
          (concatenate S32x32x32x1152 3
            [⟨S32x32x32x128, extractStridedSlice S32x32x32x128 ![0, 0, 0, 0] xp slices_S32x34x34x128_S32x32x32x128_0_0_0_0⟩,
             ⟨S32x32x32x128, extractStridedSlice S32x32x32x128 ![0, 0, 1, 0] xp slices_S32x34x34x128_S32x32x32x128_0_0_1_0⟩,
             ⟨S32x32x32x128, extractStridedSlice S32x32x32x128 ![0, 0, 2, 0] xp slices_S32x34x34x128_S32x32x32x128_0_0_2_0⟩,
             ⟨S32x32x32x128, extractStridedSlice S32x32x32x128 ![0, 1, 0, 0] xp slices_S32x34x34x128_S32x32x32x128_0_1_0_0⟩,
             ⟨S32x32x32x128, extractStridedSlice S32x32x32x128 ![0, 1, 1, 0] xp slices_S32x34x34x128_S32x32x32x128_0_1_1_0⟩,
             ⟨S32x32x32x128, extractStridedSlice S32x32x32x128 ![0, 1, 2, 0] xp slices_S32x34x34x128_S32x32x32x128_0_1_2_0⟩,
             ⟨S32x32x32x128, extractStridedSlice S32x32x32x128 ![0, 2, 0, 0] xp slices_S32x34x34x128_S32x32x32x128_0_2_0_0⟩,
             ⟨S32x32x32x128, extractStridedSlice S32x32x32x128 ![0, 2, 1, 0] xp slices_S32x34x34x128_S32x32x32x128_0_2_1_0⟩,
             ⟨S32x32x32x128, extractStridedSlice S32x32x32x128 ![0, 2, 2, 0] xp slices_S32x34x34x128_S32x32x32x128_0_2_2_0⟩]
            concatenates_S32x32x32x128_S32x32x32x128_S32x32x32x128_S32x32x32x128_S32x32x32x128_S32x32x32x128_S32x32x32x128_S32x32x32x128_S32x32x32x128_S32x32x32x1152_d3)
          (broadcastInDim S32x32x32x1152 ![] bcast_S_S32x32x32x1152 (constant (F := Ideal) S_ .f32 0x458CA000#32)))
        wt)
      (broadcastInDim S32x32x32x128 ![0, 1, 2, 3] bcast_S1x32x32x128_S32x32x32x128_0_1_2_3
        (broadcastInDim S1x32x32x128 ![1, 2, 3] bcast_S32x32x128_S1x32x32x128_1_2_3
          (subf (broadcastInDim S32x32x128 ![] bcast_S_S32x32x128 (constant (F := Ideal) S_ .f32 0x45BB8000#32)) dm))))
    (broadcastInDim S32x32x32x128 ![] bcast_S_S32x32x32x128 (constant (F := Ideal) S_ .f32 0x45BB8000#32))

end Cert.ReferenceIdeal.Bridge

end
-- ==== Proof.Bridge.DenseOutRef.lean ====
import proofs.«133004_j26104811225511_1_alg».proof.ReferenceIdeal
import proofs.«133004_j26104811225511_1_alg».proof.Proof.Net.Fn

noncomputable section

namespace Cert.ReferenceIdeal.Bridge

open Idealize.ShloMosaic Cert.ReferenceIdeal

variable [Facts₀]
open Facts₀

def denseRef (x : Vec Ideal S32x32768 .f32) (wt : Vec Ideal S32768x256 .f32) (d : Vec Ideal S256 .f32) :
    Vec Ideal S32x256 .f32 :=
  minimumf
    (addf
      (Host.dotGeneral (φ₁ := .f32) (φ₂ := .f32) dot_S32x32768_S32768x256_S32x256_1_0_0_1_n_n none
        (subf x (broadcastInDim S32x32768 ![] bcast_S_S32x32768 (constant (F := Ideal) S_ .f32 0x45BB8000#32))) wt)
      (broadcastInDim S32x256 ![0, 1] bcast_S1x256_S32x256_0_1
        (broadcastInDim S1x256 ![1] bcast_S256_S1x256_1
          (subf (broadcastInDim S256 ![] bcast_S_S256 (constant (F := Ideal) S_ .f32 0x45EA6000#32)) d))))
    (broadcastInDim S32x256 ![] bcast_S_S32x256 (constant (F := Ideal) S_ .f32 0x45EA6000#32))

def outRef (x : Vec Ideal S32x256 .f32) (wt : Vec Ideal S256x10 .f32) (d : Vec Ideal S10 .f32) :
    Vec Ideal S32x10 .f32 :=
  addf
    (broadcastInDim S32x10 ![0, 1] bcast_S1x10_S32x10_0_1 (broadcastInDim S1x10 ![1] bcast_S10_S1x10_1 d))
    (Host.dotGeneral (φ₁ := .f32) (φ₂ := .f32) dot_S32x256_S256x10_S32x10_1_0_0_1_n_n none
      (subf (broadcastInDim S32x256 ![] bcast_S_S32x256 (constant (F := Ideal) S_ .f32 0x45EA6000#32)) x) wt)

end Cert.ReferenceIdeal.Bridge

end
-- ==== Proof.Ref.Layers.lean ====
import proofs.«133004_j26104811225511_1_alg».proof.Proof.Bridge.ConvRef
import proofs.«133004_j26104811225511_1_alg».proof.Proof.Bridge.DenseOutRef

noncomputable section

namespace Cert.ReferenceIdeal.RefRun

open Idealize.ShloMosaic Cert.ReferenceIdeal Cert.ReferenceIdeal.Bridge

variable [Facts]
open Facts₀ Facts

def rtab0 : IVec S64x64 32 := fun i => lit0 (S64x64.rowMajor i)

def rtab1 : IVec S64x64 32 := fun i => lit1 (S64x64.rowMajor i)

def rtab2 : IVec S32x32 32 := fun i => lit2 (S32x32.rowMajor i)

def rtab3 : IVec S32x32 32 := fun i => lit3 (S32x32.rowMajor i)

def ridx64 (t : IVec S64x64 32) : IVec S64x64x1 32 :=
  broadcastInDim S64x64x1 ![0, 1] bcast_S64x64_S64x64x1_0_1
    (select (cmpi .slt t (broadcastInDim S64x64 ![] bcast_S_S64x64 (constantI S_ 32 0#32)))
      (addi t (broadcastInDim S64x64 ![] bcast_S_S64x64 (constantI S_ 32 9#32))) t)

def ridx32 (t : IVec S32x32 32) : IVec S32x32x1 32 :=
  broadcastInDim S32x32x1 ![0, 1] bcast_S32x32_S32x32x1_0_1
    (select (cmpi .slt t (broadcastInDim S32x32 ![] bcast_S_S32x32 (constantI S_ 32 0#32)))
      (addi t (broadcastInDim S32x32 ![] bcast_S_S32x32 (constantI S_ 32 9#32))) t)

def rdm0 (d : Vec Ideal S9x64 .f32) : Vec Ideal S64x64x64 .f32 :=
  Host.gather gather_S9x64_S64x64x1_S64x64x64_2_0_n_n_0_2_164 d (ridx64 rtab0)
def rdm1 (d : Vec Ideal S9x64 .f32) : Vec Ideal S64x64x64 .f32 :=
  Host.gather gather_S9x64_S64x64x1_S64x64x64_2_0_n_n_0_2_164 d (ridx64 rtab1)
def rdm2 (d : Vec Ideal S9x128 .f32) : Vec Ideal S32x32x128 .f32 :=
  Host.gather gather_S9x128_S32x32x1_S32x32x128_2_0_n_n_0_2_1128 d (ridx32 rtab2)
def rdm3 (d : Vec Ideal S9x128 .f32) : Vec Ideal S32x32x128 .f32 :=
  Host.gather gather_S9x128_S32x32x1_S32x32x128_2_0_n_n_0_2_1128 d (ridx32 rtab3)

def rpad0 (x : Vec Ideal S32x64x64x1 .f32) : Vec Ideal S32x66x66x1 .f32 :=
  pad S32x66x66x1 ![0, 1, 1, 0] ![0, 1, 1, 0] ![0, 0, 0, 0] x (id (constant (F := Ideal) S_ .f32 0x00000000#32))
    pads_S32x64x64x1_S32x66x66x1_000_110_110_000 h_S_

def rpad1 (x : Vec Ideal S32x64x64x64 .f32) : Vec Ideal S32x66x66x64 .f32 :=
  pad S32x66x66x64 ![0, 1, 1, 0] ![0, 1, 1, 0] ![0, 0, 0, 0] x (id (constant (F := Ideal) S_ .f32 0x44BB8000#32))
    pads_S32x64x64x64_S32x66x66x64_000_110_110_000 h_S_

def rpad2 (x : Vec Ideal S32x32x32x64 .f32) : Vec Ideal S32x34x34x64 .f32 :=
  pad S32x34x34x64 ![0, 1, 1, 0] ![0, 1, 1, 0] ![0, 0, 0, 0] x (id (constant (F := Ideal) S_ .f32 0x453B8000#32))
    pads_S32x32x32x64_S32x34x34x64_000_110_110_000 h_S_

def rpad3 (x : Vec Ideal S32x32x32x128 .f32) : Vec Ideal S32x34x34x128 .f32 :=
  pad S32x34x34x128 ![0, 1, 1, 0] ![0, 1, 1, 0] ![0, 0, 0, 0] x (id (constant (F := Ideal) S_ .f32 0x458CA000#32))
    pads_S32x32x32x128_S32x34x34x128_000_110_110_000 h_S_

def rpoolA (y : Vec Ideal S32x64x64x64 .f32) : Vec Ideal S32x32x32x64 .f32 :=
  Host.reduce (FloatOps.maximumf (F := Ideal) (φ := .f32))
    (shapeCast S32x32x2x32x2x64 y shapeCasts_S32x64x64x64_S32x32x2x32x2x64)
    (constant (F := Ideal) S_ .f32 0xFF800000#32) reducesTo_S32x32x2x32x2x64_S32x32x32x64_d2_4 h_S_

def rpoolB (y : Vec Ideal S32x32x32x128 .f32) : Vec Ideal S32x16x16x128 .f32 :=
  Host.reduce (FloatOps.maximumf (F := Ideal) (φ := .f32))
    (shapeCast S32x16x2x16x2x128 y shapeCasts_S32x32x32x128_S32x16x2x16x2x128)
    (constant (F := Ideal) S_ .f32 0xFF800000#32) reducesTo_S32x16x2x16x2x128_S32x16x16x128_d2_4 h_S_

def rflat (y : Vec Ideal S32x16x16x128 .f32) : Vec Ideal S32x32768 .f32 :=
  shapeCast S32x32768 y shapeCasts_S32x16x16x128_S32x32768

def refNet (a0 : Vec Ideal S32x64x64x1 .f32) (a1 : Vec Ideal S9x64 .f32) (a2 : Vec Ideal S9x64 .f32)
    (a3 : Vec Ideal S576x64 .f32) (a4 : Vec Ideal S9x64 .f32) (a5 : Vec Ideal S576x128 .f32) (a6 : Vec Ideal S9x128 .f32)
    (a7 : Vec Ideal S1152x128 .f32) (a8 : Vec Ideal S9x128 .f32) (a9 : Vec Ideal S32768x256 .f32) (a10 : Vec Ideal S256 .f32)
    (a11 : Vec Ideal S256x10 .f32) (a12 : Vec Ideal S10 .f32) : Vec Ideal S32x10 .f32 :=
  outRef
    (denseRef
      (rflat (rpoolB (convRef3 (rpad3 (convRef2 (rpad2 (rpoolA (convRef1 (rpad1 (convRef0 (rpad0 a0) a1 (rdm0 a2))) a3
        (rdm1 a4)))) a5 (rdm2 a6))) a7 (rdm3 a8))))
      a9 a10)
    a11 a12

end Cert.ReferenceIdeal.RefRun

end
-- ==== Proof.Ref.StageA.lean ====
import proofs.«133004_j26104811225511_1_alg».proof.Proof.Ref.Ops
import proofs.«133004_j26104811225511_1_alg».proof.Proof.Ref.Layers

noncomputable section

namespace Cert.ReferenceIdeal.RefRun

open Cert.ReferenceIdeal Cert.ReferenceIdeal.Gen Cert.ReferenceIdeal.Bridge Idealize.ShloMosaic Idealize.ShloMosaic.TcCoe Idealize.SL.Sem Idealize.ShloMosaic.StableHlo

set_option maxHeartbeats 1000000 in

theorem stageA_v27 (W : Valuation τ sig (Elt Ideal)) :
    after (opsA (F := Ideal)) W (main_v27 : DevRef τ sig)
      = convRef0 (rpad0 (W (main_arg0 : DevRef τ sig))) (W (main_arg1 : DevRef τ sig)) (rdm0 (W (main_arg2 : DevRef τ sig))) := by
  simp only [opsA]
  after_results_simp
  rfl

set_option maxHeartbeats 1000000 in

theorem stageA_c_0 (W : Valuation τ sig (Elt Ideal)) : after (opsA (F := Ideal)) W (main_c_0 : DevRef τ sig) = rtab1 := by
  simp only [opsA]
  after_results_simp
  rfl

set_option maxHeartbeats 1000000 in

theorem stageA_c_1 (W : Valuation τ sig (Elt Ideal)) : after (opsA (F := Ideal)) W (main_c_1 : DevRef τ sig) = rtab2 := by
  simp only [opsA]
  after_results_simp
  rfl

set_option maxHeartbeats 1000000 in

theorem stageA_c_2 (W : Valuation τ sig (Elt Ideal)) : after (opsA (F := Ideal)) W (main_c_2 : DevRef τ sig) = rtab3 := by
  simp only [opsA]
  after_results_simp
  rfl

end Cert.ReferenceIdeal.RefRun

end
-- ==== Proof.Ref.StageB.lean ====
import proofs.«133004_j26104811225511_1_alg».proof.Proof.Ref.Ops
import proofs.«133004_j26104811225511_1_alg».proof.Proof.Ref.Layers

noncomputable section

namespace Cert.ReferenceIdeal.RefRun

open Cert.ReferenceIdeal Cert.ReferenceIdeal.Gen Cert.ReferenceIdeal.Bridge Idealize.ShloMosaic Idealize.ShloMosaic.TcCoe Idealize.SL.Sem Idealize.ShloMosaic.StableHlo

set_option maxHeartbeats 1000000 in

theorem stageB_v57 (W : Valuation τ sig (Elt Ideal)) :
    after (opsB2 (F := Ideal)) (after (opsB1 (F := Ideal)) W) (main_v57 : DevRef τ sig)
      = rpoolA (convRef1 (rpad1 (W (main_v27 : DevRef τ sig))) (W (main_arg3 : DevRef τ sig))
          (Host.gather gather_S9x64_S64x64x1_S64x64x64_2_0_n_n_0_2_164 (W (main_arg4 : DevRef τ sig)) (ridx64 (W (main_c_0 : DevRef τ sig))))) := by
  simp only [opsB1, opsB2]
  after_results_simp
  rfl

end Cert.ReferenceIdeal.RefRun

end
-- ==== Proof.Ref.StageC.lean ====
import proofs.«133004_j26104811225511_1_alg».proof.Proof.Ref.Ops
import proofs.«133004_j26104811225511_1_alg».proof.Proof.Ref.Layers

noncomputable section

namespace Cert.ReferenceIdeal.RefRun

open Cert.ReferenceIdeal Cert.ReferenceIdeal.Gen Cert.ReferenceIdeal.Bridge Idealize.ShloMosaic Idealize.ShloMosaic.TcCoe Idealize.SL.Sem Idealize.ShloMosaic.StableHlo

set_option maxHeartbeats 1000000 in

theorem stageC_v85 (W : Valuation τ sig (Elt Ideal)) :
    after (opsC (F := Ideal)) W (main_v85 : DevRef τ sig)
      = convRef2 (rpad2 (W (main_v57 : DevRef τ sig))) (W (main_arg5 : DevRef τ sig))
          (Host.gather gather_S9x128_S32x32x1_S32x32x128_2_0_n_n_0_2_1128 (W (main_arg6 : DevRef τ sig)) (ridx32 (W (main_c_1 : DevRef τ sig)))) := by
  simp only [opsC]
  after_results_simp
  rfl

end Cert.ReferenceIdeal.RefRun

end
-- ==== Proof.Ref.StageD.lean ====
import proofs.«133004_j26104811225511_1_alg».proof.Proof.Ref.Ops
import proofs.«133004_j26104811225511_1_alg».proof.Proof.Ref.Layers

noncomputable section

namespace Cert.ReferenceIdeal.RefRun

open Cert.ReferenceIdeal Cert.ReferenceIdeal.Gen Cert.ReferenceIdeal.Bridge Idealize.ShloMosaic Idealize.ShloMosaic.TcCoe Idealize.SL.Sem Idealize.ShloMosaic.StableHlo

set_option maxHeartbeats 1000000 in

theorem stageD_v116 (W : Valuation τ sig (Elt Ideal)) :
    after (opsD2 (F := Ideal)) (after (opsD1 (F := Ideal)) W) (main_v116 : DevRef τ sig)
      = rflat (rpoolB (convRef3 (rpad3 (W (main_v85 : DevRef τ sig))) (W (main_arg7 : DevRef τ sig))
          (Host.gather gather_S9x128_S32x32x1_S32x32x128_2_0_n_n_0_2_1128 (W (main_arg8 : DevRef τ sig)) (ridx32 (W (main_c_2 : DevRef τ sig)))))) := by
  simp only [opsD2, opsD1]
  after_results_simp
  rfl

end Cert.ReferenceIdeal.RefRun

end
-- ==== Proof.Ref.StageE.lean ====
import proofs.«133004_j26104811225511_1_alg».proof.Proof.Ref.Ops
import proofs.«133004_j26104811225511_1_alg».proof.Proof.Ref.Layers

noncomputable section

namespace Cert.ReferenceIdeal.RefRun

open Cert.ReferenceIdeal Cert.ReferenceIdeal.Gen Cert.ReferenceIdeal.Bridge Idealize.ShloMosaic Idealize.ShloMosaic.TcCoe Idealize.SL.Sem Idealize.ShloMosaic.StableHlo

theorem stageE_v126 (W : Valuation τ sig (Elt Ideal)) :
    after (opsE (F := Ideal)) W (main_v126 : DevRef τ sig)
      = denseRef (W (main_v116 : DevRef τ sig)) (W (main_arg9 : DevRef τ sig)) (W (main_arg10 : DevRef τ sig)) := by
  simp only [opsE]
  after_results_simp
  rfl

theorem stageG_v132 (W : Valuation τ sig (Elt Ideal)) :
    after (opsG (F := Ideal)) W (main_v132 : DevRef τ sig)
      = outRef (W (main_v126 : DevRef τ sig)) (W (main_arg11 : DevRef τ sig)) (W (main_arg12 : DevRef τ sig)) := by
  simp only [opsG]
  after_results_simp
  rfl

end Cert.ReferenceIdeal.RefRun

end
-- ==== Proof.Ref.Run.lean ====
import proofs.«133004_j26104811225511_1_alg».proof.Proof.Ref.Main
import proofs.«133004_j26104811225511_1_alg».proof.Proof.Ref.Keep
import proofs.«133004_j26104811225511_1_alg».proof.Proof.Ref.Layers
import proofs.«133004_j26104811225511_1_alg».proof.Proof.Ref.StageA
import proofs.«133004_j26104811225511_1_alg».proof.Proof.Ref.StageB
import proofs.«133004_j26104811225511_1_alg».proof.Proof.Ref.StageC
import proofs.«133004_j26104811225511_1_alg».proof.Proof.Ref.StageD
import proofs.«133004_j26104811225511_1_alg».proof.Proof.Ref.StageE

noncomputable section

namespace Cert.ReferenceIdeal.RefRun

open Cert.ReferenceIdeal Cert.ReferenceIdeal.Gen Cert.ReferenceIdeal.Bridge Idealize.ShloMosaic Idealize.ShloMosaic.TcCoe Idealize.SL.Sem Idealize.ShloMosaic.StableHlo

section AnyFloats

variable {F : FTy → Type} [FloatOps F]

theorem after_ops (V : Valuation τ sig (Elt F)) :
    after ops V = after opsG (after opsE (after opsD2 (after opsD1 (after opsC (after opsB2 (after opsB1 (after opsA V))))))) := by
  simp only [ops, after_app]

/-- A reference none of the eight lists writes keeps its contents through the whole program. -/
theorem after_ops_keep (V : Valuation τ sig (Elt F)) (r : Ref sig .tc) (hA : r ∉ opsA_W := by decide) (hB1 : r ∉ opsB1_W := by decide)
    (hB2 : r ∉ opsB2_W := by decide) (hC : r ∉ opsC_W := by decide) (hD1 : r ∉ opsD1_W := by decide) (hD2 : r ∉ opsD2_W := by decide)
    (hE : r ∉ opsE_W := by decide) (hG : r ∉ opsG_W := by decide) :
    after ops V (Proc.devRef .tc r) = V (Proc.devRef .tc r) := by
  rw [after_ops, keep_opsG _ r hG, keep_opsE _ r hE, keep_opsD2 _ r hD2, keep_opsD1 _ r hD1, keep_opsC _ r hC, keep_opsB2 _ r hB2,
    keep_opsB1 _ r hB1, keep_opsA _ r hA]

end AnyFloats

/-- Each list leaves its layer's function of what it reads; an argument or index table read there was kept by every list in between. -/
theorem after_ops_v132 (V : Valuation τ sig (Elt Ideal)) :
    after (ops (F := Ideal)) V (main_v132 : DevRef τ sig)
      = refNet (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops, stageG_v132, stageE_v126]
  repeat rw [keep_opsE]
  rw [stageD_v116]
  repeat rw [keep_opsD2]
  repeat rw [keep_opsD1]
  rw [stageC_v85]
  repeat rw [keep_opsC]
  rw [stageB_v57]
  repeat rw [keep_opsB2]
  repeat rw [keep_opsB1]
  rw [stageA_v27, stageA_c_0, stageA_c_1, stageA_c_2]
  repeat rw [keep_opsA]
  · unfold refNet rdm1 rdm2 rdm3
    rfl
  all_goals decide

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v132) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v132).trans (after_ops_v132 _),
      (h c main_arg0).trans (after_ops_keep _ main_arg0),
      (h c main_arg1).trans (after_ops_keep _ main_arg1),
      (h c main_arg2).trans (after_ops_keep _ main_arg2),
      (h c main_arg3).trans (after_ops_keep _ main_arg3),
      (h c main_arg4).trans (after_ops_keep _ main_arg4),
      (h c main_arg5).trans (after_ops_keep _ main_arg5),
      (h c main_arg6).trans (after_ops_keep _ main_arg6),
      (h c main_arg7).trans (after_ops_keep _ main_arg7),
      (h c main_arg8).trans (after_ops_keep _ main_arg8),
      (h c main_arg9).trans (after_ops_keep _ main_arg9),
      (h c main_arg10).trans (after_ops_keep _ main_arg10),
      (h c main_arg11).trans (after_ops_keep _ main_arg11),
      (h c main_arg12).trans (after_ops_keep _ main_arg12)⟩)
    (run_raw m ρ)

end Cert.ReferenceIdeal.RefRun

end
-- ==== Proof.Bridge.ConvLib.lean ====
import proofs.«133004_j26104811225511_1_alg».proof.ReferenceIdeal
import proofs.«133004_j26104811225511_1_alg».proof.Proof.Spec
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

noncomputable section

open scoped BigOperators

namespace Cert.ReferenceIdeal.Bridge

open Idealize.ShloMosaic Idealize.ShloMosaic.ValueIdx Cert.ReferenceIdeal

-- (q, ch) ↦ q·C + ch is a bijection from pairs to the 9·C rows, and finite sums may be regrouped.
theorem sum_tap {M : Type*} [AddCommMonoid M] (C : Nat) (g : Fin (9 * C) → M) :
    ∑ k : Fin (9 * C), g k = ∑ q : Fin 9, ∑ ch : Fin C, g (Cert.Spec.tapW q ch) := by
  rw [← Equiv.sum_comp finProdFinEquiv g, Fintype.sum_prod_type]
  refine Finset.sum_congr rfl fun q _ => Finset.sum_congr rfl fun ch _ => congrArg g (Fin.ext ?_)
  show ch.val + C * q.val = q.val * C + ch.val
  rw [Nat.mul_comm, Nat.add_comm]

variable {B H W C Co : Nat}

-- A coordinate on an axis of extent 1 is 0.
theorem val_eq_ite {n : Nat} (x : Fin n) : x.val = if n = 1 then 0 else x.val := by
  split
  · omega
  · rfl

-- Offsets q / 3 ≤ 2 and q % 3 ≤ 2 keep an H×W window inside the (H+2)×(W+2) padded input.
theorem tap_slices (q : Fin 9) :
    (⟨4, ![B, H + 2, W + 2, C]⟩ : Shape).Slices ![0, q.val / 3, q.val % 3, 0] ⟨4, ![B, H, W, C]⟩ :=
  ⟨rfl, fun a => by
    match a with
    | ⟨0, _⟩ => exact Nat.le_of_eq (Nat.zero_add _)
    | ⟨1, _⟩ => show q.val / 3 + H ≤ H + 2; omega
    | ⟨2, _⟩ => show q.val % 3 + W ≤ W + 2; omega
    | ⟨3, _⟩ => exact Nat.le_of_eq (Nat.zero_add _)⟩

/-- Tap q's window of the padded input: offsets (q / 3, q % 3) on the two spatial axes. -/
abbrev tap (xp : Vec Ideal ⟨4, ![B, H + 2, W + 2, C]⟩ .f32) (q : Fin 9) : Vec Ideal ⟨4, ![B, H, W, C]⟩ .f32 :=
  extractStridedSlice _ ![0, q.val / 3, q.val % 3, 0] xp (tap_slices q)

-- Stacked channel q·C + ch has quotient q and remainder ch by C, so it lies in tap q's window at channel ch.
theorem cat_apply (xp : Vec Ideal ⟨4, ![B, H + 2, W + 2, C]⟩ .f32)
    (hc : Shape.Concatenates ((List.ofFn fun q : Fin 9 => (⟨_, tap xp q⟩ : (s : Shape) × Vec Ideal s .f32)).map (·.1))
      ⟨4, ![B, H, W, 9 * C]⟩ 3)
    (b : Fin B) (h : Fin H) (w : Fin W) (q : Fin 9) (ch : Fin C) :
    concatenate ⟨4, ![B, H, W, 9 * C]⟩ 3 (List.ofFn fun q : Fin 9 => ⟨_, tap xp q⟩) hc (ix4 b h w (Cert.Spec.tapW q ch))
      = xp (ix4 b (Cert.Spec.tapRow h q) (Cert.Spec.tapCol w q) ch) := by
  refine (concatenate_ofFn_apply (t := ⟨4, ![B, H, W, 9 * C]⟩) 3 (tap xp) hc rfl C rfl _ q ?_ (ix4 b h w ch) ?_
    fun a ha => ?_).trans (extractStridedSlice_apply _ _ _ _ _ fun a => ?_)
  · show (q.val * C + ch.val) / C = q.val
    rw [Nat.mul_comm, Nat.mul_add_div (Nat.zero_lt_of_lt ch.isLt), Nat.div_eq_of_lt ch.isLt, Nat.add_zero]
  · show ch.val = (q.val * C + ch.val) % C
    rw [Nat.mul_comm, Nat.mul_add_mod, Nat.mod_eq_of_lt ch.isLt]
  · match a, ha with
    | ⟨0, _⟩, _ => rfl
    | ⟨1, _⟩, _ => rfl
    | ⟨2, _⟩, _ => rfl
    | ⟨3, _⟩, ha => exact absurd rfl ha
  · match a with
    | ⟨0, _⟩ => exact (Nat.zero_add _).symm
    | ⟨1, _⟩ => exact Nat.add_comm _ _
    | ⟨2, _⟩ => exact Nat.add_comm _ _
    | ⟨3, _⟩ => exact (Nat.zero_add _).symm

-- Broadcasting over the batch drops the batch coordinate; on an axis of extent 1 the coordinate is 0 either way.
theorem thr_apply {h2 : (⟨4, ![1, H, W, Co]⟩ : Shape).BroadcastsInDim ⟨4, ![B, H, W, Co]⟩ ![0, 1, 2, 3]}
    {h1 : (⟨3, ![H, W, Co]⟩ : Shape).BroadcastsInDim ⟨4, ![1, H, W, Co]⟩ ![1, 2, 3]}
    {h0 : S_.BroadcastsInDim ⟨3, ![H, W, Co]⟩ ![]}
    (c : BitVec 32) (dm : Vec Ideal ⟨3, ![H, W, Co]⟩ .f32) (b : Fin B) (h : Fin H) (w : Fin W) (f : Fin Co) :
    broadcastInDim ⟨4, ![B, H, W, Co]⟩ ![0, 1, 2, 3] h2 (broadcastInDim ⟨4, ![1, H, W, Co]⟩ ![1, 2, 3] h1
        (subf (broadcastInDim ⟨3, ![H, W, Co]⟩ ![] h0 (constant (F := Ideal) S_ .f32 c)) dm)) (ix4 b h w f)
      = Ideal.ofBits .f32 c - dm (ix3 h w f) :=
  (broadcastInDim_apply _ _ _ (ix4 b h w f) (ix4 (0 : Fin 1) h w f) fun a => by
    match a with
    | ⟨0, _⟩ => rfl
    | ⟨1, _⟩ => exact val_eq_ite h
    | ⟨2, _⟩ => exact val_eq_ite w
    | ⟨3, _⟩ => exact val_eq_ite f).trans
  (broadcastInDim_apply _ _ _ (ix4 (0 : Fin 1) h w f) (ix3 h w f) fun a => by
    match a with
    | ⟨0, _⟩ => exact val_eq_ite h
    | ⟨1, _⟩ => exact val_eq_ite w
    | ⟨2, _⟩ => exact val_eq_ite f)

-- A product contracting the left operand's last axis against the right's first, read at one entry, is the sum over that axis.
theorem dot_apply {K : Nat} (D : DotDims ⟨4, ![B, H, W, K]⟩ ⟨2, ![K, Co]⟩ ⟨4, ![B, H, W, Co]⟩)
    (hr : D.contr.rank = 1) (hs : D.contr.size ⟨0, by omega⟩ = K)
    (l0 : ∀ i q, (D.lhsIdx i q 0).val = (i 0).val) (l1 : ∀ i q, (D.lhsIdx i q 1).val = (i 1).val)
    (l2 : ∀ i q, (D.lhsIdx i q 2).val = (i 2).val) (l3 : ∀ i q, (D.lhsIdx i q 3).val = (q ⟨0, by omega⟩).val)
    (r0 : ∀ i q, (D.rhsIdx i q 0).val = (q ⟨0, by omega⟩).val) (r1 : ∀ i q, (D.rhsIdx i q 1).val = (i 3).val)
    (l : Vec Ideal ⟨4, ![B, H, W, K]⟩ .f32) (r : Vec Ideal ⟨2, ![K, Co]⟩ .f32) (b : Fin B) (h : Fin H) (w : Fin W) (f : Fin Co) :
    Host.dotGeneral (F := Ideal) (φ₁ := .f32) (φ₂ := .f32) D none l r (ix4 b h w f)
      = ∑ k : Fin K, l (ix4 b h w k) * r (ix2 k f) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix4 b h w f) ((contrEquiv1 D K hr hs).symm k) = ix4 b h w k := funext fun a => Fin.ext (by
    match a with
    | ⟨0, _⟩ => exact l0 _ _
    | ⟨1, _⟩ => exact l1 _ _
    | ⟨2, _⟩ => exact l2 _ _
    | ⟨3, _⟩ => exact (l3 _ _).trans hk)
  have er : D.rhsIdx (ix4 b h w f) ((contrEquiv1 D K hr hs).symm k) = ix2 k f := funext fun a => Fin.ext (by
    match a with
    | ⟨0, _⟩ => exact (r0 _ _).trans hk
    | ⟨1, _⟩ => exact r1 _ _)
  rw [el, er]

variable [Facts]
open Facts₀ Facts

-- A rank-0 constant broadcast to any shape is that constant at every index.
theorem bcast_const_apply {t : Shape} (h : S_.BroadcastsInDim t ![]) (c : BitVec 32) (j : t.Idx) :
    broadcastInDim t ![] h (constant (F := Ideal) S_ .f32 c) j = Ideal.ofBits .f32 c := rfl

-- The product's sum over the 9·C stacked channels regroups as the double sum over taps q and channels ch.
theorem conv_eq (D : DotDims ⟨4, ![B, H, W, 9 * C]⟩ ⟨2, ![9 * C, Co]⟩ ⟨4, ![B, H, W, Co]⟩)
    (hr : D.contr.rank = 1) (hs : D.contr.size ⟨0, by omega⟩ = 9 * C)
    (l0 : ∀ i q, (D.lhsIdx i q 0).val = (i 0).val) (l1 : ∀ i q, (D.lhsIdx i q 1).val = (i 1).val)
    (l2 : ∀ i q, (D.lhsIdx i q 2).val = (i 2).val) (l3 : ∀ i q, (D.lhsIdx i q 3).val = (q ⟨0, by omega⟩).val)
    (r0 : ∀ i q, (D.rhsIdx i q 0).val = (q ⟨0, by omega⟩).val) (r1 : ∀ i q, (D.rhsIdx i q 1).val = (i 3).val)
    (lo hi : BitVec 32) (xp : Vec Ideal ⟨4, ![B, H + 2, W + 2, C]⟩ .f32) (wt : Vec Ideal ⟨2, ![9 * C, Co]⟩ .f32)
    (dm : Vec Ideal ⟨3, ![H, W, Co]⟩ .f32)
    {hc : Shape.Concatenates ((List.ofFn fun q : Fin 9 => (⟨_, tap xp q⟩ : (s : Shape) × Vec Ideal s .f32)).map (·.1))
      ⟨4, ![B, H, W, 9 * C]⟩ 3}
    {g0 : S_.BroadcastsInDim ⟨4, ![B, H, W, 9 * C]⟩ ![]} {g4 : S_.BroadcastsInDim ⟨4, ![B, H, W, Co]⟩ ![]}
    {h2 : (⟨4, ![1, H, W, Co]⟩ : Shape).BroadcastsInDim ⟨4, ![B, H, W, Co]⟩ ![0, 1, 2, 3]}
    {h1 : (⟨3, ![H, W, Co]⟩ : Shape).BroadcastsInDim ⟨4, ![1, H, W, Co]⟩ ![1, 2, 3]}
    {h0 : S_.BroadcastsInDim ⟨3, ![H, W, Co]⟩ ![]} :
    (fun i => Cert.Spec.convAt (B := B) (H := H) (W := W) (C := C) (Co := Co) (Ideal.ofBits .f32 lo) (Ideal.ofBits .f32 hi)
        (fun b h w ch => xp (ix4 b h w ch)) (fun k f => wt (ix2 k f)) (fun h w f => dm (ix3 h w f)) (i 0) (i 1) (i 2) (i 3))
      = minimumf
          (addf
            (Host.dotGeneral (F := Ideal) (φ₁ := .f32) (φ₂ := .f32) D none
              (subf (concatenate ⟨4, ![B, H, W, 9 * C]⟩ 3 (List.ofFn fun q : Fin 9 => ⟨_, tap xp q⟩) hc)
                (broadcastInDim ⟨4, ![B, H, W, 9 * C]⟩ ![] g0 (constant (F := Ideal) S_ .f32 lo)))
              wt)
            (broadcastInDim ⟨4, ![B, H, W, Co]⟩ ![0, 1, 2, 3] h2 (broadcastInDim ⟨4, ![1, H, W, Co]⟩ ![1, 2, 3] h1
              (subf (broadcastInDim ⟨3, ![H, W, Co]⟩ ![] h0 (constant (F := Ideal) S_ .f32 hi)) dm))))
          (broadcastInDim ⟨4, ![B, H, W, Co]⟩ ![] g4 (constant (F := Ideal) S_ .f32 hi)) := by
  funext i
  refine Eq.trans (Eq.symm ?_) (congrArg _ (eq_ix4 i).symm)
  unfold Cert.Spec.convAt
  refine congrArg₂ min (congrArg₂ (· + ·) ?_ (thr_apply _ dm _ _ _ _)) (bcast_const_apply _ _ _)
  refine (dot_apply D hr hs l0 l1 l2 l3 r0 r1 _ wt _ _ _ _).trans ((sum_tap C _).trans ?_)
  refine Finset.sum_congr rfl fun q _ => Finset.sum_congr rfl fun ch _ => ?_
  refine congrArg (· * wt (ix2 (Cert.Spec.tapW q ch) (i 3))) ?_
  exact congrArg₂ (· - ·) (cat_apply xp hc _ _ _ q ch) (bcast_const_apply _ _ _)

end Cert.ReferenceIdeal.Bridge

end
-- ==== Proof.Bridge.Conv0.lean ====
import proofs.«133004_j26104811225511_1_alg».proof.Proof.Bridge.ConvRef
import proofs.«133004_j26104811225511_1_alg».proof.Proof.Bridge.ConvLib

noncomputable section

namespace Cert.ReferenceIdeal.Bridge

open Idealize.ShloMosaic Cert.ReferenceIdeal

variable [Facts]

-- The first layer is the general one at B = 32, H = W = 64, C = 1, Co = 64.
theorem convFn0_eq_convRef0 (xp : Vec Ideal S32x66x66x1 .f32) (wt : Vec Ideal S9x64 .f32) (dm : Vec Ideal S64x64x64 .f32) :
    Cert.KernelIdeal.Net.convFn0 xp wt dm = convRef0 xp wt dm :=
  conv_eq (C := 1) dot_S32x64x64x9_S9x64_S32x64x64x64_3_0_012_1_n_n rfl rfl (fun _ _ => rfl) (fun _ _ => rfl)
    (fun _ _ => rfl) (fun _ _ => rfl) (fun _ _ => rfl) (fun _ _ => rfl) _ _ xp wt dm

end Cert.ReferenceIdeal.Bridge

end
-- ==== Proof.Bridge.Conv1.lean ====
import proofs.«133004_j26104811225511_1_alg».proof.Proof.Bridge.ConvRef
import proofs.«133004_j26104811225511_1_alg».proof.Proof.Bridge.ConvLib

noncomputable section

namespace Cert.ReferenceIdeal.Bridge

open Idealize.ShloMosaic Cert.ReferenceIdeal

variable [Facts]

-- The second layer is the general one at B = 32, H = W = 64, C = Co = 64.
theorem convFn1_eq_convRef1 (xp : Vec Ideal S32x66x66x64 .f32) (wt : Vec Ideal S576x64 .f32) (dm : Vec Ideal S64x64x64 .f32) :
    Cert.KernelIdeal.Net.convFn1 xp wt dm = convRef1 xp wt dm :=
  conv_eq (C := 64) dot_S32x64x64x576_S576x64_S32x64x64x64_3_0_012_1_n_n rfl rfl (fun _ _ => rfl) (fun _ _ => rfl)
    (fun _ _ => rfl) (fun _ _ => rfl) (fun _ _ => rfl) (fun _ _ => rfl) _ _ xp wt dm

end Cert.ReferenceIdeal.Bridge

end
-- ==== Proof.Bridge.Conv2.lean ====
import proofs.«133004_j26104811225511_1_alg».proof.Proof.Bridge.ConvRef
import proofs.«133004_j26104811225511_1_alg».proof.Proof.Bridge.ConvLib

noncomputable section

namespace Cert.ReferenceIdeal.Bridge

open Idealize.ShloMosaic Cert.ReferenceIdeal

variable [Facts]

-- The third layer is the general one at B = 32, H = W = 32, C = 64, Co = 128.
theorem convFn2_eq_convRef2 (xp : Vec Ideal S32x34x34x64 .f32) (wt : Vec Ideal S576x128 .f32) (dm : Vec Ideal S32x32x128 .f32) :
    Cert.KernelIdeal.Net.convFn2 xp wt dm = convRef2 xp wt dm :=
  conv_eq (C := 64) dot_S32x32x32x576_S576x128_S32x32x32x128_3_0_012_1_n_n rfl rfl (fun _ _ => rfl) (fun _ _ => rfl)
    (fun _ _ => rfl) (fun _ _ => rfl) (fun _ _ => rfl) (fun _ _ => rfl) _ _ xp wt dm

end Cert.ReferenceIdeal.Bridge

end
-- ==== Proof.Bridge.Conv3.lean ====
import proofs.«133004_j26104811225511_1_alg».proof.Proof.Bridge.ConvRef
import proofs.«133004_j26104811225511_1_alg».proof.Proof.Bridge.ConvLib

noncomputable section

namespace Cert.ReferenceIdeal.Bridge

open Idealize.ShloMosaic Cert.ReferenceIdeal

variable [Facts]

-- The fourth layer is the general one at B = 32, H = W = 32, C = Co = 128.
theorem convFn3_eq_convRef3 (xp : Vec Ideal S32x34x34x128 .f32) (wt : Vec Ideal S1152x128 .f32) (dm : Vec Ideal S32x32x128 .f32) :
    Cert.KernelIdeal.Net.convFn3 xp wt dm = convRef3 xp wt dm :=
  conv_eq (C := 128) dot_S32x32x32x1152_S1152x128_S32x32x32x128_3_0_012_1_n_n rfl rfl (fun _ _ => rfl) (fun _ _ => rfl)
    (fun _ _ => rfl) (fun _ _ => rfl) (fun _ _ => rfl) (fun _ _ => rfl) _ _ xp wt dm

end Cert.ReferenceIdeal.Bridge

end
-- ==== Proof.Bridge.DenseOut.lean ====
import proofs.«133004_j26104811225511_1_alg».proof.Proof.Bridge.DenseOutRef
import Idealize.ShloMosaic.Lib.StackMember
import Idealize.ShloMosaic.Lib.KernelVsHost
import Idealize.ShloMosaic.Lib.IdealHost
import Mathlib.Logic.Equiv.Fin.Basic

noncomputable section

open scoped BigOperators

namespace Cert.ReferenceIdeal.Bridge

open Idealize.ShloMosaic Idealize.ShloMosaic.ValueIdx Cert.ReferenceIdeal

theorem sum_blocks {M : Type*} [AddCommMonoid M] (m n : Nat) (g : Fin (m * n) → M) :
    ∑ c, g c = ∑ t : Fin m, ∑ k : Fin n,
      g ⟨t.val * n + k.val, by
        have := t.isLt; have := k.isLt
        calc t.val * n + k.val < t.val * n + n := by omega
          _ = (t.val + 1) * n := by ring
          _ ≤ m * n := Nat.mul_le_mul_right n (by omega)⟩ := by
  rw [← Equiv.sum_comp finProdFinEquiv g, Fintype.sum_prod_type]
  refine Finset.sum_congr rfl fun t _ => Finset.sum_congr rfl fun k _ => ?_
  refine congrArg g (Fin.ext ?_)
  show k.val + n * t.val = t.val * n + k.val
  rw [Nat.mul_comm, Nat.add_comm]

variable [Facts₀]
open Facts₀

theorem denseFn4_eq_denseRef (x : Vec Ideal S32x32768 .f32) (wt : Vec Ideal S32768x256 .f32) (d : Vec Ideal S256 .f32) :
    Cert.KernelIdeal.Net.denseFn4 x wt (fun i => d (ix1 (i 1))) = denseRef x wt d := by
  funext i
  obtain ⟨b, f, rfl⟩ : ∃ (b : Fin 32) (f : Fin 256), i = ix2 b f := ⟨i 0, i 1, eq_ix2 i⟩

  have hdot : Host.dotGeneral (φ₁ := .f32) (φ₂ := .f32) dot_S32x32768_S32768x256_S32x256_1_0_0_1_n_n none
        (subf x (broadcastInDim S32x32768 ![] bcast_S_S32x32768 (constant (F := Ideal) S_ .f32 0x45BB8000#32))) wt (ix2 b f)
      = ∑ c : Fin 32768, (x (ix2 b c) - Ideal.ofBits .f32 0x45BB8000#32) * wt (ix2 c f) :=
    StackMember.dotGeneral_plain_apply (m := 32) (n := 256) (k := 32768) none _ wt b f

  have hrow : broadcastInDim S32x256 ![0, 1] bcast_S1x256_S32x256_0_1
        (broadcastInDim S1x256 ![1] bcast_S256_S1x256_1
          (subf (broadcastInDim S256 ![] bcast_S_S256 (constant (F := Ideal) S_ .f32 0x45EA6000#32)) d)) (ix2 b f)
      = Ideal.ofBits .f32 0x45EA6000#32 - d (ix1 f) := by
    refine (broadcastInDim_oneRow_apply _ _ b f).trans ?_
    refine (broadcastInDim_apply ![1] _ _ (ix2 (0 : Fin 1) f) (ix1 f) ?_).trans rfl
    intro a
    match a with
    | ⟨0, _⟩ =>
      show f.val = if (256 : ℕ) = 1 then 0 else f.val
      rw [if_neg (by decide)]

  have href : denseRef x wt d (ix2 b f)
      = min ((∑ c : Fin 32768, (x (ix2 b c) - Ideal.ofBits .f32 0x45BB8000#32) * wt (ix2 c f))
          + (Ideal.ofBits .f32 0x45EA6000#32 - d (ix1 f))) (Ideal.ofBits .f32 0x45EA6000#32) := by
    unfold denseRef
    rw [minimumf_apply, addf_apply, hdot, hrow]
    rfl

  rw [href, show (∑ c : Fin 32768, (x (ix2 b c) - Ideal.ofBits .f32 0x45BB8000#32) * wt (ix2 c f)) = _ from
    sum_blocks 8 4096 fun c : Fin (8 * 4096) => (x (ix2 b c) - Ideal.ofBits .f32 0x45BB8000#32) * wt (ix2 c f)]
  rfl

theorem outFn5_eq_outRef (x : Vec Ideal S32x256 .f32) (wt : Vec Ideal S256x10 .f32) (d : Vec Ideal S10 .f32) :
    Cert.KernelIdeal.Net.outFn5 x wt (fun i => d (ix1 (i 1))) = outRef x wt d := by
  funext i
  obtain ⟨b, f, rfl⟩ : ∃ (b : Fin 32) (f : Fin 10), i = ix2 b f := ⟨i 0, i 1, eq_ix2 i⟩
  have hdot : Host.dotGeneral (φ₁ := .f32) (φ₂ := .f32) dot_S32x256_S256x10_S32x10_1_0_0_1_n_n none
        (subf (broadcastInDim S32x256 ![] bcast_S_S32x256 (constant (F := Ideal) S_ .f32 0x45EA6000#32)) x) wt (ix2 b f)
      = ∑ c : Fin 256, (Ideal.ofBits .f32 0x45EA6000#32 - x (ix2 b c)) * wt (ix2 c f) :=
    StackMember.dotGeneral_plain_apply (m := 32) (n := 10) (k := 256) none _ wt b f
  have hrow : broadcastInDim S32x10 ![0, 1] bcast_S1x10_S32x10_0_1 (broadcastInDim S1x10 ![1] bcast_S10_S1x10_1 d) (ix2 b f)
      = d (ix1 f) := by
    refine (broadcastInDim_oneRow_apply _ _ b f).trans ?_
    refine broadcastInDim_apply ![1] _ _ (ix2 (0 : Fin 1) f) (ix1 f) ?_
    intro a
    match a with
    | ⟨0, _⟩ =>
      show f.val = if (10 : ℕ) = 1 then 0 else f.val
      rw [if_neg (by decide)]
  have href : outRef x wt d (ix2 b f)
      = d (ix1 f) + ∑ c : Fin 256, (Ideal.ofBits .f32 0x45EA6000#32 - x (ix2 b c)) * wt (ix2 c f) := by
    unfold outRef
    rw [addf_apply, hdot, hrow]
  rw [href]
  rfl

end Cert.ReferenceIdeal.Bridge

end
-- ==== Proof.Bridge.Glue.lean ====
import proofs.«133004_j26104811225511_1_alg».proof.KernelIdeal
import Idealize.ShloMosaic.PureOps.Ideal
import Idealize.ShloMosaic.Lib.ValueIdx
import Idealize.ShloMosaic.Lib.Pipeline.Value

noncomputable section

namespace Cert.Bridge

open Idealize.ShloMosaic Idealize.ShloMosaic.ValueIdx

variable [hK : Cert.KernelIdeal.Facts]

/-- A vector of 256 as a 1 × 256 array: entry (0, k) is entry k, the row-major positions being equal. -/
theorem glue_row256 (d : Vec Ideal Cert.KernelIdeal.S256 .f32) :
    shapeCast Cert.KernelIdeal.S1x256 d Cert.KernelIdeal.Facts₀.shapeCasts_S256_S1x256 = fun i => d (ix1 (i 1)) := by
  funext i
  refine shapeCast_apply d _ i (ix1 (i 1)) ?_
  rw [Shape.rowMajor_val_one, Shape.rowMajor_val_two]
  have h0 : (i 0).val < 1 := (i 0).isLt
  show (i 1).val = (i 0).val * 256 + (i 1).val
  omega

/-- The same for a vector of 10. -/
theorem glue_row10 (d : Vec Ideal Cert.KernelIdeal.S10 .f32) :
    shapeCast Cert.KernelIdeal.S1x10 d Cert.KernelIdeal.Facts₀.shapeCasts_S10_S1x10 = fun i => d (ix1 (i 1)) := by
  funext i
  refine shapeCast_apply d _ i (ix1 (i 1)) ?_
  rw [Shape.rowMajor_val_one, Shape.rowMajor_val_two]
  have h0 : (i 0).val < 1 := (i 0).isLt
  show (i 1).val = (i 0).val * 10 + (i 1).val
  omega

end Cert.Bridge

end
-- ==== Proof.Bridge.Tables.lean ====
import proofs.«133004_j26104811225511_1_alg».proof.KernelIdeal
import proofs.«133004_j26104811225511_1_alg».proof.ReferenceIdeal

namespace Cert.ReferenceIdeal.Bridge

open Idealize.ShloMosaic

/-! The four integer index tables are printed in both programs with the same words: entry by entry the digit trees
    agree below each table's length, so the constant arrays read from them in row-major order are equal. -/

set_option maxRecDepth 100000 in
theorem lit0t_eq : ∀ n, n < 4096 → Cert.KernelIdeal.lit0t n = Cert.ReferenceIdeal.lit0t n := by
  decide +kernel

theorem table0_eq :
    (fun i : Cert.KernelIdeal.S64x64.Idx => Cert.KernelIdeal.lit0 (Cert.KernelIdeal.S64x64.rowMajor i))
      = fun i : Cert.ReferenceIdeal.S64x64.Idx => Cert.ReferenceIdeal.lit0 (Cert.ReferenceIdeal.S64x64.rowMajor i) :=
  funext fun i => lit0t_eq _ (Cert.KernelIdeal.S64x64.rowMajor i).isLt

set_option maxRecDepth 100000 in
theorem lit1t_eq : ∀ n, n < 4096 → Cert.KernelIdeal.lit1t n = Cert.ReferenceIdeal.lit1t n := by
  decide +kernel

theorem table1_eq :
    (fun i : Cert.KernelIdeal.S64x64.Idx => Cert.KernelIdeal.lit1 (Cert.KernelIdeal.S64x64.rowMajor i))
      = fun i : Cert.ReferenceIdeal.S64x64.Idx => Cert.ReferenceIdeal.lit1 (Cert.ReferenceIdeal.S64x64.rowMajor i) :=
  funext fun i => lit1t_eq _ (Cert.KernelIdeal.S64x64.rowMajor i).isLt

set_option maxRecDepth 100000 in
theorem lit2t_eq : ∀ n, n < 1024 → Cert.KernelIdeal.lit2t n = Cert.ReferenceIdeal.lit2t n := by
  decide +kernel

theorem table2_eq :
    (fun i : Cert.KernelIdeal.S32x32.Idx => Cert.KernelIdeal.lit2 (Cert.KernelIdeal.S32x32.rowMajor i))
      = fun i : Cert.ReferenceIdeal.S32x32.Idx => Cert.ReferenceIdeal.lit2 (Cert.ReferenceIdeal.S32x32.rowMajor i) :=
  funext fun i => lit2t_eq _ (Cert.KernelIdeal.S32x32.rowMajor i).isLt

set_option maxRecDepth 100000 in
theorem lit3t_eq : ∀ n, n < 1024 → Cert.KernelIdeal.lit3t n = Cert.ReferenceIdeal.lit3t n := by
  decide +kernel

theorem table3_eq :
    (fun i : Cert.KernelIdeal.S32x32.Idx => Cert.KernelIdeal.lit3 (Cert.KernelIdeal.S32x32.rowMajor i))
      = fun i : Cert.ReferenceIdeal.S32x32.Idx => Cert.ReferenceIdeal.lit3 (Cert.ReferenceIdeal.S32x32.rowMajor i) :=
  funext fun i => lit3t_eq _ (Cert.KernelIdeal.S32x32.rowMajor i).isLt

end Cert.ReferenceIdeal.Bridge
-- ==== Proof.Bridge.Net.lean ====
import proofs.«133004_j26104811225511_1_alg».proof.Proof.Net.Chain
import proofs.«133004_j26104811225511_1_alg».proof.Proof.Ref.Layers
import proofs.«133004_j26104811225511_1_alg».proof.Proof.Bridge.Conv0
import proofs.«133004_j26104811225511_1_alg».proof.Proof.Bridge.Conv1
import proofs.«133004_j26104811225511_1_alg».proof.Proof.Bridge.Conv2
import proofs.«133004_j26104811225511_1_alg».proof.Proof.Bridge.Conv3
import proofs.«133004_j26104811225511_1_alg».proof.Proof.Bridge.DenseOut
import proofs.«133004_j26104811225511_1_alg».proof.Proof.Bridge.Glue
import proofs.«133004_j26104811225511_1_alg».proof.Proof.Bridge.Tables

noncomputable section

namespace Cert.ReferenceIdeal.Bridge

open Idealize.ShloMosaic Idealize.ShloMosaic.ValueIdx
open Cert.KernelIdeal.Net Cert.ReferenceIdeal.RefRun

variable [Cert.ReferenceIdeal.Facts]

/-! The paddings, the poolings and the flattening are the same operations in both programs. -/
theorem kpad0_eq (x : Vec Ideal Cert.KernelIdeal.S32x64x64x1 .f32) : kpad0 x = rpad0 x := rfl
theorem kpad1_eq (x : Vec Ideal Cert.KernelIdeal.S32x64x64x64 .f32) : kpad1 x = rpad1 x := rfl
theorem kpad2_eq (x : Vec Ideal Cert.KernelIdeal.S32x32x32x64 .f32) : kpad2 x = rpad2 x := rfl
theorem kpad3_eq (x : Vec Ideal Cert.KernelIdeal.S32x32x32x128 .f32) : kpad3 x = rpad3 x := rfl
theorem kpoolA_eq (x : Vec Ideal Cert.KernelIdeal.S32x64x64x64 .f32) : kpoolA x = rpoolA x := rfl
theorem kpoolB_eq (x : Vec Ideal Cert.KernelIdeal.S32x32x32x128 .f32) : kpoolB x = rpoolB x := rfl
theorem kflat_eq (x : Vec Ideal Cert.KernelIdeal.S32x16x16x128 .f32) : kflat x = rflat x := rfl

/-! A threshold map: both programs gather the same table at the same index array, their constant tables being equal. -/
theorem kdm0_eq (d : Vec Ideal Cert.KernelIdeal.S9x64 .f32) : kdm0 d = rdm0 d :=
  (congrArg (fun t => Host.gather Cert.KernelIdeal.gather_S9x64_S64x64x1_S64x64x64_2_0_n_n_0_2_164 d (kix64 t)) table0_eq).trans rfl
theorem kdm1_eq (d : Vec Ideal Cert.KernelIdeal.S9x64 .f32) : kdm1 d = rdm1 d :=
  (congrArg (fun t => Host.gather Cert.KernelIdeal.gather_S9x64_S64x64x1_S64x64x64_2_0_n_n_0_2_164 d (kix64 t)) table1_eq).trans rfl
theorem kdm2_eq (d : Vec Ideal Cert.KernelIdeal.S9x128 .f32) : kdm2 d = rdm2 d :=
  (congrArg (fun t => Host.gather Cert.KernelIdeal.gather_S9x128_S32x32x1_S32x32x128_2_0_n_n_0_2_1128 d (kix32 t)) table2_eq).trans rfl
theorem kdm3_eq (d : Vec Ideal Cert.KernelIdeal.S9x128 .f32) : kdm3 d = rdm3 d :=
  (congrArg (fun t => Host.gather Cert.KernelIdeal.gather_S9x128_S32x32x1_S32x32x128_2_0_n_n_0_2_1128 d (kix32 t)) table3_eq).trans rfl

/-- Layer by layer from the input outwards: each region's layer function is the reference's layer, the threshold maps and
    the kernel's 1 × n rows read the same entries, and the paddings, poolings and flattening are the same operations. -/
theorem net_eq (a0 : Vec Ideal S32x64x64x1 .f32) (a1 : Vec Ideal S9x64 .f32) (a2 : Vec Ideal S9x64 .f32)
    (a3 : Vec Ideal S576x64 .f32) (a4 : Vec Ideal S9x64 .f32) (a5 : Vec Ideal S576x128 .f32) (a6 : Vec Ideal S9x128 .f32)
    (a7 : Vec Ideal S1152x128 .f32) (a8 : Vec Ideal S9x128 .f32) (a9 : Vec Ideal S32768x256 .f32) (a10 : Vec Ideal S256 .f32)
    (a11 : Vec Ideal S256x10 .f32) (a12 : Vec Ideal S10 .f32) :
    Cert.KernelIdeal.Net.kNet a0 a1 a2 a3 a4 a5 a6 a7 a8 a9 a10 a11 a12
      = Cert.ReferenceIdeal.RefRun.refNet a0 a1 a2 a3 a4 a5 a6 a7 a8 a9 a10 a11 a12 := by
  unfold Cert.KernelIdeal.Net.kNet Cert.ReferenceIdeal.RefRun.refNet
  rw [convFn0_eq_convRef0, convFn1_eq_convRef1, convFn2_eq_convRef2, convFn3_eq_convRef3, kdm0_eq, kdm1_eq, kdm2_eq, kdm3_eq,
    show krow256 a10 = _ from Cert.Bridge.glue_row256 a10, show krow10 a12 = _ from Cert.Bridge.glue_row10 a12,
    kpad0_eq, kpad1_eq, kpoolA_eq, kpad2_eq, kpad3_eq, kpoolB_eq, kflat_eq, denseFn4_eq_denseRef, outFn5_eq_outRef]

end Cert.ReferenceIdeal.Bridge

end
-- ==== Proof.Assemble.lean ====
import proofs.«133004_j26104811225511_1_alg».proof.Defs
import proofs.«133004_j26104811225511_1_alg».proof.Proof.Gen.Kernel
import proofs.«133004_j26104811225511_1_alg».proof.Proof.Gen.KernelIdeal
import proofs.«133004_j26104811225511_1_alg».proof.Proof.Gen.ReferenceIdeal
import proofs.«133004_j26104811225511_1_alg».proof.Proof.Gen.Pre_finite_inputs
import proofs.«133004_j26104811225511_1_alg».proof.Proof.NetB.Frame
import proofs.«133004_j26104811225511_1_alg».proof.Proof.Net.Frame
import proofs.«133004_j26104811225511_1_alg».proof.Proof.Net.Chain
import proofs.«133004_j26104811225511_1_alg».proof.Proof.Ref.Run
import proofs.«133004_j26104811225511_1_alg».proof.Proof.Bridge.Net

set_option maxRecDepth 16384

noncomputable section

namespace Cert.Proof.Parts

open Idealize.ShloMosaic Idealize.ShloMosaic.TcCoe Idealize.SL.Sem

theorem frame_Kernel : Cert.frame_Kernel := fun m ρ _ => Cert.Kernel.Net.frame_all m ρ

theorem frame_KernelIdeal : Cert.frame_KernelIdeal := fun m ρ _ => Cert.KernelIdeal.Net.frame_all m ρ

/-- The reference's frame is its run with the result dropped. -/
theorem frame_ReferenceIdeal : Cert.frame_ReferenceIdeal := fun m ρ _ =>
  (θ_run Cert.ReferenceIdeal.defs _ _).mono (fun _ h c => (h c).2) (Cert.ReferenceIdeal.RefRun.run m ρ)

theorem preserves_Kernel_KernelIdeal : Cert.preserves_Kernel_KernelIdeal := trivial

/-- Both runs end at a network function of their arguments; the arguments agree and the two network functions are one. -/
theorem algebraic_KernelIdeal_ReferenceIdeal : Cert.algebraic_KernelIdeal_ReferenceIdeal := by
  intro m ρ m' ρ' _ hagree
  refine ⟨_, (θ_run Cert.KernelIdeal.defs _ _).mono
    (fun r h c => ⟨(h c).1.trans (Cert.KernelIdeal.Net.W20_result m ρ c), (h c).2⟩) (Cert.KernelIdeal.Net.result_all m ρ), ?_⟩
  refine (θ_run Cert.ReferenceIdeal.defs _ _).mono (fun r h c => ⟨(h c).1.trans ?_, (h c).2⟩) (Cert.ReferenceIdeal.RefRun.run m' ρ')
  obtain ⟨h0, h1, h2, h3, h4, h5, h6, h7, h8, h9, h10, h11, h12⟩ := hagree c
  rw [h0, h1, h2, h3, h4, h5, h6, h7, h8, h9, h10, h11, h12]
  exact (Cert.ReferenceIdeal.Bridge.net_eq _ _ _ _ _ _ _ _ _ _ _ _ _).symm

end Cert.Proof.Parts

end
-- ==== Proof.lean ====
import proofs.«133004_j26104811225511_1_alg».proof.Defs
import proofs.«133004_j26104811225511_1_alg».proof.Proof.Gen.Kernel
import proofs.«133004_j26104811225511_1_alg».proof.Proof.Gen.Kernel.Skeleton
import proofs.«133004_j26104811225511_1_alg».proof.Proof.Gen.Kernel.Launch
import proofs.«133004_j26104811225511_1_alg».proof.Proof.Gen.Kernel.Regions
import proofs.«133004_j26104811225511_1_alg».proof.Proof.Gen.Kernel.Points
import proofs.«133004_j26104811225511_1_alg».proof.Proof.Gen.KernelIdeal
import proofs.«133004_j26104811225511_1_alg».proof.Proof.Gen.KernelIdeal.Skeleton
import proofs.«133004_j26104811225511_1_alg».proof.Proof.Gen.KernelIdeal.Launch
import proofs.«133004_j26104811225511_1_alg».proof.Proof.Gen.KernelIdeal.Regions
import proofs.«133004_j26104811225511_1_alg».proof.Proof.Gen.KernelIdeal.Points
import proofs.«133004_j26104811225511_1_alg».proof.Proof.Gen.ReferenceIdeal
import proofs.«133004_j26104811225511_1_alg».proof.Proof.Gen.Pre_finite_inputs
import Idealize.ShloMosaic.Adequacy
import Idealize.ShloMosaic.Init
import proofs.«133004_j26104811225511_1_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_Kernel, Parts.frame_KernelIdeal, Parts.frame_ReferenceIdeal, Parts.preserves_Kernel_KernelIdeal,
    Parts.algebraic_KernelIdeal_ReferenceIdeal⟩

end Cert.Proof

end
